-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 8192]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 8192]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 2048, 512]⟩ ⟨3, ![2, 2048, 8192]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x2048x512 : Shape := ⟨3, ![2, 2048, 512]⟩
abbrev S2x128 : Shape := ⟨2, ![2, 128]⟩
abbrev S128x512 : Shape := ⟨2, ![128, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S2x2048x512 .f32) (main_arg1 : FVec F S2x128 .f32) (main_arg2 : FVec F S128x512 .f32) (main_arg3 : FVec F S128x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Pre_finite_inputs_ReferenceIdeal.lean ====
abbrev S2x2048x8192 : Shape := ⟨3, ![2, 2048, 8192]⟩
abbrev S2x128 : Shape := ⟨2, ![2, 128]⟩
abbrev S128x8192 : Shape := ⟨2, ![128, 8192]⟩
abbrev S_ : Shape := ⟨0, ![]⟩

class Facts : Prop where
  bcast_S_S2x2048x8192 : S_.BroadcastsInDim S2x2048x8192 (![] : Fin 0 → Fin S2x2048x8192.rank)
  reducesTo_S2x2048x8192_S_d0_1_2 : S2x2048x8192.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S128x8192 : S_.BroadcastsInDim S128x8192 (![] : Fin 0 → Fin S128x8192.rank)
  reducesTo_S128x8192_S_d0_1 : S128x8192.ReducesTo [0, 1] S_

variable [Facts]

def fn_part1 {F : FTy → Type} [FloatOps F] (main_v13 : IVec S_ 1) (main_v16 : IVec S128x8192 1) : IVec S_ 1 :=
  let main_c_5 : IVec S_ 1 := constantI S_ 1 1#1
  let main_v17 : IVec S_ 1 := (fun x v => Host.reduce IntOp.andi x v reducesTo_S128x8192_S_d0_1 h_S_) main_v16 main_c_5
  let main_v18 : IVec S_ 1 := andi main_v13 main_v17
  main_v18

def fn {F : FTy → Type} [FloatOps F] (main_arg0 : FVec F S2x2048x8192 .f32) (main_arg1 : FVec F S2x128 .f32) (main_arg2 : FVec F S128x8192 .f32) (main_arg3 : FVec F S128x8192 .f32) : IVec S_ 1 :=
  let main_v0 : FVec F S2x2048x8192 .f32 := Host.absf main_arg0
  let main_cst : FVec F S_ .f32 := constant S_ .f32 0x7F800000#32
  let main_v1 : FVec F S2x2048x8192 .f32 := broadcastInDim S2x2048x8192 ![] bcast_S_S2x2048x8192 main_cst
  let main_v2 : IVec S2x2048x8192 1 := cmpf .olt main_v0 main_v1
  let main_c : IVec S_ 1 := constantI S_ 1 1#1
  let main_v3 : IVec S_ 1 := (fun x v => Host.reduce IntOp.andi x v reducesTo_S2x2048x8192_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128x8192 .f32 := Host.absf main_arg2
  let main_cst_2 : FVec F S_ .f32 := constant S_ .f32 0x7F800000#32
  let main_v10 : FVec F S128x8192 .f32 := broadcastInDim S128x8192 ![] bcast_S_S128x8192 main_cst_2
  let main_v11 : IVec S128x8192 1 := cmpf .olt main_v9 main_v10
  let main_c_3 : IVec S_ 1 := constantI S_ 1 1#1
  let main_v12 : IVec S_ 1 := (fun x v => Host.reduce IntOp.andi x v reducesTo_S128x8192_S_d0_1 h_S_) main_v11 main_c_3
  let main_v13 : IVec S_ 1 := andi main_v8 main_v12
  let main_v14 : FVec F S128x8192 .f32 := Host.absf main_arg3
  let main_cst_4 : FVec F S_ .f32 := constant S_ .f32 0x7F800000#32
  let main_v15 : FVec F S128x8192 .f32 := broadcastInDim S128x8192 ![] bcast_S_S128x8192 main_cst_4
  let main_v16 : IVec S128x8192 1 := cmpf .olt main_v14 main_v15
  fn_part1 (F := F) main_v13 main_v16
-- ==== Kernel.lean ====
abbrev S2x2048x512 : Shape := ⟨3, ![2, 2048, 512]⟩
abbrev S2x128 : Shape := ⟨2, ![2, 128]⟩
abbrev S128x512 : Shape := ⟨2, ![128, 512]⟩
abbrev S2x2x1024x512 : Shape := ⟨4, ![2, 2, 1024, 512]⟩
abbrev S2x2x2048 : Shape := ⟨3, ![2, 2, 2048]⟩
abbrev S15x2x2x2048 : Shape := ⟨4, ![15, 2, 2, 2048]⟩
abbrev S2 : Shape := ⟨1, ![2]⟩
abbrev S2x15 : Shape := ⟨2, ![2, 15]⟩
abbrev S_ : Shape := ⟨0, ![]⟩
abbrev S2x1024x512 : Shape := ⟨3, ![2, 1024, 512]⟩
abbrev S2x1024 : Shape := ⟨2, ![2, 1024]⟩
abbrev S1x2x1024 : Shape := ⟨3, ![1, 2, 1024]⟩
abbrev S1x1 : Shape := ⟨2, ![1, 1]⟩
abbrev S1x2x2x1024 : Shape := ⟨4, ![1, 2, 2, 1024]⟩
abbrev S2x2x1024 : Shape := ⟨3, ![2, 2, 1024]⟩
abbrev S2x512 : Shape := ⟨2, ![2, 512]⟩
abbrev S2x1x512 : Shape := ⟨3, ![2, 1, 512]⟩
abbrev S15x2x2x1024 : Shape := ⟨4, ![15, 2, 2, 1024]⟩
abbrev S2x1024x1 : Shape := ⟨3, ![2, 1024, 1]⟩
abbrev S1x2x1024x512 : Shape := ⟨4, ![1, 2, 1024, 512]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S2x2048x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x2048x512, .bf16⟩
  | .local _ .vmem, ⟨0, _⟩ => ⟨S2x2048x512, .f32⟩
  | .local _ .vmem, ⟨1, _⟩ => ⟨S2x128, .f32⟩
  | .local _ .vmem, ⟨2, _⟩ => ⟨S128x512, .f32⟩
  | .local _ .vmem, ⟨3, _⟩ => ⟨S128x512, .f32⟩
  | .local _ .vmem, ⟨4, _⟩ => ⟨S2x2048x512, .bf16⟩
  | .local _ .vmem, ⟨5, _⟩ => ⟨S2x2x1024x512, .bf16⟩
  | .local _ .vmem, ⟨6, _⟩ => ⟨S2x2x2048, .bf16⟩
  | .local _ .vmem, ⟨7, _⟩ => ⟨S15x2x2x2048, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_144 : BitVec 32 := 1#32
  let v212 : BitVec 32 := Scalar.addi v2 c1_i32_144
  let c16_i32_145 : BitVec 32 := 16#32
  let c0_i32_146 : BitVec 32 := 0#32
  let v213 : BitVec 1 := Scalar.cmpi .eq c16_i32_145 c0_i32_146
  let c1_i32_147 : BitVec 32 := 1#32
  let v214 : BitVec 32 := Scalar.select v213 c1_i32_147 c16_i32_145
  let v215 : BitVec 32 := Scalar.remsi v212 v214
  let c0_i32_149 : BitVec 32 := 0#32
  let v217 : BitVec 1 := Scalar.cmpi .slt v215 c0_i32_149
  let c0_i32_150 : BitVec 32 := 0#32
  let v218 : BitVec 1 := Scalar.cmpi .slt v214 c0_i32_150
  let v219 : BitVec 1 := Scalar.xori v217 v218
  let c0_i32_148 : BitVec 32 := 0#32
  let v216 : BitVec 1 := Scalar.cmpi .ne v215 c0_i32_148
  let v220 : BitVec 1 := Scalar.andi v219 v216
  let v221 : BitVec 32 := Scalar.addi v215 v214
  let v222 : BitVec 32 := Scalar.select v220 v221 v215
  let c1_i32_156 : BitVec 32 := 1#32
  let v223 : BitVec 32 := Scalar.muli v222 c1_i32_156
  let v224 : BitVec 32 := Scalar.addi c0_i32_157 v223
  v224.toNat
def k0_dev17 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_164 : BitVec 32 := 2#32
  let v232 : BitVec 32 := Scalar.addi v2 c2_i32_164
  let c16_i32_165 : BitVec 32 := 16#32
  let c0_i32_166 : BitVec 32 := 0#32
  let v233 : BitVec 1 := Scalar.cmpi .eq c16_i32_165 c0_i32_166
  let c1_i32_167 : BitVec 32 := 1#32
  let v234 : BitVec 32 := Scalar.select v233 c1_i32_167 c16_i32_165
  let v235 : BitVec 32 := Scalar.remsi v232 v234
  let c0_i32_169 : BitVec 32 := 0#32
  let v237 : BitVec 1 := Scalar.cmpi .slt v235 c0_i32_169
  let c0_i32_170 : BitVec 32 := 0#32
  let v238 : BitVec 1 := Scalar.cmpi .slt v234 c0_i32_170
  let v239 : BitVec 1 := Scalar.xori v237 v238
  let c0_i32_168 : BitVec 32 := 0#32
  let v236 : BitVec 1 := Scalar.cmpi .ne v235 c0_i32_168
  let v240 : BitVec 1 := Scalar.andi v239 v236
  let v241 : BitVec 32 := Scalar.addi v235 v234
  let v242 : BitVec 32 := Scalar.select v240 v241 v235
  let c1_i32_176 : BitVec 32 := 1#32
  let v243 : BitVec 32 := Scalar.muli v242 c1_i32_176
  let v244 : BitVec 32 := Scalar.addi c0_i32_177 v243
  v244.toNat
def k0_dev18 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_184 : BitVec 32 := 3#32
  let v252 : BitVec 32 := Scalar.addi v2 c3_i32_184
  let c16_i32_185 : BitVec 32 := 16#32
  let c0_i32_186 : BitVec 32 := 0#32
  let v253 : BitVec 1 := Scalar.cmpi .eq c16_i32_185 c0_i32_186
  let c1_i32_187 : BitVec 32 := 1#32
  let v254 : BitVec 32 := Scalar.select v253 c1_i32_187 c16_i32_185
  let v255 : BitVec 32 := Scalar.remsi v252 v254
  let c0_i32_189 : BitVec 32 := 0#32
  let v257 : BitVec 1 := Scalar.cmpi .slt v255 c0_i32_189
  let c0_i32_190 : BitVec 32 := 0#32
  let v258 : BitVec 1 := Scalar.cmpi .slt v254 c0_i32_190
  let v259 : BitVec 1 := Scalar.xori v257 v258
  let c0_i32_188 : BitVec 32 := 0#32
  let v256 : BitVec 1 := Scalar.cmpi .ne v255 c0_i32_188
  let v260 : BitVec 1 := Scalar.andi v259 v256
  let v261 : BitVec 32 := Scalar.addi v255 v254
  let v262 : BitVec 32 := Scalar.select v260 v261 v255
  let c1_i32_196 : BitVec 32 := 1#32
  let v263 : BitVec 32 := Scalar.muli v262 c1_i32_196
  let v264 : BitVec 32 := Scalar.addi c0_i32_197 v263
  v264.toNat
def k0_dev19 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_204 : BitVec 32 := 4#32
  let v272 : BitVec 32 := Scalar.addi v2 c4_i32_204
  let c16_i32_205 : BitVec 32 := 16#32
  let c0_i32_206 : BitVec 32 := 0#32
  let v273 : BitVec 1 := Scalar.cmpi .eq c16_i32_205 c0_i32_206
  let c1_i32_207 : BitVec 32 := 1#32
  let v274 : BitVec 32 := Scalar.select v273 c1_i32_207 c16_i32_205
  let v275 : BitVec 32 := Scalar.remsi v272 v274
  let c0_i32_209 : BitVec 32 := 0#32
  let v277 : BitVec 1 := Scalar.cmpi .slt v275 c0_i32_209
  let c0_i32_210 : BitVec 32 := 0#32
  let v278 : BitVec 1 := Scalar.cmpi .slt v274 c0_i32_210
  let v279 : BitVec 1 := Scalar.xori v277 v278
  let c0_i32_208 : BitVec 32 := 0#32
  let v276 : BitVec 1 := Scalar.cmpi .ne v275 c0_i32_208
  let v280 : BitVec 1 := Scalar.andi v279 v276
  let v281 : BitVec 32 := Scalar.addi v275 v274
  let v282 : BitVec 32 := Scalar.select v280 v281 v275
  let c1_i32_216 : BitVec 32 := 1#32
  let v283 : BitVec 32 := Scalar.muli v282 c1_i32_216
  let v284 : BitVec 32 := Scalar.addi c0_i32_217 v283
  v284.toNat
def k0_dev20 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_224 : BitVec 32 := 5#32
  let v292 : BitVec 32 := Scalar.addi v2 c5_i32_224
  let c16_i32_225 : BitVec 32 := 16#32
  let c0_i32_226 : BitVec 32 := 0#32
  let v293 : BitVec 1 := Scalar.cmpi .eq c16_i32_225 c0_i32_226
  let c1_i32_227 : BitVec 32 := 1#32
  let v294 : BitVec 32 := Scalar.select v293 c1_i32_227 c16_i32_225
  let v295 : BitVec 32 := Scalar.remsi v292 v294
  let c0_i32_229 : BitVec 32 := 0#32
  let v297 : BitVec 1 := Scalar.cmpi .slt v295 c0_i32_229
  let c0_i32_230 : BitVec 32 := 0#32
  let v298 : BitVec 1 := Scalar.cmpi .slt v294 c0_i32_230
  let v299 : BitVec 1 := Scalar.xori v297 v298
  let c0_i32_228 : BitVec 32 := 0#32
  let v296 : BitVec 1 := Scalar.cmpi .ne v295 c0_i32_228
  let v300 : BitVec 1 := Scalar.andi v299 v296
  let v301 : BitVec 32 := Scalar.addi v295 v294
  let v302 : BitVec 32 := Scalar.select v300 v301 v295
  let c1_i32_236 : BitVec 32 := 1#32
  let v303 : BitVec 32 := Scalar.muli v302 c1_i32_236
  let v304 : BitVec 32 := Scalar.addi c0_i32_237 v303
  v304.toNat
def k0_dev21 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_244 : BitVec 32 := 6#32
  let v312 : BitVec 32 := Scalar.addi v2 c6_i32_244
  let c16_i32_245 : BitVec 32 := 16#32
  let c0_i32_246 : BitVec 32 := 0#32
  let v313 : BitVec 1 := Scalar.cmpi .eq c16_i32_245 c0_i32_246
  let c1_i32_247 : BitVec 32 := 1#32
  let v314 : BitVec 32 := Scalar.select v313 c1_i32_247 c16_i32_245
  let v315 : BitVec 32 := Scalar.remsi v312 v314
  let c0_i32_249 : BitVec 32 := 0#32
  let v317 : BitVec 1 := Scalar.cmpi .slt v315 c0_i32_249
  let c0_i32_250 : BitVec 32 := 0#32
  let v318 : BitVec 1 := Scalar.cmpi .slt v314 c0_i32_250
  let v319 : BitVec 1 := Scalar.xori v317 v318
  let c0_i32_248 : BitVec 32 := 0#32
  let v316 : BitVec 1 := Scalar.cmpi .ne v315 c0_i32_248
  let v320 : BitVec 1 := Scalar.andi v319 v316
  let v321 : BitVec 32 := Scalar.addi v315 v314
  let v322 : BitVec 32 := Scalar.select v320 v321 v315
  let c1_i32_256 : BitVec 32 := 1#32
  let v323 : BitVec 32 := Scalar.muli v322 c1_i32_256
  let v324 : BitVec 32 := Scalar.addi c0_i32_257 v323
  v324.toNat
def k0_dev22 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_264 : BitVec 32 := 7#32
  let v332 : BitVec 32 := Scalar.addi v2 c7_i32_264
  let c16_i32_265 : BitVec 32 := 16#32
  let c0_i32_266 : BitVec 32 := 0#32
  let v333 : BitVec 1 := Scalar.cmpi .eq c16_i32_265 c0_i32_266
  let c1_i32_267 : BitVec 32 := 1#32
  let v334 : BitVec 32 := Scalar.select v333 c1_i32_267 c16_i32_265
  let v335 : BitVec 32 := Scalar.remsi v332 v334
  let c0_i32_269 : BitVec 32 := 0#32
  let v337 : BitVec 1 := Scalar.cmpi .slt v335 c0_i32_269
  let c0_i32_270 : BitVec 32 := 0#32
  let v338 : BitVec 1 := Scalar.cmpi .slt v334 c0_i32_270
  let v339 : BitVec 1 := Scalar.xori v337 v338
  let c0_i32_268 : BitVec 32 := 0#32
  let v336 : BitVec 1 := Scalar.cmpi .ne v335 c0_i32_268
  let v340 : BitVec 1 := Scalar.andi v339 v336
  let v341 : BitVec 32 := Scalar.addi v335 v334
  let v342 : BitVec 32 := Scalar.select v340 v341 v335
  let c1_i32_276 : BitVec 32 := 1#32
  let v343 : BitVec 32 := Scalar.muli v342 c1_i32_276
  let v344 : BitVec 32 := Scalar.addi c0_i32_277 v343
  v344.toNat
def k0_dev23 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_284 : BitVec 32 := 8#32
  let v352 : BitVec 32 := Scalar.addi v2 c8_i32_284
  let c16_i32_285 : BitVec 32 := 16#32
  let c0_i32_286 : BitVec 32 := 0#32
  let v353 : BitVec 1 := Scalar.cmpi .eq c16_i32_285 c0_i32_286
  let c1_i32_287 : BitVec 32 := 1#32
  let v354 : BitVec 32 := Scalar.select v353 c1_i32_287 c16_i32_285
  let v355 : BitVec 32 := Scalar.remsi v352 v354
  let c0_i32_289 : BitVec 32 := 0#32
  let v357 : BitVec 1 := Scalar.cmpi .slt v355 c0_i32_289
  let c0_i32_290 : BitVec 32 := 0#32
  let v358 : BitVec 1 := Scalar.cmpi .slt v354 c0_i32_290
  let v359 : BitVec 1 := Scalar.xori v357 v358
  let c0_i32_288 : BitVec 32 := 0#32
  let v356 : BitVec 1 := Scalar.cmpi .ne v355 c0_i32_288
  let v360 : BitVec 1 := Scalar.andi v359 v356
  let v361 : BitVec 32 := Scalar.addi v355 v354
  let v362 : BitVec 32 := Scalar.select v360 v361 v355
  let c1_i32_296 : BitVec 32 := 1#32
  let v363 : BitVec 32 := Scalar.muli v362 c1_i32_296
  let v364 : BitVec 32 := Scalar.addi c0_i32_297 v363
  v364.toNat
def k0_dev24 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_304 : BitVec 32 := 9#32
  let v372 : BitVec 32 := Scalar.addi v2 c9_i32_304
  let c16_i32_305 : BitVec 32 := 16#32
  let c0_i32_306 : BitVec 32 := 0#32
  let v373 : BitVec 1 := Scalar.cmpi .eq c16_i32_305 c0_i32_306
  let c1_i32_307 : BitVec 32 := 1#32
  let v374 : BitVec 32 := Scalar.select v373 c1_i32_307 c16_i32_305
  let v375 : BitVec 32 := Scalar.remsi v372 v374
  let c0_i32_309 : BitVec 32 := 0#32
  let v377 : BitVec 1 := Scalar.cmpi .slt v375 c0_i32_309
  let c0_i32_310 : BitVec 32 := 0#32
  let v378 : BitVec 1 := Scalar.cmpi .slt v374 c0_i32_310
  let v379 : BitVec 1 := Scalar.xori v377 v378
  let c0_i32_308 : BitVec 32 := 0#32
  let v376 : BitVec 1 := Scalar.cmpi .ne v375 c0_i32_308
  let v380 : BitVec 1 := Scalar.andi v379 v376
  let v381 : BitVec 32 := Scalar.addi v375 v374
  let v382 : BitVec 32 := Scalar.select v380 v381 v375
  let c1_i32_316 : BitVec 32 := 1#32
  let v383 : BitVec 32 := Scalar.muli v382 c1_i32_316
  let v384 : BitVec 32 := Scalar.addi c0_i32_317 v383
  v384.toNat
def k0_dev25 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_324 : BitVec 32 := 10#32
  let v392 : BitVec 32 := Scalar.addi v2 c10_i32_324
  let c16_i32_325 : BitVec 32 := 16#32
  let c0_i32_326 : BitVec 32 := 0#32
  let v393 : BitVec 1 := Scalar.cmpi .eq c16_i32_325 c0_i32_326
  let c1_i32_327 : BitVec 32 := 1#32
  let v394 : BitVec 32 := Scalar.select v393 c1_i32_327 c16_i32_325
  let v395 : BitVec 32 := Scalar.remsi v392 v394
  let c0_i32_329 : BitVec 32 := 0#32
  let v397 : BitVec 1 := Scalar.cmpi .slt v395 c0_i32_329
  let c0_i32_330 : BitVec 32 := 0#32
  let v398 : BitVec 1 := Scalar.cmpi .slt v394 c0_i32_330
  let v399 : BitVec 1 := Scalar.xori v397 v398
  let c0_i32_328 : BitVec 32 := 0#32
  let v396 : BitVec 1 := Scalar.cmpi .ne v395 c0_i32_328
  let v400 : BitVec 1 := Scalar.andi v399 v396
  let v401 : BitVec 32 := Scalar.addi v395 v394
  let v402 : BitVec 32 := Scalar.select v400 v401 v395
  let c1_i32_336 : BitVec 32 := 1#32
  let v403 : BitVec 32 := Scalar.muli v402 c1_i32_336
  let v404 : BitVec 32 := Scalar.addi c0_i32_337 v403
  v404.toNat
def k0_dev26 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_344 : BitVec 32 := 11#32
  let v412 : BitVec 32 := Scalar.addi v2 c11_i32_344
  let c16_i32_345 : BitVec 32 := 16#32
  let c0_i32_346 : BitVec 32 := 0#32
  let v413 : BitVec 1 := Scalar.cmpi .eq c16_i32_345 c0_i32_346
  let c1_i32_347 : BitVec 32 := 1#32
  let v414 : BitVec 32 := Scalar.select v413 c1_i32_347 c16_i32_345
  let v415 : BitVec 32 := Scalar.remsi v412 v414
  let c0_i32_349 : BitVec 32 := 0#32
  let v417 : BitVec 1 := Scalar.cmpi .slt v415 c0_i32_349
  let c0_i32_350 : BitVec 32 := 0#32
  let v418 : BitVec 1 := Scalar.cmpi .slt v414 c0_i32_350
  let v419 : BitVec 1 := Scalar.xori v417 v418
  let c0_i32_348 : BitVec 32 := 0#32
  let v416 : BitVec 1 := Scalar.cmpi .ne v415 c0_i32_348
  let v420 : BitVec 1 := Scalar.andi v419 v416
  let v421 : BitVec 32 := Scalar.addi v415 v414
  let v422 : BitVec 32 := Scalar.select v420 v421 v415
  let c1_i32_356 : BitVec 32 := 1#32
  let v423 : BitVec 32 := Scalar.muli v422 c1_i32_356
  let v424 : BitVec 32 := Scalar.addi c0_i32_357 v423
  v424.toNat
def k0_dev27 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_364 : BitVec 32 := 12#32
  let v432 : BitVec 32 := Scalar.addi v2 c12_i32_364
  let c16_i32_365 : BitVec 32 := 16#32
  let c0_i32_366 : BitVec 32 := 0#32
  let v433 : BitVec 1 := Scalar.cmpi .eq c16_i32_365 c0_i32_366
  let c1_i32_367 : BitVec 32 := 1#32
  let v434 : BitVec 32 := Scalar.select v433 c1_i32_367 c16_i32_365
  let v435 : BitVec 32 := Scalar.remsi v432 v434
  let c0_i32_369 : BitVec 32 := 0#32
  let v437 : BitVec 1 := Scalar.cmpi .slt v435 c0_i32_369
  let c0_i32_370 : BitVec 32 := 0#32
  let v438 : BitVec 1 := Scalar.cmpi .slt v434 c0_i32_370
  let v439 : BitVec 1 := Scalar.xori v437 v438
  let c0_i32_368 : BitVec 32 := 0#32
  let v436 : BitVec 1 := Scalar.cmpi .ne v435 c0_i32_368
  let v440 : BitVec 1 := Scalar.andi v439 v436
  let v441 : BitVec 32 := Scalar.addi v435 v434
  let v442 : BitVec 32 := Scalar.select v440 v441 v435
  let c1_i32_376 : BitVec 32 := 1#32
  let v443 : BitVec 32 := Scalar.muli v442 c1_i32_376
  let v444 : BitVec 32 := Scalar.addi c0_i32_377 v443
  v444.toNat
def k0_dev28 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_384 : BitVec 32 := 13#32
  let v452 : BitVec 32 := Scalar.addi v2 c13_i32_384
  let c16_i32_385 : BitVec 32 := 16#32
  let c0_i32_386 : BitVec 32 := 0#32
  let v453 : BitVec 1 := Scalar.cmpi .eq c16_i32_385 c0_i32_386
  let c1_i32_387 : BitVec 32 := 1#32
  let v454 : BitVec 32 := Scalar.select v453 c1_i32_387 c16_i32_385
  let v455 : BitVec 32 := Scalar.remsi v452 v454
  let c0_i32_389 : BitVec 32 := 0#32
  let v457 : BitVec 1 := Scalar.cmpi .slt v455 c0_i32_389
  let c0_i32_390 : BitVec 32 := 0#32
  let v458 : BitVec 1 := Scalar.cmpi .slt v454 c0_i32_390
  let v459 : BitVec 1 := Scalar.xori v457 v458
  let c0_i32_388 : BitVec 32 := 0#32
  let v456 : BitVec 1 := Scalar.cmpi .ne v455 c0_i32_388
  let v460 : BitVec 1 := Scalar.andi v459 v456
  let v461 : BitVec 32 := Scalar.addi v455 v454
  let v462 : BitVec 32 := Scalar.select v460 v461 v455
  let c1_i32_396 : BitVec 32 := 1#32
  let v463 : BitVec 32 := Scalar.muli v462 c1_i32_396
  let v464 : BitVec 32 := Scalar.addi c0_i32_397 v463
  v464.toNat
def k0_dev29 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_404 : BitVec 32 := 14#32
  let v472 : BitVec 32 := Scalar.addi v2 c14_i32_404
  let c16_i32_405 : BitVec 32 := 16#32
  let c0_i32_406 : BitVec 32 := 0#32
  let v473 : BitVec 1 := Scalar.cmpi .eq c16_i32_405 c0_i32_406
  let c1_i32_407 : BitVec 32 := 1#32
  let v474 : BitVec 32 := Scalar.select v473 c1_i32_407 c16_i32_405
  let v475 : BitVec 32 := Scalar.remsi v472 v474
  let c0_i32_409 : BitVec 32 := 0#32
  let v477 : BitVec 1 := Scalar.cmpi .slt v475 c0_i32_409
  let c0_i32_410 : BitVec 32 := 0#32
  let v478 : BitVec 1 := Scalar.cmpi .slt v474 c0_i32_410
  let v479 : BitVec 1 := Scalar.xori v477 v478
  let c0_i32_408 : BitVec 32 := 0#32
  let v476 : BitVec 1 := Scalar.cmpi .ne v475 c0_i32_408
  let v480 : BitVec 1 := Scalar.andi v479 v476
  let v481 : BitVec 32 := Scalar.addi v475 v474
  let v482 : BitVec 32 := Scalar.select v480 v481 v475
  let c1_i32_416 : BitVec 32 := 1#32
  let v483 : BitVec 32 := Scalar.muli v482 c1_i32_416
  let v484 : BitVec 32 := Scalar.addi c0_i32_417 v483
  v484.toNat
def k0_dev30 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_424 : BitVec 32 := 15#32
  let v492 : BitVec 32 := Scalar.addi v2 c15_i32_424
  let c16_i32_425 : BitVec 32 := 16#32
  let c0_i32_426 : BitVec 32 := 0#32
  let v493 : BitVec 1 := Scalar.cmpi .eq c16_i32_425 c0_i32_426
  let c1_i32_427 : BitVec 32 := 1#32
  let v494 : BitVec 32 := Scalar.select v493 c1_i32_427 c16_i32_425
  let v495 : BitVec 32 := Scalar.remsi v492 v494
  let c0_i32_429 : BitVec 32 := 0#32
  let v497 : BitVec 1 := Scalar.cmpi .slt v495 c0_i32_429
  let c0_i32_430 : BitVec 32 := 0#32
  let v498 : BitVec 1 := Scalar.cmpi .slt v494 c0_i32_430
  let v499 : BitVec 1 := Scalar.xori v497 v498
  let c0_i32_428 : BitVec 32 := 0#32
  let v496 : BitVec 1 := Scalar.cmpi .ne v495 c0_i32_428
  let v500 : BitVec 1 := Scalar.andi v499 v496
  let v501 : BitVec 32 := Scalar.addi v495 v494
  let v502 : BitVec 32 := Scalar.select v500 v501 v495
  let c1_i32_436 : BitVec 32 := 1#32
  let v503 : BitVec 32 := Scalar.muli v502 c1_i32_436
  let v504 : BitVec 32 := Scalar.addi c0_i32_437 v503
  v504.toNat
def k0_dev31 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_454 : BitVec 32 := 1#32
  let v525 : BitVec 32 := Scalar.addi v2 c1_i32_454
  let c16_i32_455 : BitVec 32 := 16#32
  let c0_i32_456 : BitVec 32 := 0#32
  let v526 : BitVec 1 := Scalar.cmpi .eq c16_i32_455 c0_i32_456
  let c1_i32_457 : BitVec 32 := 1#32
  let v527 : BitVec 32 := Scalar.select v526 c1_i32_457 c16_i32_455
  let v528 : BitVec 32 := Scalar.remsi v525 v527
  let c0_i32_459 : BitVec 32 := 0#32
  let v530 : BitVec 1 := Scalar.cmpi .slt v528 c0_i32_459
  let c0_i32_460 : BitVec 32 := 0#32
  let v531 : BitVec 1 := Scalar.cmpi .slt v527 c0_i32_460
  let v532 : BitVec 1 := Scalar.xori v530 v531
  let c0_i32_458 : BitVec 32 := 0#32
  let v529 : BitVec 1 := Scalar.cmpi .ne v528 c0_i32_458
  let v533 : BitVec 1 := Scalar.andi v532 v529
  let v534 : BitVec 32 := Scalar.addi v528 v527
  let v535 : BitVec 32 := Scalar.select v533 v534 v528
  let c1_i32_466 : BitVec 32 := 1#32
  let v536 : BitVec 32 := Scalar.muli v535 c1_i32_466
  let v537 : BitVec 32 := Scalar.addi c0_i32_467 v536
  v537.toNat
def k0_dev32 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_473 : BitVec 32 := 2#32
  let v545 : BitVec 32 := Scalar.addi v2 c2_i32_473
  let c16_i32_474 : BitVec 32 := 16#32
  let c0_i32_475 : BitVec 32 := 0#32
  let v546 : BitVec 1 := Scalar.cmpi .eq c16_i32_474 c0_i32_475
  let c1_i32_476 : BitVec 32 := 1#32
  let v547 : BitVec 32 := Scalar.select v546 c1_i32_476 c16_i32_474
  let v548 : BitVec 32 := Scalar.remsi v545 v547
  let c0_i32_478 : BitVec 32 := 0#32
  let v550 : BitVec 1 := Scalar.cmpi .slt v548 c0_i32_478
  let c0_i32_479 : BitVec 32 := 0#32
  let v551 : BitVec 1 := Scalar.cmpi .slt v547 c0_i32_479
  let v552 : BitVec 1 := Scalar.xori v550 v551
  let c0_i32_477 : BitVec 32 := 0#32
  let v549 : BitVec 1 := Scalar.cmpi .ne v548 c0_i32_477
  let v553 : BitVec 1 := Scalar.andi v552 v549
  let v554 : BitVec 32 := Scalar.addi v548 v547
  let v555 : BitVec 32 := Scalar.select v553 v554 v548
  let c1_i32_485 : BitVec 32 := 1#32
  let v556 : BitVec 32 := Scalar.muli v555 c1_i32_485
  let v557 : BitVec 32 := Scalar.addi c0_i32_486 v556
  v557.toNat
def k0_dev33 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_493 : BitVec 32 := 3#32
  let v565 : BitVec 32 := Scalar.addi v2 c3_i32_493
  let c16_i32_494 : BitVec 32 := 16#32
  let c0_i32_495 : BitVec 32 := 0#32
  let v566 : BitVec 1 := Scalar.cmpi .eq c16_i32_494 c0_i32_495
  let c1_i32_496 : BitVec 32 := 1#32
  let v567 : BitVec 32 := Scalar.select v566 c1_i32_496 c16_i32_494
  let v568 : BitVec 32 := Scalar.remsi v565 v567
  let c0_i32_498 : BitVec 32 := 0#32
  let v570 : BitVec 1 := Scalar.cmpi .slt v568 c0_i32_498
  let c0_i32_499 : BitVec 32 := 0#32
  let v571 : BitVec 1 := Scalar.cmpi .slt v567 c0_i32_499
  let v572 : BitVec 1 := Scalar.xori v570 v571
  let c0_i32_497 : BitVec 32 := 0#32
  let v569 : BitVec 1 := Scalar.cmpi .ne v568 c0_i32_497
  let v573 : BitVec 1 := Scalar.andi v572 v569
  let v574 : BitVec 32 := Scalar.addi v568 v567
  let v575 : BitVec 32 := Scalar.select v573 v574 v568
  let c1_i32_505 : BitVec 32 := 1#32
  let v576 : BitVec 32 := Scalar.muli v575 c1_i32_505
  let v577 : BitVec 32 := Scalar.addi c0_i32_506 v576
  v577.toNat
def k0_dev34 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_513 : BitVec 32 := 4#32
  let v585 : BitVec 32 := Scalar.addi v2 c4_i32_513
  let c16_i32_514 : BitVec 32 := 16#32
  let c0_i32_515 : BitVec 32 := 0#32
  let v586 : BitVec 1 := Scalar.cmpi .eq c16_i32_514 c0_i32_515
  let c1_i32_516 : BitVec 32 := 1#32
  let v587 : BitVec 32 := Scalar.select v586 c1_i32_516 c16_i32_514
  let v588 : BitVec 32 := Scalar.remsi v585 v587
  let c0_i32_518 : BitVec 32 := 0#32
  let v590 : BitVec 1 := Scalar.cmpi .slt v588 c0_i32_518
  let c0_i32_519 : BitVec 32 := 0#32
  let v591 : BitVec 1 := Scalar.cmpi .slt v587 c0_i32_519
  let v592 : BitVec 1 := Scalar.xori v590 v591
  let c0_i32_517 : BitVec 32 := 0#32
  let v589 : BitVec 1 := Scalar.cmpi .ne v588 c0_i32_517
  let v593 : BitVec 1 := Scalar.andi v592 v589
  let v594 : BitVec 32 := Scalar.addi v588 v587
  let v595 : BitVec 32 := Scalar.select v593 v594 v588
  let c1_i32_525 : BitVec 32 := 1#32
  let v596 : BitVec 32 := Scalar.muli v595 c1_i32_525
  let v597 : BitVec 32 := Scalar.addi c0_i32_526 v596
  v597.toNat
def k0_dev35 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_533 : BitVec 32 := 5#32
  let v605 : BitVec 32 := Scalar.addi v2 c5_i32_533
  let c16_i32_534 : BitVec 32 := 16#32
  let c0_i32_535 : BitVec 32 := 0#32
  let v606 : BitVec 1 := Scalar.cmpi .eq c16_i32_534 c0_i32_535
  let c1_i32_536 : BitVec 32 := 1#32
  let v607 : BitVec 32 := Scalar.select v606 c1_i32_536 c16_i32_534
  let v608 : BitVec 32 := Scalar.remsi v605 v607
  let c0_i32_538 : BitVec 32 := 0#32
  let v610 : BitVec 1 := Scalar.cmpi .slt v608 c0_i32_538
  let c0_i32_539 : BitVec 32 := 0#32
  let v611 : BitVec 1 := Scalar.cmpi .slt v607 c0_i32_539
  let v612 : BitVec 1 := Scalar.xori v610 v611
  let c0_i32_537 : BitVec 32 := 0#32
  let v609 : BitVec 1 := Scalar.cmpi .ne v608 c0_i32_537
  let v613 : BitVec 1 := Scalar.andi v612 v609
  let v614 : BitVec 32 := Scalar.addi v608 v607
  let v615 : BitVec 32 := Scalar.select v613 v614 v608
  let c1_i32_545 : BitVec 32 := 1#32
  let v616 : BitVec 32 := Scalar.muli v615 c1_i32_545
  let v617 : BitVec 32 := Scalar.addi c0_i32_546 v616
  v617.toNat
def k0_dev36 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_553 : BitVec 32 := 6#32
  let v625 : BitVec 32 := Scalar.addi v2 c6_i32_553
  let c16_i32_554 : BitVec 32 := 16#32
  let c0_i32_555 : BitVec 32 := 0#32
  let v626 : BitVec 1 := Scalar.cmpi .eq c16_i32_554 c0_i32_555
  let c1_i32_556 : BitVec 32 := 1#32
  let v627 : BitVec 32 := Scalar.select v626 c1_i32_556 c16_i32_554
  let v628 : BitVec 32 := Scalar.remsi v625 v627
  let c0_i32_558 : BitVec 32 := 0#32
  let v630 : BitVec 1 := Scalar.cmpi .slt v628 c0_i32_558
  let c0_i32_559 : BitVec 32 := 0#32
  let v631 : BitVec 1 := Scalar.cmpi .slt v627 c0_i32_559
  let v632 : BitVec 1 := Scalar.xori v630 v631
  let c0_i32_557 : BitVec 32 := 0#32
  let v629 : BitVec 1 := Scalar.cmpi .ne v628 c0_i32_557
  let v633 : BitVec 1 := Scalar.andi v632 v629
  let v634 : BitVec 32 := Scalar.addi v628 v627
  let v635 : BitVec 32 := Scalar.select v633 v634 v628
  let c1_i32_565 : BitVec 32 := 1#32
  let v636 : BitVec 32 := Scalar.muli v635 c1_i32_565
  let v637 : BitVec 32 := Scalar.addi c0_i32_566 v636
  v637.toNat
def k0_dev37 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_573 : BitVec 32 := 7#32
  let v645 : BitVec 32 := Scalar.addi v2 c7_i32_573
  let c16_i32_574 : BitVec 32 := 16#32
  let c0_i32_575 : BitVec 32 := 0#32
  let v646 : BitVec 1 := Scalar.cmpi .eq c16_i32_574 c0_i32_575
  let c1_i32_576 : BitVec 32 := 1#32
  let v647 : BitVec 32 := Scalar.select v646 c1_i32_576 c16_i32_574
  let v648 : BitVec 32 := Scalar.remsi v645 v647
  let c0_i32_578 : BitVec 32 := 0#32
  let v650 : BitVec 1 := Scalar.cmpi .slt v648 c0_i32_578
  let c0_i32_579 : BitVec 32 := 0#32
  let v651 : BitVec 1 := Scalar.cmpi .slt v647 c0_i32_579
  let v652 : BitVec 1 := Scalar.xori v650 v651
  let c0_i32_577 : BitVec 32 := 0#32
  let v649 : BitVec 1 := Scalar.cmpi .ne v648 c0_i32_577
  let v653 : BitVec 1 := Scalar.andi v652 v649
  let v654 : BitVec 32 := Scalar.addi v648 v647
  let v655 : BitVec 32 := Scalar.select v653 v654 v648
  let c1_i32_585 : BitVec 32 := 1#32
  let v656 : BitVec 32 := Scalar.muli v655 c1_i32_585
  let v657 : BitVec 32 := Scalar.addi c0_i32_586 v656
  v657.toNat
def k0_dev38 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_593 : BitVec 32 := 8#32
  let v665 : BitVec 32 := Scalar.addi v2 c8_i32_593
  let c16_i32_594 : BitVec 32 := 16#32
  let c0_i32_595 : BitVec 32 := 0#32
  let v666 : BitVec 1 := Scalar.cmpi .eq c16_i32_594 c0_i32_595
  let c1_i32_596 : BitVec 32 := 1#32
  let v667 : BitVec 32 := Scalar.select v666 c1_i32_596 c16_i32_594
  let v668 : BitVec 32 := Scalar.remsi v665 v667
  let c0_i32_598 : BitVec 32 := 0#32
  let v670 : BitVec 1 := Scalar.cmpi .slt v668 c0_i32_598
  let c0_i32_599 : BitVec 32 := 0#32
  let v671 : BitVec 1 := Scalar.cmpi .slt v667 c0_i32_599
  let v672 : BitVec 1 := Scalar.xori v670 v671
  let c0_i32_597 : BitVec 32 := 0#32
  let v669 : BitVec 1 := Scalar.cmpi .ne v668 c0_i32_597
  let v673 : BitVec 1 := Scalar.andi v672 v669
  let v674 : BitVec 32 := Scalar.addi v668 v667
  let v675 : BitVec 32 := Scalar.select v673 v674 v668
  let c1_i32_605 : BitVec 32 := 1#32
  let v676 : BitVec 32 := Scalar.muli v675 c1_i32_605
  let v677 : BitVec 32 := Scalar.addi c0_i32_606 v676
  v677.toNat
def k0_dev39 (d0 : Dev nD) : Nat :=
  let c0_i32_626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_613 : BitVec 32 := 9#32
  let v685 : BitVec 32 := Scalar.addi v2 c9_i32_613
  let c16_i32_614 : BitVec 32 := 16#32
  let c0_i32_615 : BitVec 32 := 0#32
  let v686 : BitVec 1 := Scalar.cmpi .eq c16_i32_614 c0_i32_615
  let c1_i32_616 : BitVec 32 := 1#32
  let v687 : BitVec 32 := Scalar.select v686 c1_i32_616 c16_i32_614
  let v688 : BitVec 32 := Scalar.remsi v685 v687
  let c0_i32_618 : BitVec 32 := 0#32
  let v690 : BitVec 1 := Scalar.cmpi .slt v688 c0_i32_618
  let c0_i32_619 : BitVec 32 := 0#32
  let v691 : BitVec 1 := Scalar.cmpi .slt v687 c0_i32_619
  let v692 : BitVec 1 := Scalar.xori v690 v691
  let c0_i32_617 : BitVec 32 := 0#32
  let v689 : BitVec 1 := Scalar.cmpi .ne v688 c0_i32_617
  let v693 : BitVec 1 := Scalar.andi v692 v689
  let v694 : BitVec 32 := Scalar.addi v688 v687
  let v695 : BitVec 32 := Scalar.select v693 v694 v688
  let c1_i32_625 : BitVec 32 := 1#32
  let v696 : BitVec 32 := Scalar.muli v695 c1_i32_625
  let v697 : BitVec 32 := Scalar.addi c0_i32_626 v696
  v697.toNat
def k0_dev40 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_633 : BitVec 32 := 10#32
  let v705 : BitVec 32 := Scalar.addi v2 c10_i32_633
  let c16_i32_634 : BitVec 32 := 16#32
  let c0_i32_635 : BitVec 32 := 0#32
  let v706 : BitVec 1 := Scalar.cmpi .eq c16_i32_634 c0_i32_635
  let c1_i32_636 : BitVec 32 := 1#32
  let v707 : BitVec 32 := Scalar.select v706 c1_i32_636 c16_i32_634
  let v708 : BitVec 32 := Scalar.remsi v705 v707
  let c0_i32_638 : BitVec 32 := 0#32
  let v710 : BitVec 1 := Scalar.cmpi .slt v708 c0_i32_638
  let c0_i32_639 : BitVec 32 := 0#32
  let v711 : BitVec 1 := Scalar.cmpi .slt v707 c0_i32_639
  let v712 : BitVec 1 := Scalar.xori v710 v711
  let c0_i32_637 : BitVec 32 := 0#32
  let v709 : BitVec 1 := Scalar.cmpi .ne v708 c0_i32_637
  let v713 : BitVec 1 := Scalar.andi v712 v709
  let v714 : BitVec 32 := Scalar.addi v708 v707
  let v715 : BitVec 32 := Scalar.select v713 v714 v708
  let c1_i32_645 : BitVec 32 := 1#32
  let v716 : BitVec 32 := Scalar.muli v715 c1_i32_645
  let v717 : BitVec 32 := Scalar.addi c0_i32_646 v716
  v717.toNat
def k0_dev41 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_653 : BitVec 32 := 11#32
  let v725 : BitVec 32 := Scalar.addi v2 c11_i32_653
  let c16_i32_654 : BitVec 32 := 16#32
  let c0_i32_655 : BitVec 32 := 0#32
  let v726 : BitVec 1 := Scalar.cmpi .eq c16_i32_654 c0_i32_655
  let c1_i32_656 : BitVec 32 := 1#32
  let v727 : BitVec 32 := Scalar.select v726 c1_i32_656 c16_i32_654
  let v728 : BitVec 32 := Scalar.remsi v725 v727
  let c0_i32_658 : BitVec 32 := 0#32
  let v730 : BitVec 1 := Scalar.cmpi .slt v728 c0_i32_658
  let c0_i32_659 : BitVec 32 := 0#32
  let v731 : BitVec 1 := Scalar.cmpi .slt v727 c0_i32_659
  let v732 : BitVec 1 := Scalar.xori v730 v731
  let c0_i32_657 : BitVec 32 := 0#32
  let v729 : BitVec 1 := Scalar.cmpi .ne v728 c0_i32_657
  let v733 : BitVec 1 := Scalar.andi v732 v729
  let v734 : BitVec 32 := Scalar.addi v728 v727
  let v735 : BitVec 32 := Scalar.select v733 v734 v728
  let c1_i32_665 : BitVec 32 := 1#32
  let v736 : BitVec 32 := Scalar.muli v735 c1_i32_665
  let v737 : BitVec 32 := Scalar.addi c0_i32_666 v736
  v737.toNat
def k0_dev42 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_673 : BitVec 32 := 12#32
  let v745 : BitVec 32 := Scalar.addi v2 c12_i32_673
  let c16_i32_674 : BitVec 32 := 16#32
  let c0_i32_675 : BitVec 32 := 0#32
  let v746 : BitVec 1 := Scalar.cmpi .eq c16_i32_674 c0_i32_675
  let c1_i32_676 : BitVec 32 := 1#32
  let v747 : BitVec 32 := Scalar.select v746 c1_i32_676 c16_i32_674
  let v748 : BitVec 32 := Scalar.remsi v745 v747
  let c0_i32_678 : BitVec 32 := 0#32
  let v750 : BitVec 1 := Scalar.cmpi .slt v748 c0_i32_678
  let c0_i32_679 : BitVec 32 := 0#32
  let v751 : BitVec 1 := Scalar.cmpi .slt v747 c0_i32_679
  let v752 : BitVec 1 := Scalar.xori v750 v751
  let c0_i32_677 : BitVec 32 := 0#32
  let v749 : BitVec 1 := Scalar.cmpi .ne v748 c0_i32_677
  let v753 : BitVec 1 := Scalar.andi v752 v749
  let v754 : BitVec 32 := Scalar.addi v748 v747
  let v755 : BitVec 32 := Scalar.select v753 v754 v748
  let c1_i32_685 : BitVec 32 := 1#32
  let v756 : BitVec 32 := Scalar.muli v755 c1_i32_685
  let v757 : BitVec 32 := Scalar.addi c0_i32_686 v756
  v757.toNat
def k0_dev43 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_693 : BitVec 32 := 13#32
  let v765 : BitVec 32 := Scalar.addi v2 c13_i32_693
  let c16_i32_694 : BitVec 32 := 16#32
  let c0_i32_695 : BitVec 32 := 0#32
  let v766 : BitVec 1 := Scalar.cmpi .eq c16_i32_694 c0_i32_695
  let c1_i32_696 : BitVec 32 := 1#32
  let v767 : BitVec 32 := Scalar.select v766 c1_i32_696 c16_i32_694
  let v768 : BitVec 32 := Scalar.remsi v765 v767
  let c0_i32_698 : BitVec 32 := 0#32
  let v770 : BitVec 1 := Scalar.cmpi .slt v768 c0_i32_698
  let c0_i32_699 : BitVec 32 := 0#32
  let v771 : BitVec 1 := Scalar.cmpi .slt v767 c0_i32_699
  let v772 : BitVec 1 := Scalar.xori v770 v771
  let c0_i32_697 : BitVec 32 := 0#32
  let v769 : BitVec 1 := Scalar.cmpi .ne v768 c0_i32_697
  let v773 : BitVec 1 := Scalar.andi v772 v769
  let v774 : BitVec 32 := Scalar.addi v768 v767
  let v775 : BitVec 32 := Scalar.select v773 v774 v768
  let c1_i32_705 : BitVec 32 := 1#32
  let v776 : BitVec 32 := Scalar.muli v775 c1_i32_705
  let v777 : BitVec 32 := Scalar.addi c0_i32_706 v776
  v777.toNat
def k0_dev44 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_713 : BitVec 32 := 14#32
  let v785 : BitVec 32 := Scalar.addi v2 c14_i32_713
  let c16_i32_714 : BitVec 32 := 16#32
  let c0_i32_715 : BitVec 32 := 0#32
  let v786 : BitVec 1 := Scalar.cmpi .eq c16_i32_714 c0_i32_715
  let c1_i32_716 : BitVec 32 := 1#32
  let v787 : BitVec 32 := Scalar.select v786 c1_i32_716 c16_i32_714
  let v788 : BitVec 32 := Scalar.remsi v785 v787
  let c0_i32_718 : BitVec 32 := 0#32
  let v790 : BitVec 1 := Scalar.cmpi .slt v788 c0_i32_718
  let c0_i32_719 : BitVec 32 := 0#32
  let v791 : BitVec 1 := Scalar.cmpi .slt v787 c0_i32_719
  let v792 : BitVec 1 := Scalar.xori v790 v791
  let c0_i32_717 : BitVec 32 := 0#32
  let v789 : BitVec 1 := Scalar.cmpi .ne v788 c0_i32_717
  let v793 : BitVec 1 := Scalar.andi v792 v789
  let v794 : BitVec 32 := Scalar.addi v788 v787
  let v795 : BitVec 32 := Scalar.select v793 v794 v788
  let c1_i32_725 : BitVec 32 := 1#32
  let v796 : BitVec 32 := Scalar.muli v795 c1_i32_725
  let v797 : BitVec 32 := Scalar.addi c0_i32_726 v796
  v797.toNat
def k0_dev45 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_733 : BitVec 32 := 15#32
  let v805 : BitVec 32 := Scalar.addi v2 c15_i32_733
  let c16_i32_734 : BitVec 32 := 16#32
  let c0_i32_735 : BitVec 32 := 0#32
  let v806 : BitVec 1 := Scalar.cmpi .eq c16_i32_734 c0_i32_735
  let c1_i32_736 : BitVec 32 := 1#32
  let v807 : BitVec 32 := Scalar.select v806 c1_i32_736 c16_i32_734
  let v808 : BitVec 32 := Scalar.remsi v805 v807
  let c0_i32_738 : BitVec 32 := 0#32
  let v810 : BitVec 1 := Scalar.cmpi .slt v808 c0_i32_738
  let c0_i32_739 : BitVec 32 := 0#32
  let v811 : BitVec 1 := Scalar.cmpi .slt v807 c0_i32_739
  let v812 : BitVec 1 := Scalar.xori v810 v811
  let c0_i32_737 : BitVec 32 := 0#32
  let v809 : BitVec 1 := Scalar.cmpi .ne v808 c0_i32_737
  let v813 : BitVec 1 := Scalar.andi v812 v809
  let v814 : BitVec 32 := Scalar.addi v808 v807
  let v815 : BitVec 32 := Scalar.select v813 v814 v808
  let c1_i32_745 : BitVec 32 := 1#32
  let v816 : BitVec 32 := Scalar.muli v815 c1_i32_745
  let v817 : BitVec 32 := Scalar.addi c0_i32_746 v816
  v817.toNat
abbrev stage0_0 : Fin 1 → Memref sig .tc .vmem S2x2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S2x2048x512_S2x1024x512_0_0_0 : ∀ a, (![0, 0, 0] : Fin 3 → Nat) a + S2x1024x512.size a ≤ S2x2048x512.size a
  h_S2x1024x512 : 0 < S2x1024x512.numel
  shapeCasts_S2x1024x512_S2x1024x512 : S2x1024x512.ShapeCasts S2x1024x512
  reduces_S2x1024x512_S2x1024 : S2x1024x512.Reduces [2] S2x1024
  bitsLt_bf16_f32 : FTy.bits .bf16 < FTy.bits .f32
  inb_S2x2x2048_S1x2x1024_0_0_0 : ∀ a, (![0, 0, 0] : Fin 3 → Nat) a + S1x2x1024.size a ≤ S2x2x2048.size a
  h_S1x2x1024 : 0 < S1x2x1024.numel
  shapeCasts_S1x2x1024_S2x1024 : S1x2x1024.ShapeCasts S2x1024
  shapeCasts_S2x1024_S1x2x1024 : S2x1024.ShapeCasts S1x2x1024
  packedbf16_S2x2x2048_S1x2x1024_0_0_0 : (Rect.unit (s := S2x2x2048) ![0, 0, 0] S1x2x1024.size inb_S2x2x2048_S1x2x1024_0_0_0).PackedRows (EltTy.packing .bf16)
  inb_S2x2x2048_S1x2x1024_1_0_0 : ∀ a, (![1, 0, 0] : Fin 3 → Nat) a + S1x2x1024.size a ≤ S2x2x2048.size a
  packedbf16_S2x2x2048_S1x2x1024_1_0_0 : (Rect.unit (s := S2x2x2048) ![1, 0, 0] S1x2x1024.size inb_S2x2x2048_S1x2x1024_1_0_0).PackedRows (EltTy.packing .bf16)
  hamt_15 : (15#32 : BitVec 32).msb = false
  inb_S2x15_S1x1_0_0 : ∀ a, (![0, 0] : Fin 2 → Nat) a + S1x1.size a ≤ S2x15.size a
  squeezes_S1x1_S_ : S1x1.Squeezes S_
  inb_S15x2x2x2048_S1x2x2x1024_0_0_0_0 : ∀ a, (![0, 0, 0, 0] : Fin 4 → Nat) a + S1x2x2x1024.size a ≤ S15x2x2x2048.size a
  squeezes_S1x2x2x1024_S2x2x1024 : S1x2x2x1024.Squeezes S2x2x1024
  inb_S2x2x2048_S2x2x1024_0_0_0 : ∀ a, (![0, 0, 0] : Fin 3 → Nat) a + S2x2x1024.size a ≤ S2x2x2048.size a
  wordsbf16_S2x2x2048_S2x2x1024_0_0_0 : (Rect.unit (s := S2x2x2048) ![0, 0, 0] S2x2x1024.size inb_S2x2x2048_S2x2x1024_0_0_0).WholeWords (EltTy.packing .bf16)
  wordsbf16_S15x2x2x2048_S1x2x2x1024_0_0_0_0 : (Rect.unit (s := S15x2x2x2048) ![0, 0, 0, 0] S1x2x2x1024.size inb_S15x2x2x2048_S1x2x2x1024_0_0_0_0).WholeWords (EltTy.packing .bf16)
  inb_S2x15_S1x1_0_1 : ∀ a, (![0, 1] : Fin 2 → Nat) a + S1x1.size a ≤ S2x15.size a
  inb_S15x2x2x2048_S1x2x2x1024_1_0_0_0 : ∀ a, (![1, 0, 0, 0] : Fin 4 → Nat) a + S1x2x2x1024.size a ≤ S15x2x2x2048.size a
  wordsbf16_S15x2x2x2048_S1x2x2x1024_1_0_0_0 : (Rect.unit (s := S15x2x2x2048) ![1, 0, 0, 0] S1x2x2x1024.size inb_S15x2x2x2048_S1x2x2x1024_1_0_0_0).WholeWords (EltTy.packing .bf16)
  inb_S2x15_S1x1_0_2 : ∀ a, (![0, 2] : Fin 2 → Nat) a + S1x1.size a ≤ S2x15.size a
  inb_S15x2x2x2048_S1x2x2x1024_2_0_0_0 : ∀ a, (![2, 0, 0, 0] : Fin 4 → Nat) a + S1x2x2x1024.size a ≤ S15x2x2x2048.size a
  wordsbf16_S15x2x2x2048_S1x2x2x1024_2_0_0_0 : (Rect.unit (s := S15x2x2x2048) ![2, 0, 0, 0] S1x2x2x1024.size inb_S15x2x2x2048_S1x2x2x1024_2_0_0_0).WholeWords (EltTy.packing .bf16)
  inb_S2x15_S1x1_0_3 : ∀ a, (![0, 3] : Fin 2 → Nat) a + S1x1.size a ≤ S2x15.size a
  inb_S15x2x2x2048_S1x2x2x1024_3_0_0_0 : ∀ a, (![3, 0, 0, 0] : Fin 4 → Nat) a + S1x2x2x1024.size a ≤ S15x2x2x2048.size a
  wordsbf16_S15x2x2x2048_S1x2x2x1024_3_0_0_0 : (Rect.unit (s := S15x2x2x2048) ![3, 0, 0, 0] S1x2x2x1024.size inb_S15x2x2x2048_S1x2x2x1024_3_0_0_0).WholeWords (EltTy.packing .bf16)
  inb_S2x15_S1x1_0_4 : ∀ a, (![0, 4] : Fin 2 → Nat) a + S1x1.size a ≤ S2x15.size a
  inb_S15x2x2x2048_S1x2x2x1024_4_0_0_0 : ∀ a, (![4, 0, 0, 0] : Fin 4 → Nat) a + S1x2x2x1024.size a ≤ S15x2x2x2048.size a
  wordsbf16_S15x2x2x2048_S1x2x2x1024_4_0_0_0 : (Rect.unit (s := S15x2x2x2048) ![4, 0, 0, 0] S1x2x2x1024.size inb_S15x2x2x2048_S1x2x2x1024_4_0_0_0).WholeWords (EltTy.packing .bf16)
  inb_S2x15_S1x1_0_5 : ∀ a, (![0, 5] : Fin 2 → Nat) a + S1x1.size a ≤ S2x15.size a
  inb_S15x2x2x2048_S1x2x2x1024_5_0_0_0 : ∀ a, (![5, 0, 0, 0] : Fin 4 → Nat) a + S1x2x2x1024.size a ≤ S15x2x2x2048.size a
  wordsbf16_S15x2x2x2048_S1x2x2x1024_5_0_0_0 : (Rect.unit (s := S15x2x2x2048) ![5, 0, 0, 0] S1x2x2x1024.size inb_S15x2x2x2048_S1x2x2x1024_5_0_0_0).WholeWords (EltTy.packing .bf16)
  inb_S2x15_S1x1_0_6 : ∀ a, (![0, 6] : Fin 2 → Nat) a + S1x1.size a ≤ S2x15.size a
  inb_S15x2x2x2048_S1x2x2x1024_6_0_0_0 : ∀ a, (![6, 0, 0, 0] : Fin 4 → Nat) a + S1x2x2x1024.size a ≤ S15x2x2x2048.size a
  wordsbf16_S15x2x2x2048_S1x2x2x1024_6_0_0_0 : (Rect.unit (s := S15x2x2x2048) ![6, 0, 0, 0] S1x2x2x1024.size inb_S15x2x2x2048_S1x2x2x1024_6_0_0_0).WholeWords (EltTy.packing .bf16)
  inb_S2x15_S1x1_0_7 : ∀ a, (![0, 7] : Fin 2 → Nat) a + S1x1.size a ≤ S2x15.size a
  inb_S15x2x2x2048_S1x2x2x1024_7_0_0_0 : ∀ a, (![7, 0, 0, 0] : Fin 4 → Nat) a + S1x2x2x1024.size a ≤ S15x2x2x2048.size a
  wordsbf16_S15x2x2x2048_S1x2x2x1024_7_0_0_0 : (Rect.unit (s := S15x2x2x2048) ![7, 0, 0, 0] S1x2x2x1024.size inb_S15x2x2x2048_S1x2x2x1024_7_0_0_0).WholeWords (EltTy.packing .bf16)
  inb_S2x15_S1x1_0_8 : ∀ a, (![0, 8] : Fin 2 → Nat) a + S1x1.size a ≤ S2x15.size a
  inb_S15x2x2x2048_S1x2x2x1024_8_0_0_0 : ∀ a, (![8, 0, 0, 0] : Fin 4 → Nat) a + S1x2x2x1024.size a ≤ S15x2x2x2048.size a
  wordsbf16_S15x2x2x2048_S1x2x2x1024_8_0_0_0 : (Rect.unit (s := S15x2x2x2048) ![8, 0, 0, 0] S1x2x2x1024.size inb_S15x2x2x2048_S1x2x2x1024_8_0_0_0).WholeWords (EltTy.packing .bf16)
  inb_S2x15_S1x1_0_9 : ∀ a, (![0, 9] : Fin 2 → Nat) a + S1x1.size a ≤ S2x15.size a
  inb_S15x2x2x2048_S1x2x2x1024_9_0_0_0 : ∀ a, (![9, 0, 0, 0] : Fin 4 → Nat) a + S1x2x2x1024.size a ≤ S15x2x2x2048.size a
  wordsbf16_S15x2x2x2048_S1x2x2x1024_9_0_0_0 : (Rect.unit (s := S15x2x2x2048) ![9, 0, 0, 0] S1x2x2x1024.size inb_S15x2x2x2048_S1x2x2x1024_9_0_0_0).WholeWords (EltTy.packing .bf16)
  inb_S2x15_S1x1_0_10 : ∀ a, (![0, 10] : Fin 2 → Nat) a + S1x1.size a ≤ S2x15.size a
  inb_S15x2x2x2048_S1x2x2x1024_10_0_0_0 : ∀ a, (![10, 0, 0, 0] : Fin 4 → Nat) a + S1x2x2x1024.size a ≤ S15x2x2x2048.size a
  wordsbf16_S15x2x2x2048_S1x2x2x1024_10_0_0_0 : (Rect.unit (s := S15x2x2x2048) ![10, 0, 0, 0] S1x2x2x1024.size inb_S15x2x2x2048_S1x2x2x1024_10_0_0_0).WholeWords (EltTy.packing .bf16)
  inb_S2x15_S1x1_0_11 : ∀ a, (![0, 11] : Fin 2 → Nat) a + S1x1.size a ≤ S2x15.size a
  inb_S15x2x2x2048_S1x2x2x1024_11_0_0_0 : ∀ a, (![11, 0, 0, 0] : Fin 4 → Nat) a + S1x2x2x1024.size a ≤ S15x2x2x2048.size a
  wordsbf16_S15x2x2x2048_S1x2x2x1024_11_0_0_0 : (Rect.unit (s := S15x2x2x2048) ![11, 0, 0, 0] S1x2x2x1024.size inb_S15x2x2x2048_S1x2x2x1024_11_0_0_0).WholeWords (EltTy.packing .bf16)
  inb_S2x15_S1x1_0_12 : ∀ a, (![0, 12] : Fin 2 → Nat) a + S1x1.size a ≤ S2x15.size a
  inb_S15x2x2x2048_S1x2x2x1024_12_0_0_0 : ∀ a, (![12, 0, 0, 0] : Fin 4 → Nat) a + S1x2x2x1024.size a ≤ S15x2x2x2048.size a
  wordsbf16_S15x2x2x2048_S1x2x2x1024_12_0_0_0 : (Rect.unit (s := S15x2x2x2048) ![12, 0, 0, 0] S1x2x2x1024.size inb_S15x2x2x2048_S1x2x2x1024_12_0_0_0).WholeWords (EltTy.packing .bf16)
  inb_S2x15_S1x1_0_13 : ∀ a, (![0, 13] : Fin 2 → Nat) a + S1x1.size a ≤ S2x15.size a
  inb_S15x2x2x2048_S1x2x2x1024_13_0_0_0 : ∀ a, (![13, 0, 0, 0] : Fin 4 → Nat) a + S1x2x2x1024.size a ≤ S15x2x2x2048.size a
  wordsbf16_S15x2x2x2048_S1x2x2x1024_13_0_0_0 : (Rect.unit (s := S15x2x2x2048) ![13, 0, 0, 0] S1x2x2x1024.size inb_S15x2x2x2048_S1x2x2x1024_13_0_0_0).WholeWords (EltTy.packing .bf16)
  inb_S2x15_S1x1_0_14 : ∀ a, (![0, 14] : Fin 2 → Nat) a + S1x1.size a ≤ S2x15.size a
  inb_S15x2x2x2048_S1x2x2x1024_14_0_0_0 : ∀ a, (![14, 0, 0, 0] : Fin 4 → Nat) a + S1x2x2x1024.size a ≤ S15x2x2x2048.size a
  wordsbf16_S15x2x2x2048_S1x2x2x1024_14_0_0_0 : (Rect.unit (s := S15x2x2x2048) ![14, 0, 0, 0] S1x2x2x1024.size inb_S15x2x2x2048_S1x2x2x1024_14_0_0_0).WholeWords (EltTy.packing .bf16)
  inb_S2x2048x512_S2x1024x512_0_1024_0 : ∀ a, (![0, 1024, 0] : Fin 3 → Nat) a + S2x1024x512.size a ≤ S2x2048x512.size a
  inb_S2x2x2048_S1x2x1024_0_0_1024 : ∀ a, (![0, 0, 1024] : Fin 3 → Nat) a + S1x2x1024.size a ≤ S2x2x2048.size a
  packedbf16_S2x2x2048_S1x2x1024_0_0_1024 : (Rect.unit (s := S2x2x2048) ![0, 0, 1024] S1x2x1024.size inb_S2x2x2048_S1x2x1024_0_0_1024).PackedRows (EltTy.packing .bf16)
  inb_S2x2x2048_S1x2x1024_1_0_1024 : ∀ a, (![1, 0, 1024] : Fin 3 → Nat) a + S1x2x1024.size a ≤ S2x2x2048.size a
  packedbf16_S2x2x2048_S1x2x1024_1_0_1024 : (Rect.unit (s := S2x2x2048) ![1, 0, 1024] S1x2x1024.size inb_S2x2x2048_S1x2x1024_1_0_1024).PackedRows (EltTy.packing .bf16)
  inb_S2x15_S1x1_1_0 : ∀ a, (![1, 0] : Fin 2 → Nat) a + S1x1.size a ≤ S2x15.size a
  inb_S15x2x2x2048_S1x2x2x1024_0_0_0_1024 : ∀ a, (![0, 0, 0, 1024] : Fin 4 → Nat) a + S1x2x2x1024.size a ≤ S15x2x2x2048.size a
  inb_S2x2x2048_S2x2x1024_0_0_1024 : ∀ a, (![0, 0, 1024] : Fin 3 → Nat) a + S2x2x1024.size a ≤ S2x2x2048.size a
  wordsbf16_S2x2x2048_S2x2x1024_0_0_1024 : (Rect.unit (s := S2x2x2048) ![0, 0, 1024] S2x2x1024.size inb_S2x2x2048_S2x2x1024_0_0_1024).WholeWords (EltTy.packing .bf16)
  wordsbf16_S15x2x2x2048_S1x2x2x1024_0_0_0_1024 : (Rect.unit (s := S15x2x2x2048) ![0, 0, 0, 1024] S1x2x2x1024.size inb_S15x2x2x2048_S1x2x2x1024_0_0_0_1024).WholeWords (EltTy.packing .bf16)
  inb_S2x15_S1x1_1_1 : ∀ a, (![1, 1] : Fin 2 → Nat) a + S1x1.size a ≤ S2x15.size a
  inb_S15x2x2x2048_S1x2x2x1024_1_0_0_1024 : ∀ a, (![1, 0, 0, 1024] : Fin 4 → Nat) a + S1x2x2x1024.size a ≤ S15x2x2x2048.size a
  wordsbf16_S15x2x2x2048_S1x2x2x1024_1_0_0_1024 : (Rect.unit (s := S15x2x2x2048) ![1, 0, 0, 1024] S1x2x2x1024.size inb_S15x2x2x2048_S1x2x2x1024_1_0_0_1024).WholeWords (EltTy.packing .bf16)
  inb_S2x15_S1x1_1_2 : ∀ a, (![1, 2] : Fin 2 → Nat) a + S1x1.size a ≤ S2x15.size a
  inb_S15x2x2x2048_S1x2x2x1024_2_0_0_1024 : ∀ a, (![2, 0, 0, 1024] : Fin 4 → Nat) a + S1x2x2x1024.size a ≤ S15x2x2x2048.size a
  wordsbf16_S15x2x2x2048_S1x2x2x1024_2_0_0_1024 : (Rect.unit (s := S15x2x2x2048) ![2, 0, 0, 1024] S1x2x2x1024.size inb_S15x2x2x2048_S1x2x2x1024_2_0_0_1024).WholeWords (EltTy.packing .bf16)
  inb_S2x15_S1x1_1_3 : ∀ a, (![1, 3] : Fin 2 → Nat) a + S1x1.size a ≤ S2x15.size a
  inb_S15x2x2x2048_S1x2x2x1024_3_0_0_1024 : ∀ a, (![3, 0, 0, 1024] : Fin 4 → Nat) a + S1x2x2x1024.size a ≤ S15x2x2x2048.size a
  wordsbf16_S15x2x2x2048_S1x2x2x1024_3_0_0_1024 : (Rect.unit (s := S15x2x2x2048) ![3, 0, 0, 1024] S1x2x2x1024.size inb_S15x2x2x2048_S1x2x2x1024_3_0_0_1024).WholeWords (EltTy.packing .bf16)
  inb_S2x15_S1x1_1_4 : ∀ a, (![1, 4] : Fin 2 → Nat) a + S1x1.size a ≤ S2x15.size a
  inb_S15x2x2x2048_S1x2x2x1024_4_0_0_1024 : ∀ a, (![4, 0, 0, 1024] : Fin 4 → Nat) a + S1x2x2x1024.size a ≤ S15x2x2x2048.size a
  wordsbf16_S15x2x2x2048_S1x2x2x1024_4_0_0_1024 : (Rect.unit (s := S15x2x2x2048) ![4, 0, 0, 1024] S1x2x2x1024.size inb_S15x2x2x2048_S1x2x2x1024_4_0_0_1024).WholeWords (EltTy.packing .bf16)
  inb_S2x15_S1x1_1_5 : ∀ a, (![1, 5] : Fin 2 → Nat) a + S1x1.size a ≤ S2x15.size a
  inb_S15x2x2x2048_S1x2x2x1024_5_0_0_1024 : ∀ a, (![5, 0, 0, 1024] : Fin 4 → Nat) a + S1x2x2x1024.size a ≤ S15x2x2x2048.size a
  wordsbf16_S15x2x2x2048_S1x2x2x1024_5_0_0_1024 : (Rect.unit (s := S15x2x2x2048) ![5, 0, 0, 1024] S1x2x2x1024.size inb_S15x2x2x2048_S1x2x2x1024_5_0_0_1024).WholeWords (EltTy.packing .bf16)
  inb_S2x15_S1x1_1_6 : ∀ a, (![1, 6] : Fin 2 → Nat) a + S1x1.size a ≤ S2x15.size a
  inb_S15x2x2x2048_S1x2x2x1024_6_0_0_1024 : ∀ a, (![6, 0, 0, 1024] : Fin 4 → Nat) a + S1x2x2x1024.size a ≤ S15x2x2x2048.size a
  wordsbf16_S15x2x2x2048_S1x2x2x1024_6_0_0_1024 : (Rect.unit (s := S15x2x2x2048) ![6, 0, 0, 1024] S1x2x2x1024.size inb_S15x2x2x2048_S1x2x2x1024_6_0_0_1024).WholeWords (EltTy.packing .bf16)
  inb_S2x15_S1x1_1_7 : ∀ a, (![1, 7] : Fin 2 → Nat) a + S1x1.size a ≤ S2x15.size a
  inb_S15x2x2x2048_S1x2x2x1024_7_0_0_1024 : ∀ a, (![7, 0, 0, 1024] : Fin 4 → Nat) a + S1x2x2x1024.size a ≤ S15x2x2x2048.size a
  wordsbf16_S15x2x2x2048_S1x2x2x1024_7_0_0_1024 : (Rect.unit (s := S15x2x2x2048) ![7, 0, 0, 1024] S1x2x2x1024.size inb_S15x2x2x2048_S1x2x2x1024_7_0_0_1024).WholeWords (EltTy.packing .bf16)
  inb_S2x15_S1x1_1_8 : ∀ a, (![1, 8] : Fin 2 → Nat) a + S1x1.size a ≤ S2x15.size a
  inb_S15x2x2x2048_S1x2x2x1024_8_0_0_1024 : ∀ a, (![8, 0, 0, 1024] : Fin 4 → Nat) a + S1x2x2x1024.size a ≤ S15x2x2x2048.size a
  wordsbf16_S15x2x2x2048_S1x2x2x1024_8_0_0_1024 : (Rect.unit (s := S15x2x2x2048) ![8, 0, 0, 1024] S1x2x2x1024.size inb_S15x2x2x2048_S1x2x2x1024_8_0_0_1024).WholeWords (EltTy.packing .bf16)
  inb_S2x15_S1x1_1_9 : ∀ a, (![1, 9] : Fin 2 → Nat) a + S1x1.size a ≤ S2x15.size a
  inb_S15x2x2x2048_S1x2x2x1024_9_0_0_1024 : ∀ a, (![9, 0, 0, 1024] : Fin 4 → Nat) a + S1x2x2x1024.size a ≤ S15x2x2x2048.size a
  wordsbf16_S15x2x2x2048_S1x2x2x1024_9_0_0_1024 : (Rect.unit (s := S15x2x2x2048) ![9, 0, 0, 1024] S1x2x2x1024.size inb_S15x2x2x2048_S1x2x2x1024_9_0_0_1024).WholeWords (EltTy.packing .bf16)
  inb_S2x15_S1x1_1_10 : ∀ a, (![1, 10] : Fin 2 → Nat) a + S1x1.size a ≤ S2x15.size a
  inb_S15x2x2x2048_S1x2x2x1024_10_0_0_1024 : ∀ a, (![10, 0, 0, 1024] : Fin 4 → Nat) a + S1x2x2x1024.size a ≤ S15x2x2x2048.size a
  wordsbf16_S15x2x2x2048_S1x2x2x1024_10_0_0_1024 : (Rect.unit (s := S15x2x2x2048) ![10, 0, 0, 1024] S1x2x2x1024.size inb_S15x2x2x2048_S1x2x2x1024_10_0_0_1024).WholeWords (EltTy.packing .bf16)
  inb_S2x15_S1x1_1_11 : ∀ a, (![1, 11] : Fin 2 → Nat) a + S1x1.size a ≤ S2x15.size a
  inb_S15x2x2x2048_S1x2x2x1024_11_0_0_1024 : ∀ a, (![11, 0, 0, 1024] : Fin 4 → Nat) a + S1x2x2x1024.size a ≤ S15x2x2x2048.size a
  wordsbf16_S15x2x2x2048_S1x2x2x1024_11_0_0_1024 : (Rect.unit (s := S15x2x2x2048) ![11, 0, 0, 1024] S1x2x2x1024.size inb_S15x2x2x2048_S1x2x2x1024_11_0_0_1024).WholeWords (EltTy.packing .bf16)
  inb_S2x15_S1x1_1_12 : ∀ a, (![1, 12] : Fin 2 → Nat) a + S1x1.size a ≤ S2x15.size a
  inb_S15x2x2x2048_S1x2x2x1024_12_0_0_1024 : ∀ a, (![12, 0, 0, 1024] : Fin 4 → Nat) a + S1x2x2x1024.size a ≤ S15x2x2x2048.size a
  wordsbf16_S15x2x2x2048_S1x2x2x1024_12_0_0_1024 : (Rect.unit (s := S15x2x2x2048) ![12, 0, 0, 1024] S1x2x2x1024.size inb_S15x2x2x2048_S1x2x2x1024_12_0_0_1024).WholeWords (EltTy.packing .bf16)
  inb_S2x15_S1x1_1_13 : ∀ a, (![1, 13] : Fin 2 → Nat) a + S1x1.size a ≤ S2x15.size a
  inb_S15x2x2x2048_S1x2x2x1024_13_0_0_1024 : ∀ a, (![13, 0, 0, 1024] : Fin 4 → Nat) a + S1x2x2x1024.size a ≤ S15x2x2x2048.size a
  wordsbf16_S15x2x2x2048_S1x2x2x1024_13_0_0_1024 : (Rect.unit (s := S15x2x2x2048) ![13, 0, 0, 1024] S1x2x2x1024.size inb_S15x2x2x2048_S1x2x2x1024_13_0_0_1024).WholeWords (EltTy.packing .bf16)
  inb_S2x15_S1x1_1_14 : ∀ a, (![1, 14] : Fin 2 → Nat) a + S1x1.size a ≤ S2x15.size a
  inb_S15x2x2x2048_S1x2x2x1024_14_0_0_1024 : ∀ a, (![14, 0, 0, 1024] : Fin 4 → Nat) a + S1x2x2x1024.size a ≤ S15x2x2x2048.size a
  wordsbf16_S15x2x2x2048_S1x2x2x1024_14_0_0_1024 : (Rect.unit (s := S15x2x2x2048) ![14, 0, 0, 1024] S1x2x2x1024.size inb_S15x2x2x2048_S1x2x2x1024_14_0_0_1024).WholeWords (EltTy.packing .bf16)
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S2x512_S2x1x512 : S2x512.ShapeCasts S2x1x512
  inb_S2x2048x512_S2x2048x512_0_0_0 : ∀ a, (![0, 0, 0] : Fin 3 → Nat) a + S2x2048x512.size a ≤ S2x2048x512.size a
  h_S2x2048x512 : 0 < S2x2048x512.numel
  shapeCasts_S2x2048x512_S2x2048x512 : S2x2048x512.ShapeCasts S2x2048x512
  packedbf16_S2x2048x512_S2x2048x512_0_0_0 : (Rect.unit (s := S2x2048x512) ![0, 0, 0] S2x2048x512.size inb_S2x2048x512_S2x2048x512_0_0_0).PackedRows (EltTy.packing .bf16)
  h_S2x2x1024 : 0 < S2x2x1024.numel
  inb_S15x2x2x2048_S15x2x2x1024_0_0_0_0 : ∀ a, (![0, 0, 0, 0] : Fin 4 → Nat) a + S15x2x2x1024.size a ≤ S15x2x2x2048.size a
  h_S15x2x2x1024 : 0 < S15x2x2x1024.numel
  reduces_S15x2x2x1024_S2x2x1024 : S15x2x2x1024.Reduces [0] S2x2x1024
  slices_S2x2x1024_o0_0_0_S1x2x1024 : S2x2x1024.Slices ![0, 0, 0] S1x2x1024
  slices_S2x2x1024_o1_0_0_S1x2x1024 : S2x2x1024.Slices ![1, 0, 0] S1x2x1024
  shapeCasts_S2x1024_S2x1024x1 : S2x1024.ShapeCasts S2x1024x1
  broadcasts_S2x1024x1_S2x1024x512 : S2x1024x1.Broadcasts S2x1024x512
  broadcasts_S2x1x512_S2x1024x512 : S2x1x512.Broadcasts S2x1024x512
  inb_S2x2x1024x512_S1x2x1024x512_0_0_0_0 : ∀ a, (![0, 0, 0, 0] : Fin 4 → Nat) a + S1x2x1024x512.size a ≤ S2x2x1024x512.size a
  h_S1x2x1024x512 : 0 < S1x2x1024x512.numel
  shapeCasts_S1x2x1024x512_S2x1024x512 : S1x2x1024x512.ShapeCasts S2x1024x512
  shapeCasts_S2x1024x512_S1x2x1024x512 : S2x1024x512.ShapeCasts S1x2x1024x512
  packedbf16_S2x2x1024x512_S1x2x1024x512_0_0_0_0 : (Rect.unit (s := S2x2x1024x512) ![0, 0, 0, 0] S1x2x1024x512.size inb_S2x2x1024x512_S1x2x1024x512_0_0_0_0).PackedRows (EltTy.packing .bf16)
  inb_S2_S1_0 : ∀ a, (![0] : Fin 1 → Nat) a + S1.size a ≤ S2.size a
  squeezes_S1_S_ : S1.Squeezes S_
  squeezes_S1x2x1024x512_S2x1024x512 : S1x2x1024x512.Squeezes S2x1024x512
  wordsbf16_S2x2x1024x512_S1x2x1024x512_0_0_0_0 : (Rect.unit (s := S2x2x1024x512) ![0, 0, 0, 0] S1x2x1024x512.size inb_S2x2x1024x512_S1x2x1024x512_0_0_0_0).WholeWords (EltTy.packing .bf16)
  wordsbf16_S2x2048x512_S2x1024x512_0_0_0 : (Rect.unit (s := S2x2048x512) ![0, 0, 0] S2x1024x512.size inb_S2x2048x512_S2x1024x512_0_0_0).WholeWords (EltTy.packing .bf16)
  inb_S15x2x2x2048_S15x2x2x1024_0_0_0_1024 : ∀ a, (![0, 0, 0, 1024] : Fin 4 → Nat) a + S15x2x2x1024.size a ≤ S15x2x2x2048.size a
  inb_S2x2x1024x512_S1x2x1024x512_1_0_0_0 : ∀ a, (![1, 0, 0, 0] : Fin 4 → Nat) a + S1x2x1024x512.size a ≤ S2x2x1024x512.size a
  packedbf16_S2x2x1024x512_S1x2x1024x512_1_0_0_0 : (Rect.unit (s := S2x2x1024x512) ![1, 0, 0, 0] S1x2x1024x512.size inb_S2x2x1024x512_S1x2x1024x512_1_0_0_0).PackedRows (EltTy.packing .bf16)
  inb_S2_S1_1 : ∀ a, (![1] : Fin 1 → Nat) a + S1.size a ≤ S2.size a
  wordsbf16_S2x2x1024x512_S1x2x1024x512_1_0_0_0 : (Rect.unit (s := S2x2x1024x512) ![1, 0, 0, 0] S1x2x1024x512.size inb_S2x2x1024x512_S1x2x1024x512_1_0_0_0).WholeWords (EltTy.packing .bf16)
  wordsbf16_S2x2048x512_S2x1024x512_0_1024_0 : (Rect.unit (s := S2x2048x512) ![0, 1024, 0] S2x1024x512.size inb_S2x2048x512_S2x1024x512_0_1024_0).WholeWords (EltTy.packing .bf16)
  dot_S2x128_S128x512_S2x512_1_0_0_1_n_n_wf : DotDims.WF S2x128 S128x512 S2x512 [1] [0] [0] [1] [] []
  hcc0_scratch4 : 4 + S2.numel ≤ 66
  hcc0_scratch5 : 6 + S2x15.numel ≤ 66
  hcc0_scratch6 : 36 + S2x15.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch4 : DmaSems sig S2 := SemArray.consecutive 4 S2 hcc0_scratch4
abbrev cc0_scratch5 : DmaSems sig S2x15 := SemArray.consecutive 6 S2x15 hcc0_scratch5
abbrev cc0_scratch6 : DmaSems sig S2x15 := SemArray.consecutive 36 S2x15 hcc0_scratch6
def dot_S2x128_S128x512_S2x512_1_0_0_1_n_n : DotDims S2x128 S128x512 S2x512 where
  lhsContracting := [1]
  rhsContracting := [0]
  lhsNonContracting := [0]
  rhsNonContracting := [1]
  lhsBatch := []
  rhsBatch := []
  wf := dot_S2x128_S128x512_S2x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x8192 : Shape := ⟨3, ![2, 2048, 8192]⟩
abbrev S2x128 : Shape := ⟨2, ![2, 128]⟩
abbrev S128x8192 : Shape := ⟨2, ![128, 8192]⟩
abbrev S_ : Shape := ⟨0, ![]⟩
abbrev S2x2048 : Shape := ⟨2, ![2, 2048]⟩
abbrev S2x2048x1 : Shape := ⟨3, ![2, 2048, 1]⟩
abbrev S2x8192 : Shape := ⟨2, ![2, 8192]⟩
abbrev S2x1x8192 : Shape := ⟨3, ![2, 1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x8192, .f32⟩
  | .hbm, ⟨1, _⟩ => ⟨S2x128, .f32⟩
  | .hbm, ⟨2, _⟩ => ⟨S128x8192, .f32⟩
  | .hbm, ⟨3, _⟩ => ⟨S128x8192, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .i32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x8192, .f32⟩
  | .hbm, ⟨18, _⟩ => ⟨S2x2048x8192, .f32⟩
  | .hbm, ⟨19, _⟩ => ⟨S2x2048x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x8192, .f32⟩
  | .hbm, ⟨35, _⟩ => ⟨S2x2048x8192, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x1, .f32⟩
  | .hbm, ⟨40, _⟩ => ⟨S2x2048x8192, .f32⟩
  | .hbm, ⟨41, _⟩ => ⟨S2x2048x8192, .f32⟩
  | .hbm, ⟨42, _⟩ => ⟨S2x8192, .f32⟩
  | .hbm, ⟨43, _⟩ => ⟨S2x8192, .f32⟩
  | .hbm, ⟨44, _⟩ => ⟨S2x1x8192, .f32⟩
  | .hbm, ⟨45, _⟩ => ⟨S_, .f32⟩
  | .hbm, ⟨46, _⟩ => ⟨S2x1x8192, .f32⟩
  | .hbm, ⟨47, _⟩ => ⟨S2x1x8192, .f32⟩
  | .hbm, ⟨48, _⟩ => ⟨S2x2048x8192, .f32⟩
  | .hbm, ⟨49, _⟩ => ⟨S2x2048x8192, .f32⟩
  | .hbm, ⟨50, _⟩ => ⟨S2x1x8192, .f32⟩
  | .hbm, ⟨51, _⟩ => ⟨S2x2048x8192, .f32⟩
  | .hbm, ⟨52, _⟩ => ⟨S2x2048x8192, .f32⟩
  | .hbm, ⟨53, _⟩ => ⟨S2x2048x8192, .bf16⟩
  | _, _ => ⟨S2x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]

class Facts₀ : Prop where
  reducesTo_S2x2048x8192_S2x2048_d2 : S2x2048x8192.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x8192_0_1_2 : S2x2048x1.BroadcastsInDim S2x2048x8192 (![0, 1, 2] : Fin 3 → Fin S2x2048x8192.rank)
  bcast_S2x8192_S2x1x8192_0_2 : S2x8192.BroadcastsInDim S2x1x8192 (![0, 2] : Fin 2 → Fin S2x1x8192.rank)
  bcast_S_S2x1x8192 : S_.BroadcastsInDim S2x1x8192 (![] : Fin 0 → Fin S2x1x8192.rank)
  bcast_S2x1x8192_S2x2048x8192_0_1_2 : S2x1x8192.BroadcastsInDim S2x2048x8192 (![0, 1, 2] : Fin 3 → Fin S2x2048x8192.rank)
  bitsLt_bf16_f32 : FTy.bits .bf16 < FTy.bits .f32
  dot_S2x128_S128x8192_S2x8192_1_0_0_1_n_n_wf : DotDims.WF S2x128 S128x8192 S2x8192 [1] [0] [0] [1] [] []

variable [Facts₀]

def dot_S2x128_S128x8192_S2x8192_1_0_0_1_n_n : DotDims S2x128 S128x8192 S2x8192 where
  lhsContracting := [1]
  rhsContracting := [0]
  lhsNonContracting := [0]
  rhsNonContracting := [1]
  lhsBatch := []
  rhsBatch := []
  wf := dot_S2x128_S128x8192_S2x8192_1_0_0_1_n_n_wf

class Facts : Prop extends Facts₀ where

variable [Facts]
-- ==== Proof.Ring16.lean ====
import proofs.«900762_g7700000000000763_dist_diff_adaln_cshard_i_b2_s2048_c512_v7x_i16_bf16_1_alg».proof.Proof.Gen.KernelIdeal

namespace Cert.KernelIdeal.KP

open Cert.KernelIdeal Idealize.ShloMosaic

def pk (c : Dev nD) (j : Fin 15) : Dev nD := ⟨(c.val + j.val + 1) % 16, Nat.mod_lt _ (by decide)⟩

def back (c : Dev nD) (j : Fin 15) : Dev nD := ⟨(c.val + 15 - j.val) % 16, Nat.mod_lt _ (by decide)⟩

theorem back_pk : ∀ (c : Dev nD) (j : Fin 15), back (pk c j) j = c := by decide
theorem pk_back : ∀ (c : Dev nD) (j : Fin 15), pk (back c j) j = c := by decide
theorem pk_pk_rev : ∀ (c : Dev nD) (j : Fin 15), pk (pk c j) (Fin.rev j) = c := by decide

def ring (j : Fin 15) : Dev nD ≃ Dev nD := ⟨fun c => pk c j, fun c => back c j, fun c => back_pk c j, fun c => pk_back c j⟩

end Cert.KernelIdeal.KP
-- ==== Proof.Proto.lean ====
import proofs.«900762_g7700000000000763_dist_diff_adaln_cshard_i_b2_s2048_c512_v7x_i16_bf16_1_alg».proof.Proof.Ring16
import proofs.«900762_g7700000000000763_dist_diff_adaln_cshard_i_b2_s2048_c512_v7x_i16_bf16_1_alg».proof.Proof.Gen.KernelIdeal.Skeleton
import proofs.«900762_g7700000000000763_dist_diff_adaln_cshard_i_b2_s2048_c512_v7x_i16_bf16_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx
import Mathlib.Tactic.DeriveFintype

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

theorem inb_sem : ∀ (h : Fin 2) (j : Fin 15) (a : Fin 2), (![h.val, j.val] : Fin 2 → Nat) a + S1x1.size a ≤ S2x15.size a := by decide

abbrev barS : Sem sig := (SemArray.scalar (sig.barrier 0 rfl) : Sems sig S_).sem

def sendS (h : Fin 2) (j : Fin 15) : DmaSem sig :=
  ((cc0_scratch5.slice (Rect.unit (s := S2x15) ![h.val, j.val] S1x1.size (inb_sem h j))).squeeze S_ squeezes_S1x1_S_).sem

def recvS (h : Fin 2) (j : Fin 15) : DmaSem sig :=
  ((cc0_scratch6.slice (Rect.unit (s := S2x15) ![h.val, j.val] S1x1.size (inb_sem h j))).squeeze S_ squeezes_S1x1_S_).sem

theorem inb_outsem : ∀ (h : Fin 2) (a : Fin 1), (![h.val] : Fin 1 → Nat) a + S1.size a ≤ S2.size a := by decide

def outS (h : Fin 2) : DmaSem sig :=
  ((cc0_scratch4.slice (Rect.unit (s := S2) ![h.val] S1.size (inb_outsem h))).squeeze S_ squeezes_S1_S_).sem
inductive CK where
  | bar
  | snd (h : Fin 2) (j : Fin 15)
  | rcv (h : Fin 2) (j : Fin 15)
  | out (h : Fin 2)
  deriving DecidableEq, Fintype

def csem : CK → SemLoc sig
  | .bar => .reg barS
  | .snd h j => .dma (sendS h j)
  | .rcv h j => .dma (recvS h j)
  | .out h => .dma (outS h)

abbrev kcell (c : Dev nD) (k : CK) : GSem nD τ sig := ((c : Thread nD τ), csem k)
abbrev barCell (c : Dev nD) : GSem nD τ sig := ((c : Thread nD τ), .reg barS)
abbrev sendCell (c : Dev nD) (h : Fin 2) (j : Fin 15) : GSem nD τ sig := ((c : Thread nD τ), .dma (sendS h j))
abbrev recvCell (c : Dev nD) (h : Fin 2) (j : Fin 15) : GSem nD τ sig := ((c : Thread nD τ), .dma (recvS h j))
abbrev outCell (c : Dev nD) (h : Fin 2) : GSem nD τ sig := ((c : Thread nD τ), .dma (outS h))

theorem csem_injective : Function.Injective csem := by decide +kernel

theorem inb_src : ∀ (h : Fin 2) (a : Fin 3), (![0, 0, 1024 * h.val] : Fin 3 → Nat) a + S2x2x1024.size a ≤ S2x2x2048.size a := by decide
theorem inb_dst : ∀ (h : Fin 2) (j : Fin 15) (a : Fin 4), (![j.val, 0, 0, 1024 * h.val] : Fin 4 → Nat) a + S1x2x2x1024.size a ≤ S15x2x2x2048.size a := by decide

abbrev statsM : Memref sig .tc .vmem S2x2x2048 .bf16 := Memref.whole cc0_scratch2
abbrev gathM : Memref sig .tc .vmem S15x2x2x2048 .bf16 := Memref.whole cc0_scratch3

def srcM (h : Fin 2) : Memref sig .tc .vmem S2x2x1024 .bf16 :=
  statsM.slice (Rect.unit (s := S2x2x2048) ![0, 0, 1024 * h.val] S2x2x1024.size (inb_src h)) (fun _ => rfl)

def dstM (h : Fin 2) (j : Fin 15) : Memref sig .tc .vmem S2x2x1024 .bf16 :=
  (gathM.slice (Rect.unit (s := S15x2x2x2048) ![j.val, 0, 0, 1024 * h.val] S1x2x2x1024.size (inb_dst h j)) (fun _ => rfl)).squeeze S2x2x1024 squeezes_S1x2x2x1024_S2x2x1024

theorem inb_osrc : ∀ (h : Fin 2) (a : Fin 4), (![h.val, 0, 0, 0] : Fin 4 → Nat) a + S1x2x1024x512.size a ≤ S2x2x1024x512.size a := by decide
theorem inb_odst : ∀ (h : Fin 2) (a : Fin 3), (![0, 1024 * h.val, 0] : Fin 3 → Nat) a + S2x1024x512.size a ≤ S2x2048x512.size a := by decide

def osrcM (h : Fin 2) : Memref sig .tc .vmem S2x1024x512 .bf16 :=
  ((Memref.whole cc0_scratch1 : Memref sig .tc .vmem S2x2x1024x512 .bf16).slice (Rect.unit (s := S2x2x1024x512) ![h.val, 0, 0, 0] S1x2x1024x512.size (inb_osrc h)) (fun _ => rfl)).squeeze S2x1024x512 squeezes_S1x2x1024x512_S2x1024x512

def odstM (h : Fin 2) : Memref sig .tc .hbm S2x1024x512 .bf16 :=
  (Memref.whole main_v1 : Memref sig .tc .hbm S2x2048x512 .bf16).slice (Rect.unit (s := S2x2048x512) ![0, 1024 * h.val, 0] S2x1024x512.size (inb_odst h)) (fun _ => rfl)

abbrev Nout : ℕ := (odstM 0).view.dmaCredit
theorem Nout_pos : 0 < Nout := View.dmaCredit_pos _ (by decide)
theorem amount_odst : ∀ (h : Fin 2), (odstM h).view.dmaCredit = Nout := by decide

abbrev N : ℕ := (dstM 0 0).view.dmaCredit
theorem N_pos : 0 < N := View.dmaCredit_pos _ (by decide)
theorem amount_dst : ∀ (h : Fin 2) (j : Fin 15), (dstM h j).view.dmaCredit = N := by decide

variable (m : (ℓ : Loc nD τ sig) → Buf (Elt F) ℓ) (ρ : Dev nD → PrngReg)

def xstg (c : Dev nD) : (cc0_stg0_0 : Ref sig .tc).ty.Contents (Elt F) :=
  (win0_0.blk (0 : Fin 1)).view.read (Elt F) (m ((c : Thread nD τ).loc main_arg0))

def slotPts (d : Dev nD) (h : Fin 2) (j : Fin 15) (f : Buf (Elt F) ((dstM h j).view.loc (d : Thread nD τ))) : sProp 𝕄 :=
  (dstM h j).view.loc (d : Thread nD τ) ↦[(dstM h j).view.set]{fullShare} f

def shrRest : ℕ → PosShare TreeShare
  | 0 => fullShare
  | n + 1 => (shrRest n).right
def shr (j : ℕ) : PosShare TreeShare := (shrRest j).left

def srcPts (c : Dev nD) (h : Fin 2) (q : PosShare TreeShare) (f : Buf (Elt F) ((srcM h).view.loc (c : Thread nD τ))) : sProp 𝕄 :=
  (srcM h).view.loc (c : Thread nD τ) ↦[(srcM h).view.set]{q} f

theorem inb_xh : ∀ (h : Fin 2) (a : Fin 3), (![0, 1024 * h.val, 0] : Fin 3 → Nat) a + S2x1024x512.size a ≤ S2x2048x512.size a := by decide

def xh (c : Dev nD) (h : Fin 2) : Vec F S2x1024x512 .f32 :=
  (Memref.whole cc0_stg0_0 : Memref sig .tc .vmem S2x2048x512 .f32).view.readAt (Elt F)
    (Rect.unit (s := S2x2048x512) ![0, 1024 * h.val, 0] S2x1024x512.size (inb_xh h)).toLoadRect (xstg m c)

def statsC (c : Dev nD) : Vec F S2x2x2048 .bf16 := fun i =>
  if hs : (i 2).val < 1024 then
    (if (i 0).val = 0 then k0_pay2 (xh m c 0) else k0_pay3 (xh m c 0)) (ValueIdx.ix3 (0 : Fin 1) (i 1 : Fin 2) (⟨(i 2).val, hs⟩ : Fin 1024))
  else
    (if (i 0).val = 0 then k0_pay6 (k0_pay5 (xh m c 1)) else k0_pay7 (k0_pay4 (xh m c 1)))
      (ValueIdx.ix3 (0 : Fin 1) (i 1 : Fin 2) (⟨(i 2).val - 1024, by have h2 : (i 2).val < 2048 := (i 2).isLt; omega⟩ : Fin 1024))

def gathC (c : Dev nD) : Vec F S15x2x2x2048 .bf16 := fun i =>
  statsC m (back c (i 0 : Fin 15)) (ValueIdx.ix3 (i 1 : Fin 2) (i 2 : Fin 2) (i 3 : Fin 2048))

def barPay (c : Dev nD) (j : Fin 15) : sProp 𝕄 :=
  iprop((∃ f, slotPts (F := F) (pk c j) 0 j f) ∗ (∃ f, slotPts (F := F) (pk c j) 1 j f)
    ∗ reached ER (recvCell (pk c j) 0 j) 0 ∗ reached ER (recvCell (pk c j) 1 j) 0)

def recvPay (c : Dev nD) (h : Fin 2) (j : Fin 15) : sProp 𝕄 := slotPts c h j (gathC m c)

def sendPay (c : Dev nD) (h : Fin 2) (j : Fin 15) : sProp 𝕄 := srcPts c h (shr j.val) (statsC m c)

theorem inb_st : ∀ (h : Fin 2) (a : Fin 3), (![0, 0, 1024 * h.val] : Fin 3 → Nat) a + S2x2x1024.size a ≤ S2x2x2048.size a := by decide
theorem inb_ga : ∀ (h : Fin 2) (a : Fin 4), (![0, 0, 0, 1024 * h.val] : Fin 4 → Nat) a + S15x2x2x1024.size a ≤ S15x2x2x2048.size a := by decide

def tstg (c : Dev nD) : (cc0_stg1_0 : Ref sig .tc).ty.Contents (Elt F) := (win0_1.blk (0 : Fin 1)).view.read (Elt F) (m ((c : Thread nD τ).loc main_arg1))
def wsstg (c : Dev nD) : (cc0_stg2_0 : Ref sig .tc).ty.Contents (Elt F) := (win0_2.blk (0 : Fin 1)).view.read (Elt F) (m ((c : Thread nD τ).loc main_arg2))
def wshstg (c : Dev nD) : (cc0_stg3_0 : Ref sig .tc).ty.Contents (Elt F) := (win0_3.blk (0 : Fin 1)).view.read (Elt F) (m ((c : Thread nD τ).loc main_arg3))

def mulV (c : Dev nD) : FVec F S2x1x512 .bf16 := k0_pay8 (tstg m c) (wsstg m c)
def addV (c : Dev nD) : FVec F S2x1x512 .bf16 := k0_pay9 (tstg m c) (wshstg m c)
def ownV (c : Dev nD) (h : Fin 2) : Vec F S2x2x1024 .bf16 :=
  statsM.view.readAt (Elt F) (Rect.unit (s := S2x2x2048) ![0, 0, 1024 * h.val] S2x2x1024.size (inb_st h)).toLoadRect (statsC m c)
def gatV (c : Dev nD) (h : Fin 2) : Vec F S15x2x2x1024 .bf16 :=
  gathM.view.readAt (Elt F) (Rect.unit (s := S15x2x2x2048) ![0, 0, 0, 1024 * h.val] S15x2x2x1024.size (inb_ga h)).toLoadRect (gathC m c)
def xbV (c : Dev nD) (h : Fin 2) : Vec F S2x1024x512 .bf16 :=
  (Memref.whole cc0_scratch0 : Memref sig .tc .vmem S2x2048x512 .bf16).view.readAt (Elt F)
    (Rect.unit (s := S2x2048x512) ![0, 1024 * h.val, 0] S2x1024x512.size (inb_xh h)).toLoadRect (k0_pay10 (xstg m c))

def outC (c : Dev nD) : Vec F S2x2048x512 .bf16 := fun i =>
  if hs : (i 1).val < 1024 then
    k0_pay11 (mulV m c) (addV m c) (ownV m c 0) (gatV m c 0) (xbV m c 0) (ValueIdx.ix4 (0 : Fin 1) (i 0 : Fin 2) (⟨(i 1).val, hs⟩ : Fin 1024) (i 2 : Fin 512))
  else
    k0_pay13 (mulV m c) (addV m c) (k0_pay12 (ownV m c 1)) (gatV m c 1) (xbV m c 1)
      (ValueIdx.ix4 (0 : Fin 1) (i 0 : Fin 2) (⟨(i 1).val - 1024, by have h2 : (i 1).val < 2048 := (i 1).isLt; omega⟩ : Fin 1024) (i 2 : Fin 512))

def odstPts (c : Dev nD) (h : Fin 2) (f : Buf (Elt F) ((odstM h).view.loc (c : Thread nD τ))) : sProp 𝕄 :=
  (odstM h).view.loc (c : Thread nD τ) ↦[(odstM h).view.set]{fullShare} f
def osrcPts (c : Dev nD) (h : Fin 2) (f : Buf (Elt F) ((osrcM h).view.loc (c : Thread nD τ))) : sProp 𝕄 :=
  (osrcM h).view.loc (c : Thread nD τ) ↦[(osrcM h).view.set]{fullShare} f
omit [FloatOps F] in
instance odstPts_storable (c : Dev nD) (h : Fin 2) (f) : BI.Storable (upEmb : UEmb _ 𝕄) (odstPts (F := F) c h f) := by unfold odstPts; infer_instance
omit [FloatOps F] in
instance osrcPts_storable (c : Dev nD) (h : Fin 2) (f) : BI.Storable (upEmb : UEmb _ 𝕄) (osrcPts (F := F) c h f) := by unfold osrcPts; infer_instance

def outPay (c : Dev nD) (h : Fin 2) : sProp 𝕄 := iprop(odstPts c h (outC m c) ∗ ∃ f, osrcPts (F := F) c h f)

omit [FloatOps F] in
instance slotPts_storable (d : Dev nD) (h : Fin 2) (j : Fin 15) (f) : BI.Storable (upEmb : UEmb _ 𝕄) (slotPts (F := F) d h j f) := by unfold slotPts; infer_instance
omit [FloatOps F] in
instance srcPts_storable (c : Dev nD) (h : Fin 2) (q : PosShare TreeShare) (f) : BI.Storable (upEmb : UEmb _ 𝕄) (srcPts (F := F) c h q f) := by unfold srcPts; infer_instance

def hS (s : DmaSem sig) : Fin 2 := ⟨(s.val - 6) / 15 % 2, Nat.mod_lt _ (by decide)⟩
def jS (s : DmaSem sig) : Fin 15 := ⟨(s.val - 6) % 15, Nat.mod_lt _ (by decide)⟩
def hR (s : DmaSem sig) : Fin 2 := ⟨(s.val - 36) / 15 % 2, Nat.mod_lt _ (by decide)⟩
def jR (s : DmaSem sig) : Fin 15 := ⟨(s.val - 36) % 15, Nat.mod_lt _ (by decide)⟩
theorem hS_sendS : ∀ (h : Fin 2) (j : Fin 15), hS (sendS h j) = h := by decide
theorem jS_sendS : ∀ (h : Fin 2) (j : Fin 15), jS (sendS h j) = j := by decide
theorem hR_recvS : ∀ (h : Fin 2) (j : Fin 15), hR (recvS h j) = h := by decide
theorem jR_recvS : ∀ (h : Fin 2) (j : Fin 15), jR (recvS h j) = j := by decide
theorem sendS_lt : ∀ (h : Fin 2) (j : Fin 15), ¬ 36 ≤ (sendS h j).val := by decide
theorem sendS_ge : ∀ (h : Fin 2) (j : Fin 15), 6 ≤ (sendS h j).val := by decide
theorem recvS_ge : ∀ (h : Fin 2) (j : Fin 15), 36 ≤ (recvS h j).val := by decide
def hO (s : DmaSem sig) : Fin 2 := ⟨(s.val - 4) % 2, Nat.mod_lt _ (by decide)⟩
theorem hO_outS : ∀ (h : Fin 2), hO (outS h) = h := by decide
theorem outS_lt : ∀ (h : Fin 2), ¬ 6 ≤ (outS h).val := by decide
theorem outS_ge : ∀ (h : Fin 2), 4 ≤ (outS h).val := by decide

def Rd : Rounds.Schedule (GSem nD τ sig) (Fin 15) 𝕄 where
  duties g r := if r = 0 ∧ g.1.2 = .tc then
      (match g.2 with
        | .reg s => if s = barS then Finset.univ else ∅
        | .dma s => if 4 ≤ s.val then {0} else ∅) else ∅
  unitless _ := False
  amount g _ _ := match g.2 with | .reg _ => 1 | .dma s => if 6 ≤ s.val then N else Nout
  payload g _ d := match g.2 with
    | .reg s => if s = barS then barPay g.1.1 d else iprop(emp)
    | .dma s => if 36 ≤ s.val then recvPay m g.1.1 (hR s) (jR s) else if 6 ≤ s.val then sendPay m g.1.1 (hS s) (jS s)
      else if 4 ≤ s.val then outPay m g.1.1 (hO s) else iprop(emp)
  amount_pos g _ _ _ := by
    rcases hg : g.2 with s | s
    · simp only [hg]; exact Nat.one_pos
    · simp only [hg]; split
      · exact N_pos
      · exact Nout_pos

theorem recvS_inj : ∀ (h : Fin 2) (j : Fin 15) (h' : Fin 2) (j' : Fin 15), recvS h j = recvS h' j' → h = h' ∧ j = j' := by decide
theorem sendS_inj : ∀ (h : Fin 2) (j : Fin 15) (h' : Fin 2) (j' : Fin 15), sendS h j = sendS h' j' → h = h' ∧ j = j' := by decide
theorem sendS_ne_recvS : ∀ (h : Fin 2) (j : Fin 15) (h' : Fin 2) (j' : Fin 15), sendS h j ≠ recvS h' j' := by decide

section Sched
variable (c : Dev nD) (h : Fin 2) (j : Fin 15)

omit [FloatOps F] in
theorem send_ne_bar : (SemLoc.dma (sendS h j) : SemLoc sig) ≠ .reg barS := fun e => by cases e
omit [FloatOps F] in
theorem recv_ne_bar : (SemLoc.dma (recvS h j) : SemLoc sig) ≠ .reg barS := fun e => by cases e

theorem duties_bar : (Rd (F := F) m).duties (barCell c) 0 = Finset.univ := by
  dsimp only [Rd]; rw [if_pos ⟨rfl, rfl⟩, if_pos rfl]
theorem duties_send : (Rd (F := F) m).duties (sendCell c h j) 0 = {0} := by
  dsimp only [Rd]; rw [if_pos ⟨rfl, rfl⟩, if_pos (by have := sendS_ge h j; omega)]
theorem duties_recv : (Rd (F := F) m).duties (recvCell c h j) 0 = {0} := by
  dsimp only [Rd]; rw [if_pos ⟨rfl, rfl⟩, if_pos (by have := recvS_ge h j; omega)]
theorem duties_later (g : GSem nD τ sig) : ∀ r, 1 ≤ r → (Rd (F := F) m).duties g r = ∅ :=
  fun r hr => by dsimp only [Rd]; rw [if_neg fun h => by omega]

theorem amount_bar (d : Fin 15) : (Rd (F := F) m).amount (barCell c) 0 d = 1 := rfl
theorem amount_send (d : Fin 15) : (Rd (F := F) m).amount (sendCell c h j) 0 d = N := by dsimp only [Rd]; exact if_pos (sendS_ge h j)
theorem amount_recv (d : Fin 15) : (Rd (F := F) m).amount (recvCell c h j) 0 d = N := by dsimp only [Rd]; exact if_pos (by have := recvS_ge h j; omega)

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c h j) 0 = N := by
  unfold Schedule.expect Schedule.amountOf; rw [duties_send, Finset.sum_singleton, amount_send]
theorem expect_recv : (Rd (F := F) m).expect (recvCell c h j) 0 = N := by
  unfold Schedule.expect Schedule.amountOf; rw [duties_recv, Finset.sum_singleton, amount_recv]

theorem payload_bar (d : Fin 15) : (Rd (F := F) m).payload (barCell c) 0 d = barPay c d := by dsimp only [Rd]; rw [if_pos rfl]
theorem payload_recv (d : Fin 15) : (Rd (F := F) m).payload (recvCell c h j) 0 d = recvPay m c h j := by
  dsimp only [Rd]; rw [if_pos (recvS_ge h j), hR_recvS, jR_recvS]
theorem payload_send (d : Fin 15) : (Rd (F := F) m).payload (sendCell c h j) 0 d = sendPay m c h j := by
  dsimp only [Rd]; rw [if_neg (sendS_lt h j), if_pos (sendS_ge h j), hS_sendS, jS_sendS]

theorem duties_out : (Rd (F := F) m).duties (outCell c h) 0 = {0} := by
  dsimp only [Rd]; rw [if_pos ⟨rfl, rfl⟩, if_pos (outS_ge h)]
theorem amount_out (d : Fin 15) : (Rd (F := F) m).amount (outCell c h) 0 d = Nout := by dsimp only [Rd]; exact if_neg (outS_lt h)
theorem expect_out : (Rd (F := F) m).expect (outCell c h) 0 = Nout := by
  unfold Schedule.expect Schedule.amountOf; rw [duties_out, Finset.sum_singleton, amount_out]
theorem payload_out (d : Fin 15) : (Rd (F := F) m).payload (outCell c h) 0 d = outPay m c h := by
  dsimp only [Rd]; rw [if_neg (by have := outS_lt h; omega), if_neg (outS_lt h), if_pos (outS_ge h), hO_outS]

theorem rest_out : bigSep ((Rd (F := F) m).duties (outCell c h) 0 \ ∅) (fun d => (Rd (F := F) m).payload (outCell c h) 0 d) = outPay m c h := by
  rw [Finset.sdiff_empty, duties_out, bigSep_singleton, payload_out]

theorem rest_send : bigSep ((Rd (F := F) m).duties (sendCell c h j) 0 \ ∅) (fun d => (Rd (F := F) m).payload (sendCell c h j) 0 d) = sendPay m c h j := by
  rw [Finset.sdiff_empty, duties_send, bigSep_singleton, payload_send]

theorem rest_recv : bigSep ((Rd (F := F) m).duties (recvCell c h j) 0 \ ∅) (fun d => (Rd (F := F) m).payload (recvCell c h j) 0 d) = recvPay m c h j := by
  rw [Finset.sdiff_empty, duties_recv, bigSep_singleton, payload_recv]

theorem rest_bar : bigSep ((Rd (F := F) m).duties (barCell c) 0 \ ∅) (fun d => (Rd (F := F) m).payload (barCell c) 0 d) = bigSep Finset.univ (barPay (F := F) c) := by
  rw [Finset.sdiff_empty, duties_bar]; exact bigSep_congr fun d _ => payload_bar m c d

end Sched

instance Rd_payload_storable (g : GSem nD τ sig) (r : ℕ) (d : Fin 15) : BI.Storable (upEmb : UEmb _ 𝕄) ((Rd (F := F) m).payload g r d) := by
  show BI.Storable upEmb (match g.2 with
    | .reg s => if s = barS then barPay g.1.1 d else iprop(emp)
    | .dma s => if 36 ≤ s.val then recvPay m g.1.1 (hR s) (jR s) else if 6 ≤ s.val then sendPay m g.1.1 (hS s) (jS s)
      else if 4 ≤ s.val then outPay m g.1.1 (hO s) else iprop(emp))
  unfold recvPay sendPay
  split
  · split
    · unfold barPay; infer_instance
    · infer_instance
  · split
    · exact slotPts_storable _ _ _ _
    · split
      · exact srcPts_storable _ _ _ _
      · split
        · unfold outPay
          haveI := odstPts_storable (F := F) g.1.1 (hO ‹DmaSem sig›) (outC m g.1.1)
          infer_instance
        · infer_instance

def Obar (c : Dev nD) (T : Finset (Fin 15)) : CellTallies nD τ sig Unit := ∑ j ∈ T, tallyAt (barCell (pk c j)) () 1
def Ocp (c : Dev nD) (C : Finset (Fin 2 × Fin 15)) : CellTallies nD τ sig Unit := ∑ hj ∈ C, tallyAt (recvCell (pk c hj.2) hj.1 hj.2) () N
def O₀ (c : Dev nD) : CellTallies nD τ sig Unit := Ocp c Finset.univ + Obar c Finset.univ

theorem Obar_peel (c : Dev nD) {T : Finset (Fin 15)} {j : Fin 15} (hj : j ∈ T) :
    Obar c T = Obar c (T.erase j) + tallyAt (barCell (pk c j)) () 1 := by
  unfold Obar; rw [Finset.sum_erase_add _ _ hj]
theorem Ocp_peel (c : Dev nD) {C : Finset (Fin 2 × Fin 15)} {hj : Fin 2 × Fin 15} (h : hj ∈ C) :
    Ocp c C = Ocp c (C.erase hj) + tallyAt (recvCell (pk c hj.2) hj.1 hj.2) () N := by
  unfold Ocp; rw [Finset.sum_erase_add _ _ h]

def L (g : GSem nD τ sig) : Finset Unit := if g.1.2 = .tc then {()} else ∅

def lv (g : GSem nD τ sig) (_ : Unit) : ℕ := match g.2 with
  | .reg s => if s = barS then 1 else 0
  | .dma s => if 36 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

def invs (K : Dev nD × CK → ℕ) (c : Dev nD) : sProp 𝕄 :=
  iprop((bigSep Finset.univ fun k : CK => cellInv ER (Rd m) (K (c, k)) (kcell c k))
    ∗ (bigSep Finset.univ fun j : Fin 15 => cellInv ER (Rd m) (K (pk c j, .bar)) (barCell (pk c j)))
    ∗ (bigSep Finset.univ fun hj : Fin 2 × Fin 15 => cellInv ER (Rd m) (K (pk c hj.2, .rcv hj.1 hj.2)) (recvCell (pk c hj.2) hj.1 hj.2)))

def reacheds (c : Dev nD) : sProp 𝕄 :=
  iprop((bigSep Finset.univ fun k : CK => reached ER (kcell c k) 0)
    ∗ (bigSep Finset.univ fun j : Fin 15 => reached ER (barCell (pk c j)) 0)
    ∗ (bigSep Finset.univ fun hj : Fin 2 × Fin 15 => reached ER (recvCell (pk c hj.2) hj.1 hj.2) 0))

def positions (c : Dev nD) : sProp 𝕄 := bigSep Finset.univ fun k : CK => atPos ER (kcell c k) 0 ∅ 0

def payToks (c : Dev nD) : sProp 𝕄 :=
  iprop((bigSep Finset.univ fun j : Fin 15 => dutyTok ER (barCell (pk c j)) 0 (Fin.rev j))
    ∗ (bigSep Finset.univ fun hj : Fin 2 × Fin 15 => dutyTok ER (recvCell (pk c hj.2) hj.1 hj.2) 0 (0 : Fin 15))
    ∗ (bigSep Finset.univ fun hj : Fin 2 × Fin 15 => dutyTok ER (sendCell c hj.1 hj.2) 0 (0 : Fin 15))
    ∗ (bigSep Finset.univ fun h : Fin 2 => dutyTok ER (outCell c h) 0 (0 : Fin 15)))
def ghost (K : Dev nD × CK → ℕ) (c : Dev nD) : sProp 𝕄 := iprop(invs m K c ∗ reacheds (F := F) c ∗ positions (F := F) c ∗ payToks (F := F) c)

def creds (c : Dev nD) : sProp 𝕄 :=
  iprop(cred (tallyAt (barCell c) () 15) ∗ bigSep Finset.univ fun hj : Fin 2 × Fin 15 => cred (tallyAt (recvCell c hj.1 hj.2) () N))
def start (c : Dev nD) : sProp 𝕄 := iprop((∃ K, ghost m K c) ∗ creds (F := F) c ∗ levAts L lv)

def Φ₀ (c : Dev nD) : sProp 𝕄 :=
  iprop(start m c
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (((c : Thread nD τ).loc main_v1) ↦{fullShare} m ((c : Thread nD τ).loc main_v1)))

def Φ₁ (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (bigSep Finset.univ fun h : Fin 2 => semVal (outCell c h) 0)
    ∗ (bigSep Finset.univ fun hj : Fin 2 × Fin 15 => iprop(semVal (sendCell c hj.1 hj.2) 0 ∗ semVal (recvCell c hj.1 hj.2) 0))
    ∗ (((c : Thread nD τ).loc main_v1) ↦{fullShare} outC m c))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => tstg m c
    | ⟨2, _⟩ => wsstg m c
    | ⟨3, _⟩ => wshstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

def ckParts : Unit ⊕ ((Fin 2 × Fin 15) ⊕ ((Fin 2 × Fin 15) ⊕ Fin 2)) ≃ CK where
  toFun := Sum.elim (fun _ => .bar) (Sum.elim (fun hj => .snd hj.1 hj.2) (Sum.elim (fun hj => .rcv hj.1 hj.2) (fun h => .out h)))
  invFun := fun | .bar => .inl () | .snd h j => .inr (.inl (h, j)) | .rcv h j => .inr (.inr (.inl (h, j))) | .out h => .inr (.inr (.inr h))
  left_inv := by rintro (_ | _ | _ | _) <;> rfl
  right_inv := by rintro (_ | _ | _ | _) <;> rfl

omit [FloatOps F] in
theorem bigSep_ckParts (Φ : CK → sProp 𝕄) :
    bigSep Finset.univ Φ = iprop(Φ .bar ∗ (bigSep Finset.univ fun hj : Fin 2 × Fin 15 => Φ (.snd hj.1 hj.2))
      ∗ (bigSep Finset.univ fun hj : Fin 2 × Fin 15 => Φ (.rcv hj.1 hj.2)) ∗ (bigSep Finset.univ fun h : Fin 2 => Φ (.out h))) := by
  rw [bigSep_univ_equiv ckParts Φ, bigSep_univ_sum, bigSep_univ_sum, bigSep_univ_sum, bigSep_univ_of_subsingleton ()]
  rfl

end Cert.KernelIdeal.KP

end
-- ==== Proof.KLaunch.lean ====
import proofs.«900762_g7700000000000763_dist_diff_adaln_cshard_i_b2_s2048_c512_v7x_i16_bf16_1_alg».proof.Proof.Proto
import Idealize.ShloMosaic.Lib.Pipeline.Launch
import Idealize.ShloMosaic.Lib.Pipeline.Kit
import Idealize.ShloMosaic.Lib.Tactic

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev OK : Type := (Fin 2 × Fin 15) ⊕ ((Fin 2 × Fin 15) ⊕ Fin 2)

def osem : OK → SemLoc sig :=
  Sum.elim (fun hj => .dma (sendS hj.1 hj.2)) (Sum.elim (fun hj => .dma (recvS hj.1 hj.2)) (fun h => .dma (outS h)))

set_option maxRecDepth 100000 in
theorem ownSemFacts : Pipeline.OwnSemFacts cfg0.spec osem := by decide

theorem share_eq (c : Dev nD) (w : Fin cfg0.W) : (dats m 0 c).share w = fullShare := by unfold Dat.share; split <;> rfl

theorem kcell_injective : Function.Injective (fun ck : Dev nD × CK => kcell ck.1 ck.2) := by
  rintro ⟨c, k⟩ ⟨c', k'⟩ h
  have h1 : c = c' := congrArg (fun g : GSem nD τ sig => g.1.1) h
  subst h1
  have h2 : csem k = csem k' := congrArg Prod.snd h
  rw [csem_injective h2]

def ringCells : Finset (GSem nD τ sig) := Finset.univ.map ⟨fun ck : Dev nD × CK => kcell ck.1 ck.2, kcell_injective⟩

abbrev TK : Type := Fin 15 ⊕ ((Fin 2 × Fin 15) ⊕ ((Fin 2 × Fin 15) ⊕ Fin 2))

def tokOf (cj : Dev nD × TK) : GSem nD τ sig × ℕ × Fin 15 := match cj.2 with
  | .inl d => (barCell cj.1, 0, d)
  | .inr (.inl hj) => (sendCell cj.1 hj.1 hj.2, 0, 0)
  | .inr (.inr (.inl hj)) => (recvCell cj.1 hj.1 hj.2, 0, 0)
  | .inr (.inr (.inr h)) => (outCell cj.1 h, 0, 0)

theorem outS_ne_sendS : ∀ (h : Fin 2) (a : Fin 2) (b : Fin 15), outS h ≠ sendS a b := by decide
theorem outS_ne_recvS : ∀ (h : Fin 2) (a : Fin 2) (b : Fin 15), outS h ≠ recvS a b := by decide
theorem outS_inj : ∀ (h h' : Fin 2), outS h = outS h' → h = h' := by decide
omit [FloatOps F] in
theorem out_ne_bar (h : Fin 2) : (SemLoc.dma (outS h) : SemLoc sig) ≠ .reg barS := fun e => by cases e

theorem tokOf_injective : Function.Injective (tokOf : Dev nD × TK → GSem nD τ sig × ℕ × Fin 15) := by
  rintro ⟨c, j⟩ ⟨c', j'⟩ h
  have h1 : c = c' := by
    have := congrArg (fun x : GSem nD τ sig × ℕ × Fin 15 => x.1.1.1) h
    rcases j with _ | _ | _ | _ <;> rcases j' with _ | _ | _ | _ <;> exact this
  subst h1
  have hs := congrArg (fun x : GSem nD τ sig × ℕ × Fin 15 => x.1.2) h
  have hd := congrArg (fun x : GSem nD τ sig × ℕ × Fin 15 => x.2.2) h
  rcases j with d | ⟨a, b⟩ | ⟨a, b⟩ | o <;> rcases j' with d' | ⟨a', b'⟩ | ⟨a', b'⟩ | o' <;> simp only [tokOf] at hs hd
  · rw [show d = d' from hd]
  · exact absurd hs.symm (send_ne_bar a' b')
  · exact absurd hs.symm (recv_ne_bar a' b')
  · exact absurd hs.symm (out_ne_bar o')
  · exact absurd hs (send_ne_bar a b)
  · obtain ⟨rfl, rfl⟩ := sendS_inj a b a' b' (SemLoc.dma.inj hs); rfl
  · exact absurd (SemLoc.dma.inj hs) (sendS_ne_recvS a b a' b')
  · exact absurd (SemLoc.dma.inj hs).symm (outS_ne_sendS o' a b)
  · exact absurd hs (recv_ne_bar a b)
  · exact absurd (SemLoc.dma.inj hs).symm (sendS_ne_recvS a' b' a b)
  · obtain ⟨rfl, rfl⟩ := recvS_inj a b a' b' (SemLoc.dma.inj hs); rfl
  · exact absurd (SemLoc.dma.inj hs).symm (outS_ne_recvS o' a b)
  · exact absurd hs (out_ne_bar o)
  · exact absurd (SemLoc.dma.inj hs) (outS_ne_sendS o a' b')
  · exact absurd (SemLoc.dma.inj hs) (outS_ne_recvS o a' b')
  · rw [outS_inj o o' (SemLoc.dma.inj hs)]

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun d : Fin 15 => dutyTok ER (barCell c) 0 d)
    ∗ (bigSep Finset.univ fun hj : Fin 2 × Fin 15 => dutyTok ER (sendCell c hj.1 hj.2) 0 (0 : Fin 15))
    ∗ (bigSep Finset.univ fun hj : Fin 2 × Fin 15 => dutyTok ER (recvCell c hj.1 hj.2) 0 (0 : Fin 15))
    ∗ (bigSep Finset.univ fun h : Fin 2 => dutyTok ER (outCell c h) 0 (0 : Fin 15)))

def G (c : Dev nD) : sProp 𝕄 :=
  iprop((bigSep Finset.univ fun k : CK => roundState ER (Rd m) (kcell c k) 0)
    ∗ (bigSep Finset.univ fun k : CK => iprop(atPos ER (kcell c k) 0 ∅ 0 ∗ reached ER (kcell c k) 0)) ∗ toks (F := F) c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun hj : Fin 2 × Fin 15 => semVal (sendCell c hj.1 hj.2) 0)
        ∗ (bigSep Finset.univ fun hj : Fin 2 × Fin 15 => semVal (recvCell c hj.1 hj.2) 0)
        ∗ (bigSep Finset.univ fun h : Fin 2 => semVal (outCell c h) 0)) := by
  unfold Pipeline.ownSems0
  rw [bigSep_univ_sum, bigSep_univ_sum]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_cells (c : Dev nD) (Φ : GSem nD τ sig → sProp 𝕄) :
    (bigSep Finset.univ fun k : CK => Φ (kcell c k)) = iprop(Φ (barCell c) ∗ (bigSep Finset.univ fun hj : Fin 2 × Fin 15 => Φ (sendCell c hj.1 hj.2))
      ∗ (bigSep Finset.univ fun hj : Fin 2 × Fin 15 => Φ (recvCell c hj.1 hj.2)) ∗ (bigSep Finset.univ fun h : Fin 2 => Φ (outCell c h))) :=
  (bigSep_ckParts (F := F) fun k => Φ (kcell c k)).trans rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell c k) 0 : sProp 𝕄) := by
  rw [ownSems0_eq, unscopedSems0_eq, bigSep_cells c (fun g => semVal g 0)]
  iintro ⟨⟨HS, HV, HO⟩, HB⟩
  isplitl [HB]; · iexact HB
  isplitl [HS]; · iexact HS
  isplitl [HV] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell c k)))
          ∗ (bigSep Finset.univ fun k : CK => iprop(atPos ER (kcell c k) 0 ∅ 0 ∗ reached ER (kcell c k) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell c k) 0) ∗ bigSep Finset.univ fun k : CK => roundState ER (Rd m) (kcell c k) 0)
      ⊢ (|={Set.univ}=> bigSep Finset.univ fun k : CK => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × CK → ℕ) : sProp 𝕄 :=
  iprop((bigSep Finset.univ fun ck : Dev nD × CK => cellInv ER (Rd m) (K ck) (kcell ck.1 ck.2))
    ∗ bigSep Finset.univ fun ck : Dev nD × CK => reached ER (kcell ck.1 ck.2) 0)

instance records_persistent (K : Dev nD × CK → ℕ) : BI.Persistent (records m K) := by unfold records; infer_instance

theorem inv_at (K : Dev nD × CK → ℕ) (ck : Dev nD × CK) :
    (bigSep Finset.univ fun ck : Dev nD × CK => (cellInv ER (Rd m) (K ck) (kcell ck.1 ck.2) : sProp 𝕄)) ⊢ cellInv ER (Rd m) (K ck) (kcell ck.1 ck.2) :=
  bigSep_elim (Finset.mem_univ ck)
omit [FloatOps F] in
theorem reached_at (ck : Dev nD × CK) :
    (bigSep Finset.univ fun ck : Dev nD × CK => (reached ER (kcell ck.1 ck.2) 0 : sProp 𝕄)) ⊢ reached ER (kcell ck.1 ck.2) 0 :=
  bigSep_elim (Finset.mem_univ ck)

theorem rec_inv (K : Dev nD × CK → ℕ) (ck : Dev nD × CK) : records m K ⊢ cellInv ER (Rd m) (K ck) (kcell ck.1 ck.2) := by
  unfold records
  iintro ⟨HI, -⟩
  iapply (inv_at m K ck)
  iexact HI
theorem rec_reached (K : Dev nD × CK → ℕ) (ck : Dev nD × CK) : records m K ⊢ reached ER (kcell ck.1 ck.2) 0 := by
  unfold records
  iintro ⟨-, HR⟩
  iapply (reached_at (F := F) ck)
  iexact HR

theorem invs_of_records (K : Dev nD × CK → ℕ) (c : Dev nD) : records m K ⊢ invs m K c := by
  have h1 : records m K ⊢ (bigSep Finset.univ fun k : CK => cellInv ER (Rd m) (K (c, k)) (kcell c k) : sProp 𝕄) :=
    BI.bigSep_intro_persistent fun k _ => rec_inv m K (c, k)
  have h2 : records m K ⊢ (bigSep Finset.univ fun j : Fin 15 => cellInv ER (Rd m) (K (pk c j, .bar)) (barCell (pk c j)) : sProp 𝕄) :=
    BI.bigSep_intro_persistent fun j _ => rec_inv m K (pk c j, .bar)
  have h3 : records m K ⊢ (bigSep Finset.univ fun hj : Fin 2 × Fin 15 => cellInv ER (Rd m) (K (pk c hj.2, .rcv hj.1 hj.2)) (recvCell (pk c hj.2) hj.1 hj.2) : sProp 𝕄) :=
    BI.bigSep_intro_persistent fun hj _ => rec_inv m K (pk c hj.2, .rcv hj.1 hj.2)
  unfold invs
  iintro #H
  isplitr; · iapply h1; iexact H
  isplitr; · iapply h2; iexact H
  iapply h3; iexact H

theorem reacheds_of_records (K : Dev nD × CK → ℕ) (c : Dev nD) : records m K ⊢ reacheds (F := F) c := by
  have h1 : records m K ⊢ (bigSep Finset.univ fun k : CK => reached ER (kcell c k) 0 : sProp 𝕄) :=
    BI.bigSep_intro_persistent fun k _ => rec_reached m K (c, k)
  have h2 : records m K ⊢ (bigSep Finset.univ fun j : Fin 15 => reached ER (barCell (pk c j)) 0 : sProp 𝕄) :=
    BI.bigSep_intro_persistent fun j _ => rec_reached m K (pk c j, .bar)
  have h3 : records m K ⊢ (bigSep Finset.univ fun hj : Fin 2 × Fin 15 => reached ER (recvCell (pk c hj.2) hj.1 hj.2) 0 : sProp 𝕄) :=
    BI.bigSep_intro_persistent fun hj _ => rec_reached m K (pk c hj.2, .rcv hj.1 hj.2)
  unfold reacheds
  iintro #H
  isplitr; · iapply h1; iexact H
  isplitr; · iapply h2; iexact H
  iapply h3; iexact H

def linear (c : Dev nD) : sProp 𝕄 := iprop(positions (F := F) c ∗ payToks (F := F) c)

theorem ghost_intro (K : Dev nD × CK → ℕ) (c : Dev nD) : iprop(records m K ∗ linear (F := F) c) ⊢ iprop(∃ K, ghost m K c) := by
  unfold linear ghost
  iintro ⟨#HR, Hpos, Htok⟩
  iexists K
  isplitr; · iapply (invs_of_records m K c); iexact HR
  isplitr; · iapply (reacheds_of_records m K c); iexact HR
  isplitl [Hpos]; · iexact Hpos
  iexact Htok

omit [FloatOps F] in
theorem toks_around : (bigSep Finset.univ fun c : Dev nD => (toks c : sProp 𝕄)) ⊢ bigSep Finset.univ fun c : Dev nD => payToks c := by
  have hB : (bigSep Finset.univ fun c : Dev nD => bigSep Finset.univ fun d : Fin 15 => (dutyTok ER (barCell c) 0 d : sProp 𝕄))
      = bigSep Finset.univ fun c : Dev nD => bigSep Finset.univ fun j : Fin 15 => dutyTok ER (barCell (pk c j)) 0 (Fin.rev j) := by
    rw [bigSep_univ_comm (fun (c : Dev nD) (d : Fin 15) => (dutyTok ER (barCell c) 0 d : sProp 𝕄)),
      bigSep_univ_comm (fun (c : Dev nD) (j : Fin 15) => (dutyTok ER (barCell (pk c j)) 0 (Fin.rev j) : sProp 𝕄)),
      bigSep_univ_equiv Fin.revPerm (fun d : Fin 15 => bigSep Finset.univ fun c : Dev nD => (dutyTok ER (barCell c) 0 d : sProp 𝕄))]
    exact bigSep_congr fun j _ => bigSep_univ_equiv (ring j) (fun c : Dev nD => (dutyTok ER (barCell c) 0 (Fin.rev j) : sProp 𝕄))
  have hR : (bigSep Finset.univ fun c : Dev nD => bigSep Finset.univ fun hj : Fin 2 × Fin 15 => (dutyTok ER (recvCell c hj.1 hj.2) 0 (0 : Fin 15) : sProp 𝕄))
      = bigSep Finset.univ fun c : Dev nD => bigSep Finset.univ fun hj : Fin 2 × Fin 15 => dutyTok ER (recvCell (pk c hj.2) hj.1 hj.2) 0 (0 : Fin 15) := by
    rw [bigSep_univ_comm (fun (c : Dev nD) (hj : Fin 2 × Fin 15) => (dutyTok ER (recvCell c hj.1 hj.2) 0 (0 : Fin 15) : sProp 𝕄)),
      bigSep_univ_comm (fun (c : Dev nD) (hj : Fin 2 × Fin 15) => (dutyTok ER (recvCell (pk c hj.2) hj.1 hj.2) 0 (0 : Fin 15) : sProp 𝕄))]
    exact bigSep_congr fun hj _ => bigSep_univ_equiv (ring hj.2) (fun c : Dev nD => (dutyTok ER (recvCell c hj.1 hj.2) 0 (0 : Fin 15) : sProp 𝕄))
  unfold toks payToks
  rw [bigSep_sep', bigSep_sep', bigSep_sep', bigSep_sep', bigSep_sep', bigSep_sep', hB, hR]
  iintro ⟨H1, H2, H3, H4⟩
  isplitl [H1]; · iexact H1
  isplitl [H3]; · iexact H3
  isplitl [H2]; · iexact H2
  iexact H4

theorem regroup :
    (bigSep Finset.univ fun c : Dev nD => iprop((bigSep Finset.univ fun k : CK => iprop(∃ κ : ℕ, cellInv ER (Rd m) κ (kcell c k)))
          ∗ (bigSep Finset.univ fun k : CK => iprop(atPos ER (kcell c k) 0 ∅ 0 ∗ reached ER (kcell c k) 0)) ∗ toks (F := F) c) : sProp 𝕄)
      ⊢ bigSep Finset.univ (G' m) := by
  rw [bigSep_sep', bigSep_sep', ← bigSep_univ_prod (fun ck : Dev nD × CK => iprop(∃ κ : ℕ, cellInv ER (Rd m) κ (kcell ck.1 ck.2))),
    bigSep_congr (s := Finset.univ) (fun (c : Dev nD) _ => bigSep_sep' Finset.univ (fun k : CK => (atPos ER (kcell c k) 0 ∅ 0 : sProp 𝕄)) (fun k => reached ER (kcell c k) 0)),
    bigSep_sep', ← bigSep_univ_prod (fun ck : Dev nD × CK => (reached ER (kcell ck.1 ck.2) 0 : sProp 𝕄))]
  iintro ⟨HI, ⟨Hat, #HR⟩, Htok⟩
  ihave HK := (BI.bigSep_exists_pi Finset.univ (fun (ck : Dev nD × CK) (κ : ℕ) => (cellInv ER (Rd m) κ (kcell ck.1 ck.2) : sProp 𝕄))) $$ HI
  icases HK with ⟨%K, #HI⟩
  ihave Htk := (toks_around (F := F)) $$ Htok
  iapply (bigSep_with_persistent (R := records m K) fun c _ => show iprop(records m K ∗ linear (F := F) c) ⊢ G' m c from ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem nsmul_tallyAt (g : GSem nD τ sig) : ∀ n : ℕ, n • (tallyAt g () 1 : CellTallies nD τ sig Unit) = tallyAt g () n
  | 0 => by rw [zero_nsmul, tallyAt_zero]
  | n + 1 => by rw [succ_nsmul, nsmul_tallyAt g n, tallyAt_add]

omit [FloatOps F] in
theorem cred_fifteen (g : GSem nD τ sig) :
    (bigSep Finset.univ fun _ : Fin 15 => (cred (tallyAt g () 1) : sProp 𝕄)) ⊢ cred (tallyAt g () 15) := by
  rw [← Pipeline.cred_finsetSum Finset.univ (fun _ : Fin 15 => (tallyAt g () 1 : CellTallies nD τ sig Unit)), Finset.sum_const,
    Finset.card_univ, Fintype.card_fin, nsmul_tallyAt]

omit [FloatOps F] in
theorem launch_creds (c : Dev nD) : (Pipeline.launchCred O₀ c : sProp 𝕄) ⊢ creds (F := F) c := by
  have e : (O₀ : Dev nD → CellTallies nD τ sig Unit)
      = fun d => (∑ hj ∈ (Finset.univ : Finset (Fin 2 × Fin 15)), tallyAt (recvCell (pk d hj.2) hj.1 hj.2) () N)
          + ∑ j ∈ (Finset.univ : Finset (Fin 15)), tallyAt (barCell (pk d j)) () 1 := rfl
  have hb : (bigSep Finset.univ fun j : Fin 15 => Pipeline.launchCred (fun d => tallyAt (barCell (pk d j)) () 1) c : sProp 𝕄)
      ⊢ bigSep Finset.univ fun _ : Fin 15 => cred (tallyAt (barCell c) () 1) :=
    bigSep_mono fun j _ => Pipeline.launchCred_tallyAt (.reg barS) (fun d => pk d j) (fun c => back c j)
      (fun c => pk_back c j) (fun d => back_pk d j) () 1 c
  have hr : (bigSep Finset.univ fun hj : Fin 2 × Fin 15 => Pipeline.launchCred (fun d => tallyAt (recvCell (pk d hj.2) hj.1 hj.2) () N) c : sProp 𝕄)
      ⊢ bigSep Finset.univ fun hj : Fin 2 × Fin 15 => cred (tallyAt (recvCell c hj.1 hj.2) () N) :=
    bigSep_mono fun hj _ => Pipeline.launchCred_tallyAt (.dma (recvS hj.1 hj.2)) (fun d => pk d hj.2) (fun c => back c hj.2)
      (fun c => pk_back c hj.2) (fun d => back_pk d hj.2) () N c
  rw [e, Pipeline.launchCred_add, Pipeline.launchCred_sum, Pipeline.launchCred_sum]
  unfold creds
  iintro ⟨Hcp, Hbar⟩
  isplitl [Hbar]
  · iapply (cred_fifteen (F := F) (barCell c))
    iapply hb
    iexact Hbar
  · iapply hr
    iexact Hcp

def X (c : Dev nD) : sProp 𝕄 :=
  iprop(start m c ∗ (((c : Thread nD τ).loc main_v1) ↦{fullShare} m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G' X start
  iintro ⟨Hv1, Hlev, Hcr, -, HG⟩
  ihave Hc := (launch_creds (F := F) c) $$ Hcr
  imodintro
  isplitl
  · isplitl [HG Hc Hlev]
    · isplitl [HG]; · iexact HG
      isplitl [Hc]; · iexact Hc
      iexact Hlev
    iexact Hv1
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hv⟩, -, ⟨Hr0, Hr1, Hr2, Hr3⟩⟩
  isplitl [Hs]; · iexact Hs
  isplitl [Hr0]; · iexact Hr0
  isplitl [Hr1]; · iexact Hr1
  isplitl [Hr2]; · iexact Hr2
  isplitl [Hr3]; · iexact Hr3
  iexact Hv

theorem phi1_exit (c : Dev nD) :
    (dats m 0 c).Φ (Fin.last cfg0.N) ⊢ iprop((((c : Thread nD τ).loc main_v1) ↦{fullShare} outC m c) ∗ Pipeline.ownSems0 osem c ∗ Pipeline.scopedRest cfg0.spec c) := by
  rw [show (dats m 0 c).Φ (Fin.last cfg0.N) = Φ₁ m c from rfl, scopedRest0_eq, ownSems0_eq]
  unfold Φ₁
  rw [bigSep_sep']
  iintro ⟨Hr0, Hr1, Hr2, Hr3, HO, ⟨HS, HV⟩, Hv⟩
  isplitl [Hv]; · iexact Hv
  isplitl [HS HV HO]
  · isplitl [HS]; · iexact HS
    isplitl [HV] <;> iassumption
  isplitl [Hr0]; · iexact Hr0
  isplitl [Hr1]; · iexact Hr1
  isplitl [Hr2]; · iexact Hr2
  iexact Hr3

omit [FloatOps F] in
theorem O₀_pos {c : Dev nD} {g : GSem nD τ sig} {u : Unit} (h : 0 < O₀ c g u) :
    (∃ j : Fin 15, g = barCell (pk c j)) ∨ (∃ hj : Fin 2 × Fin 15, g = recvCell (pk c hj.2) hj.1 hj.2) := by
  rcases Pipeline.add_pos_cases (show 0 < ((∑ hj ∈ (Finset.univ : Finset (Fin 2 × Fin 15)), tallyAt (recvCell (pk c hj.2) hj.1 hj.2) () N)
      + ∑ j ∈ (Finset.univ : Finset (Fin 15)), (tallyAt (barCell (pk c j)) () 1 : CellTallies nD τ sig Unit)) g u from h) with h | h
  · obtain ⟨hj, -, hp⟩ := Pipeline.sum_pos_exists h
    exact Or.inr ⟨hj, (Pipeline.tallyAt_pos hp).1⟩
  · obtain ⟨j, -, hp⟩ := Pipeline.sum_pos_exists h
    exact Or.inl ⟨j, (Pipeline.tallyAt_pos hp).1⟩

omit [FloatOps F] in
theorem mayWait_stage (c : Dev nD) (q : DmaSem sig) (hq : ¬ 36 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨hj, rfl⟩ <;> exact Finset.mem_singleton_self _)
      (fun p hp => by
        rw [Finset.mem_singleton.mp hp]
        show (if 36 ≤ q.val then 2 else 0) ≤ 0
        rw [if_neg hq])
      (fun g u hg => by
        rcases O₀_pos hg with ⟨j, rfl⟩ | ⟨hj, rfl⟩
        · show 0 < (if barS = barS then 1 else 0)
          rw [if_pos rfl]; decide
        · show 0 < (if 36 ≤ (recvS hj.1 hj.2).val then 2 else 0)
          rw [if_pos (recvS_ge _ _)]; decide)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

set_option maxRecDepth 8000 in

theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => hbody c) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := X m) (Y := fun c => iprop(((c : Thread nD τ).loc main_v1) ↦{fullShare} outC m c)) (Z := fun _ => iprop(emp))
    (hX := start_intro m ρ) (hin := phi0_intro m) (hout := phi1_exit m)
    (QY := fun c s => s.mem ((c : Thread nD τ).loc main_v1) = outC m c)
    (hY := fun c s' => by
      iintro ⟨Hx, -, HSI⟩
      icombine HSI Hx gives %hx
      imodintro
      isplitr; · ipureintro; exact Buf.eq_of_forall_mem_univ hx
      iexact HSI)
    (hQ := fun s h c => ⟨(h c).2.2,
      ((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _)⟩)

/-- info: 'Cert.KernelIdeal.KP.run_main' depends on axioms: [propext, Classical.choice, Quot.sound] -/
#guard_msgs in #print axioms run_main

end Cert.KernelIdeal.KP

end
-- ==== Proof.Families.lean ====
import proofs.«900762_g7700000000000763_dist_diff_adaln_cshard_i_b2_s2048_c512_v7x_i16_bf16_1_alg».proof.Proof.Proto

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def Pers (K : Dev nD × CK → ℕ) (c : Dev nD) : sProp 𝕄 := iprop(invs m K c ∗ reacheds (F := F) c ∗ levAts L lv)
instance Pers_persistent (K : Dev nD × CK → ℕ) (c : Dev nD) : BI.Persistent (Pers m K c) := by
  unfold Pers invs reacheds; infer_instance

def Tfrom (n : ℕ) : Finset (Fin 15) := Finset.univ.filter fun j => n ≤ j.val

def lin (hj : Fin 2 × Fin 15) : ℕ := 15 * hj.1.val + hj.2.val
def Cfrom (p : ℕ) : Finset (Fin 2 × Fin 15) := Finset.univ.filter fun hj => p ≤ lin hj
def Cbelow (p : ℕ) : Finset (Fin 2 × Fin 15) := Finset.univ.filter fun hj => lin hj < p

def cpOf (p : ℕ) : Fin 2 × Fin 15 := (⟨p / 15 % 2, Nat.mod_lt _ (by decide)⟩, ⟨p % 15, Nat.mod_lt _ (by decide)⟩)

theorem lin_cpOf : ∀ p : Fin 30, lin (cpOf p.val) = p.val := by decide

theorem cpOf_lin : ∀ hj : Fin 2 × Fin 15, cpOf (lin hj) = hj := by decide

theorem eq_cpOf_iff (p : ℕ) (hp : p < 30) (hj : Fin 2 × Fin 15) : hj = cpOf p ↔ lin hj = p :=
  ⟨fun e => by rw [e]; exact lin_cpOf ⟨p, hp⟩, fun e => by rw [← e, cpOf_lin]⟩

theorem cpOf_mem_Cfrom (p : ℕ) (hp : p < 30) : cpOf p ∈ Cfrom p := by
  unfold Cfrom
  rw [Finset.mem_filter]
  exact ⟨Finset.mem_univ _, le_of_eq (lin_cpOf ⟨p, hp⟩).symm⟩

theorem Cfrom_erase (p : ℕ) (hp : p < 30) : (Cfrom p).erase (cpOf p) = Cfrom (p + 1) := by
  ext hj
  simp only [Cfrom, Finset.mem_erase, Finset.mem_filter, Finset.mem_univ, true_and, ne_eq]
  rw [eq_cpOf_iff p hp]
  omega

theorem cpOf_not_mem_Cbelow (p : ℕ) (hp : p < 30) : cpOf p ∉ Cbelow p := by
  unfold Cbelow
  rw [Finset.mem_filter, lin_cpOf ⟨p, hp⟩]
  exact fun h => Nat.lt_irrefl _ h.2

theorem Cbelow_succ (p : ℕ) (hp : p < 30) : Cbelow (p + 1) = insert (cpOf p) (Cbelow p) := by
  ext hj
  simp only [Cbelow, Finset.mem_insert, Finset.mem_filter, Finset.mem_univ, true_and]
  rw [eq_cpOf_iff p hp]
  omega

omit [FloatOps F] in
-- The copies from `p` on are copy `p` and the later ones; the copies up to `p` are copy `p` and the earlier ones.
theorem bigSep_Cfrom (Φ : Fin 2 × Fin 15 → sProp 𝕄) {p : ℕ} (hp : p < 30) :
    bigSep (Cfrom p) Φ = iprop(Φ (cpOf p) ∗ bigSep (Cfrom (p + 1)) Φ) := by
  rw [← Cfrom_erase p hp]; exact bigSep_erase (cpOf_mem_Cfrom p hp)
omit [FloatOps F] in
theorem bigSep_Cbelow (Φ : Fin 2 × Fin 15 → sProp 𝕄) {p : ℕ} (hp : p < 30) :
    bigSep (Cbelow (p + 1)) Φ = iprop(Φ (cpOf p) ∗ bigSep (Cbelow p) Φ) := by
  rw [Cbelow_succ p hp]; exact bigSep_insert (cpOf_not_mem_Cbelow p hp)

def SigRes (c : Dev nD) (T : Finset (Fin 15)) : sProp 𝕄 :=
  bigSep T fun j => iprop(dutyTok ER (barCell (pk c j)) 0 (Fin.rev j) ∗ (∃ f, slotPts (F := F) c 0 (Fin.rev j) f) ∗ (∃ f, slotPts (F := F) c 1 (Fin.rev j) f))

def CpTok (c : Dev nD) (C : Finset (Fin 2 × Fin 15)) : sProp 𝕄 :=
  bigSep C fun hj => iprop(dutyTok ER (sendCell c hj.1 hj.2) 0 (0 : Fin 15) ∗ dutyTok ER (recvCell (pk c hj.2) hj.1 hj.2) 0 (0 : Fin 15)
    ∗ (∃ f, slotPts (F := F) (pk c hj.2) hj.1 hj.2 f))

def SrcSh (c : Dev nD) (h : Fin 2) (J : Finset (Fin 15)) : sProp 𝕄 := bigSep J fun j => srcPts c h (shr j.val) (statsC m c)

def SCred (c : Dev nD) (C : Finset (Fin 2 × Fin 15)) : sProp 𝕄 := bigSep C fun hj => cred (tallyAt (sendCell c hj.1 hj.2) () N)

def RCred (c : Dev nD) (C : Finset (Fin 2 × Fin 15)) : sProp 𝕄 := bigSep C fun hj => cred (tallyAt (recvCell c hj.1 hj.2) () N)

def Landed (c : Dev nD) (C : Finset (Fin 2 × Fin 15)) : sProp 𝕄 := bigSep C fun hj => slotPts c hj.1 hj.2 (gathC m c)

def PeerSlots (c : Dev nD) : sProp 𝕄 := bigSep Finset.univ fun hj : Fin 2 × Fin 15 => iprop(∃ f, slotPts (F := F) (pk c hj.2) hj.1 hj.2 f)

end Cert.KernelIdeal.KP

end
-- ==== Proof.BodyDefs.lean ====
import proofs.«900762_g7700000000000763_dist_diff_adaln_cshard_i_b2_s2048_c512_v7x_i16_bf16_1_alg».proof.Proof.Families

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bufs₀ (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (((c : Thread nD τ).loc main_v1) ↦{fullShare} m ((c : Thread nD τ).loc main_v1)))

def bodyPre (K : Dev nD × CK → ℕ) (c : Dev nD) : sProp 𝕄 :=
  iprop((ghost m K c ∗ creds (F := F) c ∗ levAts L lv ∗ bufs₀ m c)
    ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

def bodyPost (c : Dev nD) : sProp 𝕄 :=
  iprop(Φ₁ m c ∗ (dats m 0 c).owesAt () t₀.succ
    ∗ stg c cc0_stg0_0 (xstg m c) ∗ stg c cc0_stg1_0 (tstg m c) ∗ stg c cc0_stg2_0 (wsstg m c) ∗ stg c cc0_stg3_0 (wshstg m c))

end Cert.KernelIdeal.KP

end
-- ==== Proof.Devs.lean ====
import proofs.«900762_g7700000000000763_dist_diff_adaln_cshard_i_b2_s2048_c512_v7x_i16_bf16_1_alg».proof.Proof.Ring16
import proofs.«900762_g7700000000000763_dist_diff_adaln_cshard_i_b2_s2048_c512_v7x_i16_bf16_1_alg».proof.Proof.Gen.KernelIdeal
import Lean.Elab.Command

namespace Cert.KernelIdeal.KP

open Cert.KernelIdeal Cert.KernelIdeal.Gen Idealize.ShloMosaic

open Lean Elab Command in

elab "decide_device_chains" : command => do
  for i in [1:46] do
    let j := if i ≤ 15 then i - 1 else (i - 16) % 15
    let thm := mkIdent (Name.mkSimple s!"dev{i}_eq")
    let f := mkIdent (Name.mkSimple s!"k0_dev{i}")
    let flt := mkIdent (Name.mkSimple s!"k0_dev{i}_lt")
    let jl := Syntax.mkNumLit (toString j)
    elabCommand (← `(theorem $thm : ∀ c : Dev nD, (⟨$f c, $flt c⟩ : Dev nD) = pk c $jl := by decide +kernel))

decide_device_chains

end Cert.KernelIdeal.KP
-- ==== Proof.StepSig.lean ====
import proofs.«900762_g7700000000000763_dist_diff_adaln_cshard_i_b2_s2048_c512_v7x_i16_bf16_1_alg».proof.Proof.Families

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def Osig (c : Dev nD) (n : ℕ) : CellTallies nD τ sig Unit := Ocp c Finset.univ + Obar c (Tfrom n)

theorem mem_Tfrom (n : ℕ) (hn : n < 15) : (⟨n, hn⟩ : Fin 15) ∈ Tfrom n := by
  simp only [Tfrom, Finset.mem_filter, Finset.mem_univ, true_and, le_refl]

theorem Tfrom_erase (n : ℕ) (hn : n < 15) : (Tfrom n).erase ⟨n, hn⟩ = Tfrom (n + 1) := by
  ext j
  simp only [Tfrom, Finset.mem_erase, Finset.mem_filter, Finset.mem_univ, true_and, ne_eq, Fin.ext_iff]
  omega

theorem Osig_peel (c : Dev nD) (n : ℕ) (hn : n < 15) :
    Osig c n = Osig c (n + 1) + tallyAt (barCell (pk c ⟨n, hn⟩)) () 1 := by
  unfold Osig
  rw [Obar_peel c (mem_Tfrom n hn), Tfrom_erase n hn, add_assoc]

omit [FloatOps F] in
theorem SigRes_peel (c : Dev nD) (n : ℕ) (hn : n < 15) :
    SigRes (F := F) c (Tfrom n)
      = iprop((dutyTok ER (barCell (pk c ⟨n, hn⟩)) 0 (Fin.rev ⟨n, hn⟩) ∗ (∃ f, slotPts (F := F) c 0 (Fin.rev ⟨n, hn⟩) f) ∗ (∃ f, slotPts (F := F) c 1 (Fin.rev ⟨n, hn⟩) f))
          ∗ SigRes (F := F) c (Tfrom (n + 1))) := by
  unfold SigRes
  rw [← Tfrom_erase n hn]
  exact bigSep_erase (mem_Tfrom n hn)

theorem step_signal (K : Dev nD × CK → ℕ) (c : Dev nD) (n : ℕ) (hn : n < 15) (d : Dev nD) (hd : d = pk c ⟨n, hn⟩) {α : Type} {Q : α → sProp 𝕄} {k : PUnit → Prog (TpuEff nD τ sig (Elt F) Λ₀ .tc) α} :
    Pers m K c ⊢ iprop((∃ W, owes (c : Thread nD τ) (Osig c n) W) -∗ SigRes (F := F) c (Tfrom n)
      -∗ (((∃ W, owes (c : Thread nD τ) (Osig c (n + 1)) W) ∗ SigRes (F := F) c (Tfrom (n + 1))) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal ((d : Dev nD), Proc.tc) barS (1#32).toNat) k) Q) := by
  subst hd
  rw [SigRes_peel c n hn]
  have hI : (bigSep Finset.univ fun j : Fin 15 => cellInv ER (Rd m) (K (pk c j, .bar)) (barCell (pk c j)))
      ⊢ cellInv ER (Rd m) (K (pk c ⟨n, hn⟩, .bar)) (barCell (pk c ⟨n, hn⟩)) := bigSep_elim (Finset.mem_univ _)
  have hR : (bigSep Finset.univ fun j : Fin 15 => reached ER (barCell (pk c j)) 0 : sProp 𝕄)
      ⊢ reached ER (barCell (pk c ⟨n, hn⟩)) 0 := bigSep_elim (Finset.mem_univ _)
  have hR' : ∀ h : Fin 2, (bigSep Finset.univ fun k : CK => reached ER (kcell c k) 0 : sProp 𝕄)
      ⊢ reached ER (recvCell c h (Fin.rev ⟨n, hn⟩)) 0 := fun h => bigSep_elim (Finset.mem_univ (CK.rcv h (Fin.rev ⟨n, hn⟩)))
  unfold Pers invs reacheds
  iintro ⟨⟨#Hi1, #Hi2, #Hi3⟩, ⟨#Hr1, #Hr2, #Hr3⟩, #Hlev⟩ ⟨%W, HO⟩ ⟨⟨Htok, Hs0, Hs1⟩, HS⟩ Hk
  iapply (Rounds.wp_signal 𝒱₀ ER (Rd m) (c : Thread nD τ) none (dst := (pk c ⟨n, hn⟩ : Thread nD τ)) (κ := K (pk c ⟨n, hn⟩, .bar))
      (d := Fin.rev ⟨n, hn⟩) (by rw [duties_bar]; exact Finset.mem_univ _) (amount_bar m (pk c ⟨n, hn⟩) _) () (Osig c (n + 1)) (Osig_peel c n hn))
    $$ [HO Htok Hs0 Hs1] [Hk HS]
  · isplitr
    · iapply hI $$ Hi2
    isplitl [HO]; · iexact HO
    isplitl [Htok]; · iexact Htok
    isplitl [Hs0 Hs1]
    · rw [payload_bar, barPay, pk_pk_rev]
      isplitl [Hs0]; · iexact Hs0
      isplitl [Hs1]; · iexact Hs1
      isplitr
      · iapply (hR' 0) $$ Hr1
      · iapply (hR' 1) $$ Hr1
    · iapply hR $$ Hr2
  · iintro HO
    iapply Hk
    isplitl [HO]
    · iexists W; iexact HO
    · iexact HS

omit [FloatOps F] in
theorem Osig_all (c : Dev nD) : Osig c 15 = Ocp c (Cfrom 0) := by
  have h1 : Tfrom 15 = ∅ := by
    ext j; simp only [Tfrom, Finset.mem_filter, Finset.mem_univ, true_and, Finset.notMem_empty, iff_false]; omega
  have h2 : Cfrom 0 = Finset.univ := by
    ext hj; simp only [Cfrom, Finset.mem_filter, Finset.mem_univ, true_and, Nat.zero_le]
  unfold Osig Obar
  rw [h1, h2, Finset.sum_empty, add_zero]

theorem mayWait_bar (c : Dev nD) : (levAts L lv : sProp 𝕄) ⊢ MayWait (c : Thread nD τ) (.reg barS) () (Ocp c (Cfrom 0)) := by
  refine Pipeline.mayWait_of_levAts (by rw [L_tc]; exact Finset.mem_singleton_self _) fun g i hg => ?_
  obtain ⟨hj, -, hpos⟩ := Pipeline.sum_pos_exists hg
  obtain ⟨rfl, -⟩ := Pipeline.tallyAt_pos hpos
  refine ⟨by rw [L_tc]; exact Finset.mem_singleton.mpr rfl, ?_⟩
  show (if barS = barS then 1 else 0) < (if 36 ≤ (recvS hj.1 hj.2).val then 2 else 0)
  rw [if_pos rfl, if_pos (recvS_ge hj.1 hj.2)]
  exact Nat.one_lt_two

omit [FloatOps F] in
theorem barPay_halves (c : Dev nD) (j : Fin 15) :
    barPay (F := F) c j ⊢ iprop((∃ f, slotPts (F := F) (pk c j) 0 j f) ∗ (∃ f, slotPts (F := F) (pk c j) 1 j f)) := by
  unfold barPay
  iintro ⟨H0, H1, -⟩
  isplitl [H0] <;> iassumption

omit [FloatOps F] in
theorem barPay_slots (c : Dev nD) : bigSep Finset.univ (barPay (F := F) c) ⊢ PeerSlots (F := F) c := by
  unfold PeerSlots
  rw [bigSep_univ_prod, bigSep_fin_two]
  exact (bigSep_mono fun j _ => barPay_halves c j).trans (Entails.of_eq (bigSep_sep _ _ _))

theorem rest_slots (c : Dev nD) :
    bigSep ((Rd (F := F) m).duties (barCell c) 0 \ ∅) (fun d => (Rd (F := F) m).payload (barCell c) 0 d) ⊢ PeerSlots (F := F) c := by
  rw [rest_bar]; exact barPay_slots c

theorem step_barwait (K : Dev nD × CK → ℕ) (c : Dev nD) {α : Type} {Q : α → sProp 𝕄} {k : PUnit → Prog (TpuEff nD τ sig (Elt F) Λ₀ .tc) α} :
    Pers m K c ⊢ iprop((∃ W, owes (c : Thread nD τ) (Osig c 15) W) -∗ cred (tallyAt (barCell c) () 15) -∗ atPos ER (barCell c) 0 ∅ 0
      -∗ (((∃ W, owes (c : Thread nD τ) (Ocp c (Cfrom 0)) W) ∗ PeerSlots (F := F) c) -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS (15#32).toNat) k) Q) := by
  rw [Osig_all c]
  have hI : (bigSep Finset.univ fun k : CK => cellInv ER (Rd m) (K (c, k)) (kcell c k))
      ⊢ cellInv ER (Rd m) (K (c, .bar)) (barCell c) := bigSep_elim (Finset.mem_univ CK.bar)
  unfold Pers invs
  iintro ⟨⟨#Hi1, -⟩, -, #Hlev⟩ ⟨%W, HO⟩ Hc Hat Hk
  iapply (Rounds.wp_wait_rest_token 𝒱₀ ER (Rd m) (c : Thread nD τ) none (wpE_semWait_eq 𝒱₀ (c : Thread nD τ) none Set.univ)
      (κ := K (c, .bar)) (Set.mem_univ _) () (R := 0) (m := 0) (T := ∅) (by rw [expect_bar]; rfl))
    $$ [HO Hc Hat] [Hk]
  · isplitr
    · iapply hI $$ Hi1
    isplitl [Hc]; · iexact Hc
    isplitl [HO]; · iexact HO
    isplitr
    · iapply (mayWait_bar c) $$ Hlev
    · iexact Hat
  · iintro ⟨HO, -, -, Hpay⟩
    iapply Hk
    isplitl [HO]
    · iexists _; iexact HO
    · iapply (rest_slots m c) $$ Hpay

end Cert.KernelIdeal.KP

end
-- ==== Proof.Contents.lean ====
import proofs.«900762_g7700000000000763_dist_diff_adaln_cshard_i_b2_s2048_c512_v7x_i16_bf16_1_alg».proof.Proof.Proto
import Idealize.ShloMosaic.Lib.ValueLayout
import Idealize.ShloMosaic.Lib.Pipeline.Value

noncomputable section

namespace Cert.KernelIdeal.KP

open Cert.KernelIdeal Cert.KernelIdeal.Gen
open Idealize.ShloMosaic
open Idealize.ShloMosaic.TcCoe
open Idealize.ShloMosaic.ValueIdx

variable {F : FTy → Type} [FloatOps F]

theorem srcM_emb (h : Fin 2) (a b : Fin 2) (s : Fin 1024) :
    ((srcM h).view.emb (ix3 a b s) : S2x2x2048.Idx) = ix3 a b (⟨1024 * h.val + s.val, by omega⟩ : Fin 2048) := by
  funext d
  match d with
  | ⟨0, _⟩ => exact Fin.ext (by show 0 + 1 * a.val = a.val; omega)
  | ⟨1, _⟩ => exact Fin.ext (by show 0 + 1 * b.val = b.val; omega)
  | ⟨2, _⟩ => exact Fin.ext (by show 1024 * h.val + 1 * s.val = 1024 * h.val + s.val; omega)

theorem dstM_emb (h : Fin 2) (j : Fin 15) (a b : Fin 2) (s : Fin 1024) :
    ((dstM h j).view.emb (ix3 a b s) : S15x2x2x2048.Idx) = ix4 j a b (⟨1024 * h.val + s.val, by omega⟩ : Fin 2048) := by
  show (Rect.unit (s := S15x2x2x2048) ![j.val, 0, 0, 1024 * h.val] S1x2x2x1024.size (inb_dst h j)).emb
      (Shape.reshapeEquiv _ (ix3 a b s)) = _
  rw [reshapeEquiv_ix3_1abc]
  funext d
  match d with
  | ⟨0, _⟩ => exact Fin.ext (by show j.val + 1 * 0 = j.val; omega)
  | ⟨1, _⟩ => exact Fin.ext (by show 0 + 1 * a.val = a.val; omega)
  | ⟨2, _⟩ => exact Fin.ext (by show 0 + 1 * b.val = b.val; omega)
  | ⟨3, _⟩ => exact Fin.ext (by show 1024 * h.val + 1 * s.val = 1024 * h.val + s.val; omega)

variable (m : (ℓ : Loc nD τ sig) → Buf (Elt F) ℓ)

theorem gathC_ix4 (p : Dev nD) (j : Fin 15) (a b : Fin 2) (t : Fin 2048) :
    gathC m p (ix4 j a b t) = statsC m (back p j) (ix3 a b t) := rfl

theorem landing_emb (c : Dev nD) (h : Fin 2) (j : Fin 15)
    (fd : Buf (Elt F) ((dstM h j).view.loc ((pk c j : Dev nD) : Thread nD τ)))
    (fs : Buf (Elt F) ((srcM h).view.loc (c : Thread nD τ)))
    (hfs : ∀ i ∈ (srcM h).view.set, fs i = statsC m c i) (y : S2x2x1024.Idx) :
    (dstM h j).view.write (Elt F) fd ((srcM h).view.read (Elt F) fs) Finset.univ ((dstM h j).view.emb y)
      = gathC m (pk c j) ((dstM h j).view.emb y) := by
  refine (View.write_emb_of_mem (v := (dstM h j).view) (Val := Elt F) fd _ (Finset.mem_univ y)).trans ?_
  show fs ((srcM h).view.emb y) = gathC m (pk c j) ((dstM h j).view.emb y)
  refine (hfs _ ((srcM h).view.emb_mem_set y)).trans ?_
  obtain ⟨a, b, s, rfl⟩ : ∃ a b s, y = ix3 a b s := ⟨y 0, y 1, y 2, eq_ix3 y⟩
  have e2 : statsC m c ((srcM h).view.emb (ix3 a b s)) = statsC m c (ix3 a b (⟨1024 * h.val + s.val, by omega⟩ : Fin 2048)) :=
    congrArg (statsC m c) (srcM_emb h a b s)
  have e3 : gathC m (pk c j) ((dstM h j).view.emb (ix3 a b s))
      = gathC m (pk c j) (ix4 j a b (⟨1024 * h.val + s.val, by omega⟩ : Fin 2048)) :=
    congrArg (gathC m (pk c j)) (dstM_emb h j a b s)
  refine e2.trans (Eq.trans ?_ e3.symm)
  rw [gathC_ix4, back_pk]

theorem landing (c : Dev nD) (h : Fin 2) (j : Fin 15)
    (fd : Buf (Elt F) ((dstM h j).view.loc ((pk c j : Dev nD) : Thread nD τ)))
    (fs : Buf (Elt F) ((srcM h).view.loc (c : Thread nD τ)))
    (hfs : ∀ i ∈ (srcM h).view.set, fs i = statsC m c i) :
    ∀ i ∈ (dstM h j).view.set,
      (dstM h j).view.write (Elt F) fd ((srcM h).view.read (Elt F) fs) Finset.univ i = gathC m (pk c j) i := by
  intro i hi
  obtain ⟨y, rfl⟩ := View.exists_emb_of_mem_set (dstM h j).view hi
  exact landing_emb m c h j fd fs hfs y

end Cert.KernelIdeal.KP

end
-- ==== Proof.StepSend.lean ====
import proofs.«900762_g7700000000000763_dist_diff_adaln_cshard_i_b2_s2048_c512_v7x_i16_bf16_1_alg».proof.Proof.Families
import proofs.«900762_g7700000000000763_dist_diff_adaln_cshard_i_b2_s2048_c512_v7x_i16_bf16_1_alg».proof.Proof.Contents

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem pers_inv_send (K : Dev nD × CK → ℕ) (c : Dev nD) (h : Fin 2) (j : Fin 15) :
    Pers m K c ⊢ cellInv ER (Rd m) (K (c, .snd h j)) (sendCell c h j) := by
  unfold Pers invs
  exact sep_elim_left.trans (sep_elim_left.trans (bigSep_elim (Φ := fun k : CK => cellInv ER (Rd m) (K (c, k)) (kcell c k)) (Finset.mem_univ (CK.snd h j))))

theorem pers_inv_recv (K : Dev nD × CK → ℕ) (c : Dev nD) (h : Fin 2) (j : Fin 15) :
    Pers m K c ⊢ cellInv ER (Rd m) (K (pk c j, .rcv h j)) (recvCell (pk c j) h j) := by
  unfold Pers invs
  exact sep_elim_left.trans (sep_elim_right.trans (sep_elim_right.trans
    (bigSep_elim (Φ := fun hj : Fin 2 × Fin 15 => cellInv ER (Rd m) (K (pk c hj.2, .rcv hj.1 hj.2)) (recvCell (pk c hj.2) hj.1 hj.2))
      (Finset.mem_univ (h, j)))))

theorem pers_reach_send (K : Dev nD × CK → ℕ) (c : Dev nD) (h : Fin 2) (j : Fin 15) :
    Pers m K c ⊢ reached ER (sendCell c h j) 0 := by
  unfold Pers reacheds
  exact sep_elim_right.trans (sep_elim_left.trans (sep_elim_left.trans
    (bigSep_elim (Φ := fun k : CK => reached ER (kcell c k) 0) (Finset.mem_univ (CK.snd h j)))))

theorem pers_reach_recv (K : Dev nD × CK → ℕ) (c : Dev nD) (h : Fin 2) (j : Fin 15) :
    Pers m K c ⊢ reached ER (recvCell (pk c j) h j) 0 := by
  unfold Pers reacheds
  exact sep_elim_right.trans (sep_elim_left.trans (sep_elim_right.trans (sep_elim_right.trans
    (bigSep_elim (Φ := fun hj : Fin 2 × Fin 15 => reached ER (recvCell (pk c hj.2) hj.1 hj.2) 0) (Finset.mem_univ (h, j))))))

theorem send_aux (K : Dev nD × CK → ℕ) (c : Dev nD) (h : Fin 2) (j : Fin 15)
    (C B : Finset (Fin 2 × Fin 15)) (hC : (h, j) ∈ C) (hB : (h, j) ∉ B)
    {hsc : (dstM h j : Memref sig (Dev.tc (pk c j) : Thread nD τ).2.kind .vmem S2x2x1024 .bf16).view.ref.isScScratch = false}
    {hsrc : (srcM h).view.WordExact} {hdst : (dstM h j).view.WordExact}
    {hsem : DmaTarget.Typed .vmem (.dma (recvS h j)) (.remote (Dev.tc (pk c j) : Thread nD τ) (dstM h j) (.dma (sendS h j)) hsc)}
    {α : Type} {Q : α → sProp 𝕄} {k : PUnit → Prog (TpuEff nD τ sig (Elt F) Λ₀ .tc) α} :
    Pers m K c ⊢ iprop((∃ W, owes (c : Thread nD τ) (Ocp c C) W) -∗ CpTok (F := F) c C
      -∗ srcPts c h (shr j.val) (statsC m c) -∗ SCred (F := F) c B
      -∗ (((∃ W, owes (c : Thread nD τ) (Ocp c (C.erase (h, j))) W) ∗ CpTok (F := F) c (C.erase (h, j)) ∗ SCred (F := F) c (insert (h, j) B)) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (srcM h) (.remote (Dev.tc (pk c j) : Thread nD τ) (dstM h j) (.dma (sendS h j)) hsc)
            (.dma (recvS h j)) hsrc hdst hsem) k) Q) := by
  have eT : CpTok (F := F) c C = iprop((dutyTok ER (sendCell c h j) 0 (0 : Fin 15) ∗ dutyTok ER (recvCell (pk c j) h j) 0 (0 : Fin 15)
      ∗ (∃ f, slotPts (F := F) (pk c j) h j f)) ∗ CpTok (F := F) c (C.erase (h, j))) := by
    unfold CpTok; rw [bigSep_erase hC]; rfl
  have eS : SCred (F := F) c (insert (h, j) B) = iprop(cred (tallyAt (sendCell c h j) () N) ∗ SCred (F := F) c B) := by
    unfold SCred; rw [bigSep_insert hB]; rfl
  rw [eT, eS]
  unfold srcPts slotPts
  iintro #HP ⟨%W, HO⟩ ⟨⟨Ht1, Ht2, ⟨%fd, Hslot⟩⟩, HT⟩ Hsrc HS Hk
  ihave #Hg1 := (pers_inv_send m K c h j) $$ HP
  ihave #Hg2 := (pers_inv_recv m K c h j) $$ HP
  ihave #Hr1 := (pers_reach_send m K c h j) $$ HP
  ihave #Hr2 := (pers_reach_recv m K c h j) $$ HP
  iapply (Rounds.wp_send_pointsTo 𝒱₀ ER (Rd m) (c : Thread nD τ) none (c' := (pk c j : Thread nD τ)) (src := srcM h) (dst := dstM h j) (sS := .dma (sendS h j)) (sem := .dma (recvS h j))
      (q := shr j.val) (fs := statsC m c) (fd := fd) (κ₁ := K (c, .snd h j)) (κ₂ := K (pk c j, .rcv h j))
      (r₁ := 0) (r₂ := 0) (d₁ := (0 : Fin 15)) (d₂ := (0 : Fin 15))
      (by rw [duties_send]; exact Finset.mem_singleton_self _) (by rw [duties_recv]; exact Finset.mem_singleton_self _)
      () () N (amount_dst h j) (amount_send m c h j 0) (amount_recv m (pk c j) h j 0)
      (Ocp c (C.erase (h, j))) (Ocp_peel c hC) (W := W)
      (by rw [payload_send]; exact BI.Entails.refl _)
      (by rw [payload_recv]; unfold recvPay slotPts
          exact Entails.of_eq (BI.Region.is_congr (landing m c h j fd (statsC m c) (fun _ _ => rfl)))))
    $$ [HO Ht1 Ht2 Hslot Hsrc]
  · isplitr; · iexact Hg1
    isplitr; · iexact Hg2
    isplitl [Hsrc]; · iexact Hsrc
    isplitl [Hslot]; · iexact Hslot
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  isplitl [HT]; · iexact HT
  isplitl [Hc]; · iexact Hc
  iexact HS

end Cert.KernelIdeal.KP

end
-- ==== Proof.StepWait.lean ====
import proofs.«900762_g7700000000000763_dist_diff_adaln_cshard_i_b2_s2048_c512_v7x_i16_bf16_1_alg».proof.Proof.Families

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def PosS (c : Dev nD) (r : ℕ) (C : Finset (Fin 2 × Fin 15)) : sProp 𝕄 := bigSep C fun hj => atPos ER (sendCell c hj.1 hj.2) r ∅ 0
def PosR (c : Dev nD) (r : ℕ) (C : Finset (Fin 2 × Fin 15)) : sProp 𝕄 := bigSep C fun hj => atPos ER (recvCell c hj.1 hj.2) r ∅ 0

def SrcBack (c : Dev nD) (C : Finset (Fin 2 × Fin 15)) : sProp 𝕄 := bigSep C fun hj => srcPts c hj.1 (shr hj.2.val) (statsC m c)

theorem Pers_inv (K : Dev nD × CK → ℕ) (c : Dev nD) (k : CK) : Pers m K c ⊢ cellInv ER (Rd m) (K (c, k)) (kcell c k) := by
  unfold Pers invs
  exact sep_elim_left.trans (sep_elim_left.trans
    (bigSep_elim (Φ := fun k : CK => cellInv ER (Rd m) (K (c, k)) (kcell c k)) (Finset.mem_univ k)))

theorem credit_src : ∀ h : Fin 2, (srcM h).view.dmaCredit = N := by decide

-- A wait for the whole one-duty round of one of the device's own DMA cells, the device owing nothing: the duty's payload comes with it.
theorem wait_one (c : Dev nD) (s : DmaSem sig) (κ A : ℕ) (pay : sProp 𝕄) (e : TpuEff nD τ sig (Elt F) Λ₀ .tc PUnit)
    (hw : ∀ K' : PUnit → sProp 𝕄, wpE (defs₀ (F := F)) 𝒱₀ (c : Thread nD τ) none Set.univ e K' = waitSpec (c : Thread nD τ) Set.univ (.dma s) A K')
    (hexp : (Rd (F := F) m).expect ((c : Thread nD τ), .dma s) 0 = A)
    (hrest : bigSep ((Rd (F := F) m).duties ((c : Thread nD τ), .dma s) 0 \ ∅) (fun d => (Rd (F := F) m).payload ((c : Thread nD τ), .dma s) 0 d) = pay)
    {α : Type} {Q : α → sProp 𝕄} {k : PUnit → Prog (TpuEff nD τ sig (Elt F) Λ₀ .tc) α} :
    iprop(cellInv ER (Rd m) κ ((c : Thread nD τ), .dma s) ∗ cred (tallyAt ((c : Thread nD τ), .dma s) () A) ∗ (∃ W, owes (c : Thread nD τ) 0 W)
        ∗ atPos ER ((c : Thread nD τ), .dma s) 0 ∅ 0)
      ⊢ iprop((((∃ W, owes (c : Thread nD τ) 0 W) ∗ atPos ER ((c : Thread nD τ), .dma s) 1 ∅ 0 ∗ pay)
            -∗ wp frame (wpE (defs₀ (F := F)) 𝒱₀ (c : Thread nD τ) none) Set.univ (k ⟨⟩) Q)
          -∗ wp frame (wpE (defs₀ (F := F)) 𝒱₀ (c : Thread nD τ) none) Set.univ (.op e k) Q) := by
  iintro ⟨#HI, Hc, ⟨%W, HO⟩, Ha⟩ Hk
  have hrule := Rounds.wp_wait_rest_token (defs := defs₀ (F := F)) 𝒱₀ ER (Rd m) (c : Thread nD τ) none (Γ := PendingWaitsCtx.empty) (Q := Q) (k := k)
      (κ := κ) hw (Set.mem_univ _) () (O := 0) (W := W) (R := 0) (m := 0) (T := ∅)
      (by rw [Nat.zero_add, hexp])
  rw [hrest, Nat.zero_add] at hrule
  iapply hrule $$ [Hc HO Ha]
  · isplitr; · iexact HI
    isplitl [Hc]; · iexact Hc
    isplitl [HO]; · iexact HO
    isplitr; · rw [MayWait_zero]; iempintro
    iexact Ha
  iintro ⟨HO, Ha, _, Hpay⟩
  iapply Hk
  isplitl [HO]; · iexists _; iexact HO
  isplitl [Ha]; · iexact Ha
  iexact Hpay

theorem step_wait_send (K : Dev nD × CK → ℕ) (c : Dev nD) (p : ℕ) (hp : p < 30)
    {h1 : (dstM (cpOf p).1 (cpOf p).2).view.WordExact} {h2 : (srcM (cpOf p).1).view.WordExact} {α : Type} {Q : α → sProp 𝕄} {k : PUnit → Prog (TpuEff nD τ sig (Elt F) Λ₀ .tc) α} :
    Pers m K c ⊢ iprop((∃ W, owes (c : Thread nD τ) 0 W) -∗ SCred (F := F) c (Cfrom p) -∗ PosS (F := F) c 0 (Cfrom p) -∗ PosS (F := F) c 1 (Cbelow p) -∗ SrcBack m c (Cbelow p)
      -∗ (((∃ W, owes (c : Thread nD τ) 0 W) ∗ SCred (F := F) c (Cfrom (p + 1)) ∗ PosS (F := F) c 0 (Cfrom (p + 1)) ∗ PosS (F := F) c 1 (Cbelow (p + 1)) ∗ SrcBack m c (Cbelow (p + 1)))
            -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (sendS (cpOf p).1 (cpOf p).2) (dstM (cpOf p).1 (cpOf p).2) (srcM (cpOf p).1) h1 h2) k) Q) := by
  unfold SCred PosS SrcBack
  rw [bigSep_Cfrom _ hp, bigSep_Cfrom _ hp, bigSep_Cbelow _ hp, bigSep_Cbelow _ hp]
  iintro #HP HO ⟨Hc, HC⟩ ⟨Ha, H0⟩ H1 HB Hk
  iapply (wait_one m c _ (K (c, .snd (cpOf p).1 (cpOf p).2)) N (sendPay m c (cpOf p).1 (cpOf p).2)
      (.waitDma2 (sendS (cpOf p).1 (cpOf p).2) (dstM (cpOf p).1 (cpOf p).2) (srcM (cpOf p).1) h1 h2)
      (fun K' => by rw [wpE_waitDma2_eq, credit_src]) (expect_send m c _ _) (rest_send m c _ _)) $$ [HO Hc Ha]
  · isplitr; · iapply (Pers_inv m K c (.snd (cpOf p).1 (cpOf p).2)) $$ HP
    isplitl [Hc]; · iexact Hc
    isplitl [HO]; · iexact HO
    iexact Ha
  iintro ⟨HO, Ha, Hpay⟩
  iapply Hk
  isplitl [HO]; · iexact HO
  isplitl [HC]; · iexact HC
  isplitl [H0]; · iexact H0
  isplitl [Ha H1]
  · isplitl [Ha]; · iexact Ha
    iexact H1
  isplitl [Hpay]; · unfold sendPay; iexact Hpay
  iexact HB

theorem step_wait_recv (K : Dev nD × CK → ℕ) (c : Dev nD) (p : ℕ) (hp : p < 30)
    {h1 : (srcM (cpOf p).1).view.WordExact} {h2 : (dstM (cpOf p).1 (cpOf p).2).view.WordExact} {α : Type} {Q : α → sProp 𝕄} {k : PUnit → Prog (TpuEff nD τ sig (Elt F) Λ₀ .tc) α} :
    Pers m K c ⊢ iprop((∃ W, owes (c : Thread nD τ) 0 W) -∗ RCred (F := F) c (Cfrom p) -∗ PosR (F := F) c 0 (Cfrom p) -∗ PosR (F := F) c 1 (Cbelow p) -∗ Landed m c (Cbelow p)
      -∗ (((∃ W, owes (c : Thread nD τ) 0 W) ∗ RCred (F := F) c (Cfrom (p + 1)) ∗ PosR (F := F) c 0 (Cfrom (p + 1)) ∗ PosR (F := F) c 1 (Cbelow (p + 1)) ∗ Landed m c (Cbelow (p + 1)))
            -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (recvS (cpOf p).1 (cpOf p).2) (srcM (cpOf p).1) (dstM (cpOf p).1 (cpOf p).2) h1 h2) k) Q) := by
  unfold RCred PosR Landed
  rw [bigSep_Cfrom _ hp, bigSep_Cfrom _ hp, bigSep_Cbelow _ hp, bigSep_Cbelow _ hp]
  iintro #HP HO ⟨Hc, HC⟩ ⟨Ha, H0⟩ H1 HB Hk
  iapply (wait_one m c _ (K (c, .rcv (cpOf p).1 (cpOf p).2)) N (recvPay m c (cpOf p).1 (cpOf p).2)
      (.waitDma2 (recvS (cpOf p).1 (cpOf p).2) (srcM (cpOf p).1) (dstM (cpOf p).1 (cpOf p).2) h1 h2)
      (fun K' => by rw [wpE_waitDma2_eq, amount_dst]) (expect_recv m c _ _) (rest_recv m c _ _)) $$ [HO Hc Ha]
  · isplitr; · iapply (Pers_inv m K c (.rcv (cpOf p).1 (cpOf p).2)) $$ HP
    isplitl [Hc]; · iexact Hc
    isplitl [HO]; · iexact HO
    iexact Ha
  iintro ⟨HO, Ha, Hpay⟩
  iapply Hk
  isplitl [HO]; · iexact HO
  isplitl [HC]; · iexact HC
  isplitl [H0]; · iexact H0
  isplitl [Ha H1]
  · isplitl [Ha]; · iexact Ha
    iexact H1
  isplitl [Hpay]; · unfold recvPay; iexact Hpay
  iexact HB

theorem close_one (K : Dev nD × CK → ℕ) (c : Dev nD) (k : CK) :
    iprop(Pers m K c ∗ atPos ER (kcell c k) 1 ∅ 0) ⊢ |={Set.univ}=> (semVal (kcell c k) 0 : sProp 𝕄) := by
  iintro ⟨#HP, Ha⟩
  iapply (Rounds.cell_close ER (Rd m) (κ := K (c, k)) (g := kcell c k) (Set.mem_univ _) (fun h => h) (R := 1) (duties_later m _))
  isplitr; · iapply (Pers_inv m K c k) $$ HP
  iexact Ha

theorem close_pair (K : Dev nD × CK → ℕ) (c : Dev nD) (hj : Fin 2 × Fin 15) :
    iprop(Pers m K c ∗ atPos ER (sendCell c hj.1 hj.2) 1 ∅ 0 ∗ atPos ER (recvCell c hj.1 hj.2) 1 ∅ 0)
      ⊢ |={Set.univ}=> (iprop(semVal (sendCell c hj.1 hj.2) 0 ∗ semVal (recvCell c hj.1 hj.2) 0) : sProp 𝕄) := by
  iintro ⟨#HP, Hs, Hr⟩
  imod (close_one m K c (.snd hj.1 hj.2)) $$ [Hs] with Hs
  · isplitr; · iexact HP
    iexact Hs
  imod (close_one m K c (.rcv hj.1 hj.2)) $$ [Hr] with Hr
  · isplitr; · iexact HP
    iexact Hr
  imodintro
  isplitl [Hs]; · iexact Hs
  iexact Hr

theorem close_all (K : Dev nD × CK → ℕ) (c : Dev nD) :
    iprop(Pers m K c ∗ PosS (F := F) c 1 Finset.univ ∗ PosR (F := F) c 1 Finset.univ)
      ⊢ |={Set.univ}=> (bigSep Finset.univ fun hj : Fin 2 × Fin 15 => iprop(semVal (sendCell c hj.1 hj.2) 0 ∗ semVal (recvCell c hj.1 hj.2) 0) : sProp 𝕄) := by
  unfold PosS PosR
  rw [← bigSep_sep']
  refine BIBase.Entails.trans ?_ (bigSep_fupd Finset.univ _)
  refine (sep_mono (bigSep_of_persistent (Finset.univ : Finset (Fin 2 × Fin 15)) (Pers m K c)) (.refl _)).trans ?_
  rw [← bigSep_sep]
  exact bigSep_mono fun hj _ => close_pair m K c hj

end Cert.KernelIdeal.KP

end
-- ==== Proof.Init.lean ====
import proofs.«900762_g7700000000000763_dist_diff_adaln_cshard_i_b2_s2048_c512_v7x_i16_bf16_1_alg».proof.Proof.StepSig
import proofs.«900762_g7700000000000763_dist_diff_adaln_cshard_i_b2_s2048_c512_v7x_i16_bf16_1_alg».proof.Proof.StepSend
import proofs.«900762_g7700000000000763_dist_diff_adaln_cshard_i_b2_s2048_c512_v7x_i16_bf16_1_alg».proof.Proof.StepWait
import Idealize.SL.ProofMode.BigOp

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem lin_lt (hj : Fin 2 × Fin 15) : lin hj < 30 := by
  unfold lin; have h1 := hj.1.isLt; have h2 := hj.2.isLt; omega

theorem Tfrom_zero : Tfrom 0 = Finset.univ := by
  ext j; simp only [Tfrom, Finset.mem_filter, Finset.mem_univ, true_and, Nat.zero_le]
theorem Cfrom_zero : Cfrom 0 = Finset.univ := by
  ext hj; simp only [Cfrom, Finset.mem_filter, Finset.mem_univ, true_and, Nat.zero_le]
theorem Cfrom_30 : Cfrom 30 = ∅ := by
  ext hj; simp only [Cfrom, Finset.mem_filter, Finset.mem_univ, true_and, Finset.notMem_empty, iff_false]
  have := lin_lt hj; omega
theorem Cbelow_zero : Cbelow 0 = ∅ := by
  ext hj; simp only [Cbelow, Finset.mem_filter, Finset.mem_univ, true_and, Finset.notMem_empty, iff_false, Nat.not_lt_zero, not_false_eq_true]
theorem Cbelow_30 : Cbelow 30 = Finset.univ := by
  ext hj; simp only [Cbelow, Finset.mem_filter, Finset.mem_univ, true_and, iff_true]; exact lin_lt hj

theorem Cbelow_15 : Cbelow 15 = Finset.univ.map ⟨fun j : Fin 15 => ((0 : Fin 2), j), fun a b h => (Prod.mk.inj h).2⟩ := by
  ext hj
  rw [Finset.mem_map]
  unfold Cbelow lin
  rw [Finset.mem_filter]
  constructor
  · rintro ⟨-, hlt⟩
    have h0 : hj.1 = 0 := Fin.ext (by have h1 := hj.2.isLt; have h2 := hj.1.isLt; show hj.1.val = 0; omega)
    refine ⟨hj.2, Finset.mem_univ _, ?_⟩
    show ((0 : Fin 2), hj.2) = hj
    rw [← h0]
  · rintro ⟨a, -, rfl⟩
    refine ⟨Finset.mem_univ _, ?_⟩
    show 15 * 0 + a.val < 15
    have h1 := a.isLt; omega

omit [FloatOps F] in
theorem bigSep_Cbelow_15 (Φ : Fin 2 × Fin 15 → sProp 𝕄) :
    bigSep (Cbelow 15) Φ = bigSep Finset.univ fun j : Fin 15 => Φ (0, j) := by
  rw [Cbelow_15, bigSep_map]; rfl

omit [FloatOps F] in
theorem bigSep_copies (Φ : Fin 2 × Fin 15 → sProp 𝕄) :
    bigSep Finset.univ Φ = iprop((bigSep Finset.univ fun j : Fin 15 => Φ (0, j)) ∗ (bigSep Finset.univ fun j : Fin 15 => Φ (1, j))) := by
  rw [bigSep_univ_prod, bigSep_univ_two]

theorem pers_intro (K : Dev nD × CK → ℕ) (c : Dev nD) : iprop(invs m K c ∗ reacheds (F := F) c ∗ levAts L lv) ⊢ Pers m K c :=
  Entails.of_eq rfl

omit [FloatOps F] in
theorem positions_split (c : Dev nD) :
    positions (F := F) c ⊣⊢ iprop(atPos ER (barCell c) 0 ∅ 0 ∗ PosS (F := F) c 0 Finset.univ ∗ PosR (F := F) c 0 Finset.univ
      ∗ bigSep Finset.univ fun h : Fin 2 => atPos ER (outCell c h) 0 ∅ 0) :=
  BiEntails.of_eq (by unfold positions PosS PosR; exact bigSep_ckParts _)

omit [FloatOps F] in
theorem payToks_split (c : Dev nD) :
    payToks (F := F) c ⊣⊢ iprop((bigSep Finset.univ fun j : Fin 15 => dutyTok ER (barCell (pk c j)) 0 (Fin.rev j))
      ∗ (bigSep Finset.univ fun hj : Fin 2 × Fin 15 => dutyTok ER (recvCell (pk c hj.2) hj.1 hj.2) 0 (0 : Fin 15))
      ∗ (bigSep Finset.univ fun hj : Fin 2 × Fin 15 => dutyTok ER (sendCell c hj.1 hj.2) 0 (0 : Fin 15))
      ∗ (bigSep Finset.univ fun h : Fin 2 => dutyTok ER (outCell c h) 0 (0 : Fin 15))) :=
  BiEntails.of_eq rfl

omit [FloatOps F] in
theorem cptok_init (c : Dev nD) :
    iprop((bigSep Finset.univ fun hj : Fin 2 × Fin 15 => dutyTok ER (sendCell c hj.1 hj.2) 0 (0 : Fin 15))
      ∗ (bigSep Finset.univ fun hj : Fin 2 × Fin 15 => dutyTok ER (recvCell (pk c hj.2) hj.1 hj.2) 0 (0 : Fin 15)) ∗ PeerSlots (F := F) c)
      ⊢ CpTok (F := F) c (Cfrom 0) :=
  Entails.of_eq (by rw [Cfrom_zero]; unfold CpTok PeerSlots; rw [bigSep_sep', bigSep_sep'])

section Bounds
variable (c : Dev nD)

omit [FloatOps F] in
theorem SCred_below_zero : iprop(emp) ⊢ SCred (F := F) c (Cbelow 0) := Entails.of_eq (by rw [Cbelow_zero]; rfl)
omit [FloatOps F] in
theorem PosS_below_zero (r : ℕ) : iprop(emp) ⊢ PosS (F := F) c r (Cbelow 0) := Entails.of_eq (by rw [Cbelow_zero]; rfl)
omit [FloatOps F] in
theorem PosR_below_zero (r : ℕ) : iprop(emp) ⊢ PosR (F := F) c r (Cbelow 0) := Entails.of_eq (by rw [Cbelow_zero]; rfl)
theorem SrcBack_below_zero : iprop(emp) ⊢ SrcBack m c (Cbelow 0) := Entails.of_eq (by rw [Cbelow_zero]; rfl)
theorem Landed_below_zero : iprop(emp) ⊢ Landed m c (Cbelow 0) := Entails.of_eq (by rw [Cbelow_zero]; rfl)

omit [FloatOps F] in
theorem SCred_all : SCred (F := F) c (Cbelow 30) ⊣⊢ SCred (F := F) c (Cfrom 0) := BiEntails.of_eq (by rw [Cbelow_30, Cfrom_zero])
omit [FloatOps F] in
theorem PosS_univ_from (r : ℕ) : PosS (F := F) c r Finset.univ ⊣⊢ PosS (F := F) c r (Cfrom 0) := BiEntails.of_eq (by rw [Cfrom_zero])
omit [FloatOps F] in
theorem PosR_univ_from (r : ℕ) : PosR (F := F) c r Finset.univ ⊣⊢ PosR (F := F) c r (Cfrom 0) := BiEntails.of_eq (by rw [Cfrom_zero])
omit [FloatOps F] in
theorem RCred_univ_from : RCred (F := F) c Finset.univ ⊣⊢ RCred (F := F) c (Cfrom 0) := BiEntails.of_eq (by rw [Cfrom_zero])
omit [FloatOps F] in
theorem PosS_below_all (r : ℕ) : PosS (F := F) c r (Cbelow 30) ⊣⊢ PosS (F := F) c r Finset.univ := BiEntails.of_eq (by rw [Cbelow_30])
omit [FloatOps F] in
theorem PosR_below_all (r : ℕ) : PosR (F := F) c r (Cbelow 30) ⊣⊢ PosR (F := F) c r Finset.univ := BiEntails.of_eq (by rw [Cbelow_30])

theorem Landed_half : Landed m c (Cbelow 15) ⊣⊢ bigSep Finset.univ fun j : Fin 15 => slotPts c 0 j (gathC m c) :=
  BiEntails.of_eq (by unfold Landed; exact bigSep_Cbelow_15 _)

theorem Landed_all : Landed m c (Cbelow 30)
    ⊣⊢ iprop((bigSep Finset.univ fun j : Fin 15 => slotPts c 0 j (gathC m c)) ∗ (bigSep Finset.univ fun j : Fin 15 => slotPts c 1 j (gathC m c))) :=
  BiEntails.of_eq (by unfold Landed; rw [Cbelow_30]; exact bigSep_copies _)

theorem SrcBack_all : SrcBack m c (Cbelow 30)
    ⊣⊢ iprop((bigSep Finset.univ fun j : Fin 15 => srcPts c 0 (shr j.val) (statsC m c)) ∗ (bigSep Finset.univ fun j : Fin 15 => srcPts c 1 (shr j.val) (statsC m c))) :=
  BiEntails.of_eq (by unfold SrcBack; rw [Cbelow_30]; exact bigSep_copies _)

theorem SrcSh_zero (h : Fin 2) : SrcSh m c h (Tfrom 0) ⊣⊢ bigSep Finset.univ fun j : Fin 15 => srcPts c h (shr j.val) (statsC m c) :=
  BiEntails.of_eq (by rw [Tfrom_zero]; rfl)

end Bounds

theorem SrcSh_peel (c : Dev nD) (h : Fin 2) (j : Fin 15) :
    SrcSh m c h (Tfrom j.val) = iprop(srcPts c h (shr j.val) (statsC m c) ∗ SrcSh m c h (Tfrom (j.val + 1))) := by
  unfold SrcSh
  rw [← Tfrom_erase j.val j.isLt]
  exact bigSep_erase (mem_Tfrom j.val j.isLt)

theorem step_send_fam (K : Dev nD × CK → ℕ) (c : Dev nD) (p : ℕ) (hp : p < 30) (d : Dev nD) (hd : d = pk c (cpOf p).2)
    (h : Fin 2) (n : ℕ) (hh : (cpOf p).1 = h) (hn : (cpOf p).2.val = n)
    {hsc : (dstM (cpOf p).1 (cpOf p).2 : Memref sig (Dev.tc d : Thread nD τ).2.kind .vmem S2x2x1024 .bf16).view.ref.isScScratch = false}
    {hsrc : (srcM (cpOf p).1).view.WordExact} {hdst : (dstM (cpOf p).1 (cpOf p).2).view.WordExact}
    {hsem : DmaTarget.Typed .vmem (.dma (recvS (cpOf p).1 (cpOf p).2)) (.remote (Dev.tc d : Thread nD τ) (dstM (cpOf p).1 (cpOf p).2) (.dma (sendS (cpOf p).1 (cpOf p).2)) hsc)}
    {α : Type} {Q : α → sProp 𝕄} {k : PUnit → Prog (TpuEff nD τ sig (Elt F) Λ₀ .tc) α} :
    Pers m K c ⊢ iprop((∃ W, owes (c : Thread nD τ) (Ocp c (Cfrom p)) W) -∗ CpTok (F := F) c (Cfrom p)
      -∗ SrcSh m c h (Tfrom n) -∗ SCred (F := F) c (Cbelow p)
      -∗ (((∃ W, owes (c : Thread nD τ) (Ocp c (Cfrom (p + 1))) W) ∗ CpTok (F := F) c (Cfrom (p + 1)) ∗ SCred (F := F) c (Cbelow (p + 1))
            ∗ SrcSh m c h (Tfrom (n + 1))) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (srcM (cpOf p).1) (.remote (Dev.tc d : Thread nD τ) (dstM (cpOf p).1 (cpOf p).2) (.dma (sendS (cpOf p).1 (cpOf p).2)) hsc)
            (.dma (recvS (cpOf p).1 (cpOf p).2)) hsrc hdst hsem) k) Q) := by
  subst hh hn hd
  rw [SrcSh_peel m c (cpOf p).1 (cpOf p).2, ← Cfrom_erase p hp, Cbelow_succ p hp]
  iintro #HP HO HT ⟨Hsrc, HSh⟩ HS Hk
  iapply (send_aux m K c (cpOf p).1 (cpOf p).2 (Cfrom p) (Cbelow p) (cpOf_mem_Cfrom p hp) (cpOf_not_mem_Cbelow p hp)) $$ HP HO HT Hsrc HS
  iintro ⟨HO, HT, HS⟩
  iapply Hk
  isplitl [HO]; · iexact HO
  isplitl [HT]; · iexact HT
  isplitl [HS]; · iexact HS
  iexact HSh

end Cert.KernelIdeal.KP

end
-- ==== Proof.ContentsSets.lean ====
import proofs.«900762_g7700000000000763_dist_diff_adaln_cshard_i_b2_s2048_c512_v7x_i16_bf16_1_alg».proof.Proof.Contents

noncomputable section

namespace Cert.KernelIdeal.KP

open Cert.KernelIdeal Cert.KernelIdeal.Gen
open Idealize.ShloMosaic
open Idealize.ShloMosaic.TcCoe
open Idealize.ShloMosaic.ValueIdx

variable {F : FTy → Type} [FloatOps F]

theorem mem_unit3 {n0 n1 n2 : ℕ} (off size : Fin 3 → ℕ) {inb : ∀ d, off d + size d ≤ (⟨3, ![n0, n1, n2]⟩ : Shape).size d}
    (a : Fin n0) (b : Fin n1) (s : Fin n2) :
    (ix3 a b s : (⟨3, ![n0, n1, n2]⟩ : Shape).Idx) ∈ (Rect.unit (s := ⟨3, ![n0, n1, n2]⟩) off size inb).set
      ↔ (off 0 ≤ a.val ∧ a.val < off 0 + size 0) ∧ (off 1 ≤ b.val ∧ b.val < off 1 + size 1)
          ∧ (off 2 ≤ s.val ∧ s.val < off 2 + size 2) := by
  rw [Rect.mem_set_unit]
  constructor
  · intro h; exact ⟨h 0, h 1, h 2⟩
  · rintro ⟨h0, h1, h2⟩ d
    match d with
    | ⟨0, _⟩ => exact h0
    | ⟨1, _⟩ => exact h1
    | ⟨2, _⟩ => exact h2

theorem mem_unit4 {n0 n1 n2 n3 : ℕ} (off size : Fin 4 → ℕ)
    {inb : ∀ d, off d + size d ≤ (⟨4, ![n0, n1, n2, n3]⟩ : Shape).size d}
    (j : Fin n0) (a : Fin n1) (b : Fin n2) (s : Fin n3) :
    (ix4 j a b s : (⟨4, ![n0, n1, n2, n3]⟩ : Shape).Idx) ∈ (Rect.unit (s := ⟨4, ![n0, n1, n2, n3]⟩) off size inb).set
      ↔ (off 0 ≤ j.val ∧ j.val < off 0 + size 0) ∧ (off 1 ≤ a.val ∧ a.val < off 1 + size 1)
          ∧ (off 2 ≤ b.val ∧ b.val < off 2 + size 2) ∧ (off 3 ≤ s.val ∧ s.val < off 3 + size 3) := by
  rw [Rect.mem_set_unit]
  constructor
  · intro h; exact ⟨h 0, h 1, h 2, h 3⟩
  · rintro ⟨h0, h1, h2, h3⟩ d
    match d with
    | ⟨0, _⟩ => exact h0
    | ⟨1, _⟩ => exact h1
    | ⟨2, _⟩ => exact h2
    | ⟨3, _⟩ => exact h3

theorem src_set (h : Fin 2) :
    (srcM h).view.set = (Rect.unit (s := S2x2x2048) ![0, 0, 1024 * h.val] S2x2x1024.size (inb_src h)).set :=
  View.set_slice_whole _ _

theorem mem_src (h : Fin 2) (a b : Fin 2) (s : Fin 2048) :
    (ix3 a b s : S2x2x2048.Idx) ∈ (srcM h).view.set ↔ 1024 * h.val ≤ s.val ∧ s.val < 1024 * h.val + 1024 := by
  refine Iff.trans (b := (ix3 a b s : S2x2x2048.Idx)
      ∈ (Rect.unit (s := S2x2x2048) ![0, 0, 1024 * h.val] S2x2x1024.size (inb_src h)).set) (by rw [src_set]; exact Iff.rfl) ?_
  refine (mem_unit3 ![0, 0, 1024 * h.val] S2x2x1024.size (inb := inb_src h) a b s).trans ?_
  show ((0 ≤ a.val ∧ a.val < 0 + 2) ∧ (0 ≤ b.val ∧ b.val < 0 + 2) ∧ (1024 * h.val ≤ s.val ∧ s.val < 1024 * h.val + 1024)) ↔ _
  constructor
  · intro h'; exact h'.2.2
  · intro h'; exact ⟨by omega, by omega, h'⟩

theorem src_disjoint : Disjoint (srcM 0).view.set (srcM 1).view.set := by
  refine Finset.disjoint_left.mpr fun (i : S2x2x2048.Idx) h0 h1 => ?_
  obtain ⟨a, b, s, rfl⟩ : ∃ a b s, i = ix3 a b s := ⟨i 0, i 1, i 2, eq_ix3 i⟩
  have g0 := (mem_src 0 a b s).mp h0
  have g1 := (mem_src 1 a b s).mp h1
  have e0 : (0 : Fin 2).val = 0 := rfl
  have e1 : (1 : Fin 2).val = 1 := rfl
  omega

theorem src_union : (srcM 0).view.set ∪ (srcM 1).view.set = Finset.univ := by
  refine Finset.eq_univ_iff_forall.mpr fun (i : S2x2x2048.Idx) => ?_
  obtain ⟨a, b, s, rfl⟩ : ∃ a b s, i = ix3 a b s := ⟨i 0, i 1, i 2, eq_ix3 i⟩
  have e0 : (0 : Fin 2).val = 0 := rfl
  have e1 : (1 : Fin 2).val = 1 := rfl
  by_cases hs : s.val < 1024
  · exact Finset.mem_union_left _ ((mem_src 0 a b s).mpr (by omega))
  · exact Finset.mem_union_right _ ((mem_src 1 a b s).mpr (by omega))

theorem store_sub (h : Fin 2) (o0 o2 : ℕ) (h0 : o0 < 2) (h2 : o2 = 1024 * h.val)
    {inb : ∀ d, (![o0, 0, o2] : Fin 3 → ℕ) d + S1x2x1024.size d ≤ S2x2x2048.size d} :
    (statsM.access (Rect.unit (s := S2x2x2048) ![o0, 0, o2] S1x2x1024.size inb)).setOn Finset.univ ⊆ (srcM h).view.set := by
  rw [View.setOn_univ, View.set_slice_whole]
  intro (i : S2x2x2048.Idx) hi
  obtain ⟨a, b, s, rfl⟩ : ∃ a b s, i = ix3 a b s := ⟨i 0, i 1, i 2, eq_ix3 i⟩
  have hi' : (o0 ≤ a.val ∧ a.val < o0 + 1) ∧ (0 ≤ b.val ∧ b.val < 0 + 2) ∧ (o2 ≤ s.val ∧ s.val < o2 + 1024) :=
    (mem_unit3 ![o0, 0, o2] S1x2x1024.size (inb := inb) a b s).mp hi
  exact (mem_src h a b s).mpr (by omega)

theorem store_sub_01 {inb : ∀ d, (![0, 0, 1024] : Fin 3 → ℕ) d + S1x2x1024.size d ≤ S2x2x2048.size d} :
    (statsM.access (Rect.unit (s := S2x2x2048) ![0, 0, 1024] S1x2x1024.size inb)).setOn Finset.univ ⊆ (srcM 1).view.set :=
  store_sub 1 0 1024 (by omega) rfl
theorem store_sub_11 {inb : ∀ d, (![1, 0, 1024] : Fin 3 → ℕ) d + S1x2x1024.size d ≤ S2x2x2048.size d} :
    (statsM.access (Rect.unit (s := S2x2x2048) ![1, 0, 1024] S1x2x1024.size inb)).setOn Finset.univ ⊆ (srcM 1).view.set :=
  store_sub 1 1 1024 (by omega) rfl

theorem dst_set (h : Fin 2) (j : Fin 15) :
    (dstM h j).view.set
      = (Rect.unit (s := S15x2x2x2048) ![j.val, 0, 0, 1024 * h.val] S1x2x2x1024.size (inb_dst h j)).set :=
  (View.set_reshape _ _).trans (View.set_slice_whole _ _)

theorem mem_dst (h : Fin 2) (j j' : Fin 15) (a b : Fin 2) (s : Fin 2048) :
    (ix4 j' a b s : S15x2x2x2048.Idx) ∈ (dstM h j).view.set
      ↔ j'.val = j.val ∧ 1024 * h.val ≤ s.val ∧ s.val < 1024 * h.val + 1024 := by
  refine Iff.trans (b := (ix4 j' a b s : S15x2x2x2048.Idx)
      ∈ (Rect.unit (s := S15x2x2x2048) ![j.val, 0, 0, 1024 * h.val] S1x2x2x1024.size (inb_dst h j)).set) (by rw [dst_set]; exact Iff.rfl) ?_
  refine (mem_unit4 ![j.val, 0, 0, 1024 * h.val] S1x2x2x1024.size (inb := inb_dst h j) j' a b s).trans ?_
  show ((j.val ≤ j'.val ∧ j'.val < j.val + 1) ∧ (0 ≤ a.val ∧ a.val < 0 + 2) ∧ (0 ≤ b.val ∧ b.val < 0 + 2)
      ∧ (1024 * h.val ≤ s.val ∧ s.val < 1024 * h.val + 1024)) ↔ _
  constructor
  · intro h'; exact ⟨by omega, h'.2.2.2⟩
  · intro h'; exact ⟨by omega, by omega, by omega, h'.2⟩

theorem dst_disjoint (h h' : Fin 2) (j j' : Fin 15) (hne : h ≠ h' ∨ j ≠ j') :
    Disjoint (dstM h j).view.set (dstM h' j').view.set := by
  refine Finset.disjoint_left.mpr fun (i : S15x2x2x2048.Idx) h0 h1 => ?_
  obtain ⟨j0, a, b, s, rfl⟩ : ∃ j0 a b s, i = ix4 j0 a b s := ⟨i 0, i 1, i 2, i 3, eq_ix4 i⟩
  have g0 := (mem_dst h j j0 a b s).mp h0
  have g1 := (mem_dst h' j' j0 a b s).mp h1
  rcases hne with hh | hj
  · exact hh (Fin.ext (by omega))
  · exact hj (Fin.ext (by omega))

theorem gath_load_set (h : Fin 2) (o3 : ℕ) (ho : o3 = 1024 * h.val)
    {inb : ∀ d, (![0, 0, 0, o3] : Fin 4 → ℕ) d + S15x2x2x1024.size d ≤ S15x2x2x2048.size d} :
    gathM.view.setOn (Rect.unit (s := S15x2x2x2048) ![0, 0, 0, o3] S15x2x2x1024.size inb).toLoadRect.set
      = Finset.univ.biUnion fun j : Fin 15 => (dstM h j).view.set := by
  subst ho
  show Finset.map (Function.Embedding.refl _) _ = _
  rw [Finset.map_refl]
  refine Finset.ext fun (i : S15x2x2x2048.Idx) => ?_
  obtain ⟨j0, a, b, s, rfl⟩ : ∃ j0 a b s, i = ix4 j0 a b s := ⟨i 0, i 1, i 2, i 3, eq_ix4 i⟩
  refine (mem_unit4 ![0, 0, 0, 1024 * h.val] S15x2x2x1024.size (inb := inb) j0 a b s).trans ?_
  show ((0 ≤ j0.val ∧ j0.val < 0 + 15) ∧ (0 ≤ a.val ∧ a.val < 0 + 2) ∧ (0 ≤ b.val ∧ b.val < 0 + 2)
      ∧ (1024 * h.val ≤ s.val ∧ s.val < 1024 * h.val + 1024)) ↔ _
  constructor
  · intro h'
    exact Finset.mem_biUnion.mpr ⟨j0, Finset.mem_univ _, (mem_dst h j0 j0 a b s).mpr ⟨rfl, h'.2.2.2⟩⟩
  · intro h'
    obtain ⟨j, -, hj⟩ := Finset.mem_biUnion.mp h'
    have g := (mem_dst h j j0 a b s).mp hj
    exact ⟨by omega, by omega, by omega, g.2⟩

variable (m : (ℓ : Loc nD τ sig) → Buf (Elt F) ℓ)

end Cert.KernelIdeal.KP

end
-- ==== Proof.Mem.lean ====
import proofs.«900762_g7700000000000763_dist_diff_adaln_cshard_i_b2_s2048_c512_v7x_i16_bf16_1_alg».proof.Proof.Families
import proofs.«900762_g7700000000000763_dist_diff_adaln_cshard_i_b2_s2048_c512_v7x_i16_bf16_1_alg».proof.Proof.StepWait
import proofs.«900762_g7700000000000763_dist_diff_adaln_cshard_i_b2_s2048_c512_v7x_i16_bf16_1_alg».proof.Proof.ContentsSets

noncomputable section

namespace Cert.KernelIdeal.KP

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem ofEq {P Q : sProp 𝕄} (h : P = Q) : P ⊢ Q := Entails.of_eq h

theorem bigSep_mono' {I : Type} {s : Finset I} {Φ Ψ : I → sProp 𝕄} (h : ∀ i ∈ s, Φ i ⊢ Ψ i) : bigSep s Φ ⊢ bigSep s Ψ :=
  bigSep_mono h

theorem bigSep_sep3 {I : Type} (s : Finset I) (A B C : I → sProp 𝕄) :
    (bigSep s fun i => iprop(A i ∗ B i ∗ C i)) = iprop(bigSep s A ∗ bigSep s B ∗ bigSep s C) :=
  (bigSep_sep s A fun i => iprop(B i ∗ C i)).trans (congrArg (fun X => iprop(bigSep s A ∗ X)) (bigSep_sep s B C))

theorem dst_cover :
    (Finset.univ.biUnion fun hj : Fin 2 × Fin 15 => (dstM hj.1 hj.2).view.set)
      = (Finset.univ : Finset S15x2x2x2048.Idx) := by
  refine Finset.eq_univ_iff_forall.mpr fun (i : S15x2x2x2048.Idx) => ?_
  obtain ⟨j0, a, b, s, rfl⟩ : ∃ j0 a b s, i = ix4 j0 a b s := ⟨i 0, i 1, i 2, i 3, eq_ix4 i⟩
  have e0 : (0 : Fin 2).val = 0 := rfl
  have e1 : (1 : Fin 2).val = 1 := rfl
  by_cases hs : s.val < 1024
  · exact Finset.mem_biUnion.mpr ⟨((0 : Fin 2), j0), Finset.mem_univ _, (mem_dst 0 j0 j0 a b s).mpr ⟨rfl, by omega⟩⟩
  · exact Finset.mem_biUnion.mpr ⟨((1 : Fin 2), j0), Finset.mem_univ _, (mem_dst 1 j0 j0 a b s).mpr ⟨rfl, by omega⟩⟩

theorem dst_pairwise (t t' : Fin 2 × Fin 15) (hne : t ≠ t') :
    Disjoint (dstM t.1 t.2).view.set (dstM t'.1 t'.2).view.set := by
  refine dst_disjoint t.1 t'.1 t.2 t'.2 ?_
  by_contra hc
  exact hne (Prod.ext (not_not.mp fun h => hc (Or.inl h)) (not_not.mp fun h => hc (Or.inr h)))

theorem gath_split_eq (c : Dev nD) (f : Buf (Elt F) ((c : Thread nD τ).loc cc0_scratch3)) :
    (((c : Thread nD τ).loc cc0_scratch3) ↦{fullShare} f : sProp 𝕄)
      = bigSep Finset.univ fun hj : Fin 2 × Fin 15 => slotPts c hj.1 hj.2 f := by
  have h1 := pointsTo_biUnion (ℓ := (c : Thread nD τ).loc cc0_scratch3) (q := fullShare) (f := f)
    (Ix := Unit) (Name := ℕ) (U := UU) (Lvl := ℕ)
    (Finset.univ : Finset (Fin 2 × Fin 15)) (fun hj => (dstM hj.1 hj.2).view.set)
    (fun t _ t' _ hne => dst_pairwise t t' hne)
  rw [dst_cover] at h1
  exact h1

theorem landed_half_eq (c : Dev nD) (h : Fin 2) (f : Buf (Elt F) (gathM.view.loc (c : Thread nD τ))) :
    (bigSep Finset.univ fun j : Fin 15 => slotPts c h j f)
      = (gathM.view.loc (c : Thread nD τ) ↦[Finset.univ.biUnion fun j : Fin 15 => (dstM h j).view.set]{fullShare} f : sProp 𝕄) :=
  (pointsTo_biUnion (ℓ := gathM.view.loc (c : Thread nD τ)) (q := fullShare) (f := f)
    (Ix := Unit) (Name := ℕ) (U := UU) (Lvl := ℕ)
    (Finset.univ : Finset (Fin 15)) (fun j => (dstM h j).view.set)
    (fun j _ j' _ hne => dst_disjoint h h j j' (Or.inr hne))).symm

variable (m : (ℓ : Loc nD τ sig) → Buf (Elt F) ℓ)

theorem landed_half (c : Dev nD) (h : Fin 2) :
    (bigSep Finset.univ fun j : Fin 15 => slotPts c h j (gathC m c))
      ⊣⊢ (gathM.view.loc (c : Thread nD τ) ↦[Finset.univ.biUnion fun j : Fin 15 => (dstM h j).view.set]{fullShare} gathC m c : sProp 𝕄) :=
  ⟨Entails.of_eq (landed_half_eq c h (gathC m c)), Entails.of_eq (landed_half_eq c h (gathC m c)).symm⟩

theorem gath_join (c : Dev nD) :
    (bigSep Finset.univ fun hj : Fin 2 × Fin 15 => slotPts c hj.1 hj.2 (gathC m c))
      ⊢ (iprop(∃ f, ((c : Thread nD τ).loc cc0_scratch3) ↦{fullShare} f) : sProp 𝕄) := by
  rw [← gath_split_eq c (gathC m c)]
  exact exists_intro (gathC m c)

theorem stats_split_eq (c : Dev nD) (f : Buf (Elt F) ((c : Thread nD τ).loc cc0_scratch2)) :
    (((c : Thread nD τ).loc cc0_scratch2) ↦{fullShare} f : sProp 𝕄)
      = iprop(srcPts c 0 fullShare f ∗ srcPts c 1 fullShare f) := by
  have h1 := pointsTo_union (ℓ := (c : Thread nD τ).loc cc0_scratch2) (q := fullShare) (f := f)
    (Ix := Unit) (Name := ℕ) (U := UU) (Lvl := ℕ) src_disjoint
  have hu : ((srcM 0).view.set ∪ (srcM 1).view.set : Finset (Idx ((c : Thread nD τ).loc cc0_scratch2))) = Finset.univ :=
    src_union
  have e := equiv_iff.mp ⟨h1.1, h1.2⟩
  exact (congrArg (fun S : Finset (Idx ((c : Thread nD τ).loc cc0_scratch2)) =>
    (((c : Thread nD τ).loc cc0_scratch2) ↦[S]{fullShare} f : sProp 𝕄)) hu.symm).trans e

theorem stats_split (c : Dev nD) (f : Buf (Elt F) ((c : Thread nD τ).loc cc0_scratch2)) :
    (((c : Thread nD τ).loc cc0_scratch2) ↦{fullShare} f : sProp 𝕄)
      ⊣⊢ iprop(srcPts c 0 fullShare f ∗ srcPts c 1 fullShare f) :=
  ⟨Entails.of_eq (stats_split_eq c f), Entails.of_eq (stats_split_eq c f).symm⟩

theorem gath_rev_eq (c : Dev nD) (f : Buf (Elt F) ((c : Thread nD τ).loc cc0_scratch3)) :
    (((c : Thread nD τ).loc cc0_scratch3) ↦{fullShare} f : sProp 𝕄)
      = iprop((bigSep Finset.univ fun j : Fin 15 => slotPts c 0 (Fin.rev j) f)
          ∗ bigSep Finset.univ fun j : Fin 15 => slotPts c 1 (Fin.rev j) f) := by
  rw [gath_split_eq, bigSep_univ_prod, bigSep_fin_two]
  show iprop((bigSep Finset.univ fun j : Fin 15 => slotPts c 0 j f) ∗ bigSep Finset.univ fun j : Fin 15 => slotPts c 1 j f) = _
  rw [bigSep_univ_equiv Fin.revPerm (fun j : Fin 15 => slotPts c 0 j f),
    bigSep_univ_equiv Fin.revPerm (fun j : Fin 15 => slotPts c 1 j f)]
  rfl

theorem sig_init (c : Dev nD) :
    (iprop((∃ f, ((c : Thread nD τ).loc cc0_scratch3) ↦{fullShare} f)
        ∗ bigSep Finset.univ fun j : Fin 15 => dutyTok ER (barCell (pk c j)) 0 (Fin.rev j)) : sProp 𝕄)
      ⊢ SigRes (F := F) c Finset.univ := by
  have hS : SigRes (F := F) c Finset.univ
      = iprop((bigSep Finset.univ fun j : Fin 15 => dutyTok ER (barCell (pk c j)) 0 (Fin.rev j))
          ∗ (bigSep Finset.univ fun j : Fin 15 => iprop(∃ f, slotPts (F := F) c 0 (Fin.rev j) f))
          ∗ bigSep Finset.univ fun j : Fin 15 => iprop(∃ f, slotPts (F := F) c 1 (Fin.rev j) f)) :=
    bigSep_sep3 (F := F) (Finset.univ : Finset (Fin 15)) (fun j => dutyTok ER (barCell (pk c j)) 0 (Fin.rev j))
      (fun j => iprop(∃ f, slotPts (F := F) c 0 (Fin.rev j) f)) (fun j => iprop(∃ f, slotPts (F := F) c 1 (Fin.rev j) f))
  rw [hS]
  iintro ⟨⟨%f, Hf⟩, Htok⟩
  isplitl [Htok]
  · iexact Htok
  ihave H := (ofEq (gath_rev_eq c f)) $$ Hf
  icases H with ⟨H0, H1⟩
  isplitl [H0]
  · iapply (bigSep_mono' (F := F) (Φ := fun j : Fin 15 => slotPts c 0 (Fin.rev j) f)
      (Ψ := fun j : Fin 15 => iprop(∃ f, slotPts (F := F) c 0 (Fin.rev j) f))
      (fun j _ => exists_intro (Φ := fun f => slotPts (F := F) c 0 (Fin.rev j) f) f)) $$ H0
  · iapply (bigSep_mono' (F := F) (Φ := fun j : Fin 15 => slotPts c 1 (Fin.rev j) f)
      (Ψ := fun j : Fin 15 => iprop(∃ f, slotPts (F := F) c 1 (Fin.rev j) f))
      (fun j _ => exists_intro (Φ := fun f => slotPts (F := F) c 1 (Fin.rev j) f) f)) $$ H1

def Jbelow (n : ℕ) : Finset (Fin 15) := Finset.univ.filter fun j => j.val < n

theorem Jbelow_zero : Jbelow 0 = ∅ := by
  ext j; simp [Jbelow]
theorem Jbelow_all : Jbelow 15 = Finset.univ := by
  ext j; simp [Jbelow]
theorem Jbelow_succ (n : ℕ) (hn : n < 15) : Jbelow (n + 1) = insert (⟨n, hn⟩ : Fin 15) (Jbelow n) := by
  ext j
  simp only [Jbelow, Finset.mem_filter, Finset.mem_univ, true_and, Finset.mem_insert, Fin.ext_iff]
  omega
theorem notMem_Jbelow (n : ℕ) (hn : n < 15) : (⟨n, hn⟩ : Fin 15) ∉ Jbelow n := by
  simp [Jbelow]

theorem src_lend_step (c : Dev nD) (h : Fin 2) (n : ℕ) (f : Buf (Elt F) ((srcM h).view.loc (c : Thread nD τ))) :
    (srcPts c h (shrRest n) f : sProp 𝕄) = iprop(srcPts c h (shr n) f ∗ srcPts c h (shrRest (n + 1)) f) := by
  have hs := pointsTo_share (ℓ := (srcM h).view.loc (c : Thread nD τ)) (I := (srcM h).view.set) (f := f)
    (Ix := Unit) (Name := ℕ) (U := UU) (Lvl := ℕ) (PosShare.mem_left_op_right (shrRest n))
  exact equiv_iff.mp ⟨hs.1, hs.2⟩

theorem src_lend_upto (c : Dev nD) (h : Fin 2) (f : Buf (Elt F) ((srcM h).view.loc (c : Thread nD τ))) :
    ∀ n, n ≤ 15 → (srcPts c h fullShare f : sProp 𝕄)
      = iprop((bigSep (Jbelow n) fun j : Fin 15 => srcPts c h (shr j.val) f) ∗ srcPts c h (shrRest n) f)
  | 0, _ => by
    rw [Jbelow_zero, bigSep_empty]
    exact (equiv_iff.mp emp_sep).symm
  | n + 1, hn => by
    have hn' : n < 15 := by omega
    rw [src_lend_upto c h f n (by omega), Jbelow_succ n hn', bigSep_insert (notMem_Jbelow n hn'), src_lend_step c h n f]
    dsimp only []
    have hh : (iprop((bigSep (Jbelow n) fun j : Fin 15 => srcPts c h (shr j.val) f)
          ∗ srcPts c h (shr n) f ∗ srcPts c h (shrRest (n + 1)) f) : sProp 𝕄)
        ⊣⊢ iprop((srcPts c h (shr n) f ∗ bigSep (Jbelow n) fun j : Fin 15 => srcPts c h (shr j.val) f)
          ∗ srcPts c h (shrRest (n + 1)) f) := by
      constructor
      · iintro ⟨HB, HP, HR⟩
        isplitl [HP HB]
        · isplitl [HP]
          · iexact HP
          · iexact HB
        · iexact HR
      · iintro ⟨⟨HP, HB⟩, HR⟩
        isplitl [HB]
        · iexact HB
        · isplitl [HP]
          · iexact HP
          · iexact HR
    exact equiv_iff.mp ⟨hh.1, hh.2⟩

theorem src_lend (c : Dev nD) (h : Fin 2) (f : Buf (Elt F) ((srcM h).view.loc (c : Thread nD τ))) :
    (srcPts c h fullShare f : sProp 𝕄)
      ⊣⊢ iprop((bigSep Finset.univ fun j : Fin 15 => srcPts c h (shr j.val) f) ∗ srcPts c h (shrRest 15) f) := by
  rw [← Jbelow_all]
  exact ⟨Entails.of_eq (src_lend_upto c h f 15 le_rfl), Entails.of_eq (src_lend_upto c h f 15 le_rfl).symm⟩

theorem stats_congr (c : Dev nD) (h : Fin 2) (q : PosShare TreeShare)
    (f g : Buf (Elt F) ((srcM h).view.loc (c : Thread nD τ))) (hfg : ∀ i ∈ (srcM h).view.set, f i = g i) :
    (srcPts c h q f : sProp 𝕄) = srcPts c h q g :=
  pointsTo_congr hfg

end Cert.KernelIdeal.KP

end
-- ==== Proof.ContentsStats.lean ====
import proofs.«900762_g7700000000000763_dist_diff_adaln_cshard_i_b2_s2048_c512_v7x_i16_bf16_1_alg».proof.Proof.Contents

noncomputable section

namespace Cert.KernelIdeal.KP

open Cert.KernelIdeal Cert.KernelIdeal.Gen
open Idealize.ShloMosaic
open Idealize.ShloMosaic.TcCoe
open Idealize.ShloMosaic.ValueIdx

variable {F : FTy → Type} [FloatOps F]

theorem st_write_off (o0 o1 o2 : ℕ) {inb : ∀ d, (![o0, o1, o2] : Fin 3 → ℕ) d + S1x2x1024.size d ≤ S2x2x2048.size d}
    (f : (cc0_scratch2 : Ref sig .tc).ty.Contents (Elt F)) (w : Vec F S1x2x1024 .bf16) (a b : Fin 2) (s : Fin 2048)
    (hd : ¬ ((o0 ≤ a.val ∧ a.val < o0 + 1) ∧ (o1 ≤ b.val ∧ b.val < o1 + 2) ∧ (o2 ≤ s.val ∧ s.val < o2 + 1024))) :
    (statsM.access (Rect.unit (s := S2x2x2048) ![o0, o1, o2] S1x2x1024.size inb)).write (Elt F) f w Finset.univ (ix3 a b s)
      = f (ix3 a b s) := by
  refine View.write_of_not_mem (v := statsM.access (Rect.unit (s := S2x2x2048) ![o0, o1, o2] S1x2x1024.size inb))
    (Val := Elt F) f w Finset.univ ?_
  rw [View.setOn_univ, View.set_slice_whole, Rect.mem_set_unit]
  intro hall
  exact hd ⟨hall 0, hall 1, hall 2⟩

theorem st_write_on (o0 o1 o2 : ℕ) {inb : ∀ d, (![o0, o1, o2] : Fin 3 → ℕ) d + S1x2x1024.size d ≤ S2x2x2048.size d}
    (f : (cc0_scratch2 : Ref sig .tc).ty.Contents (Elt F)) (w : Vec F S1x2x1024 .bf16) (a b : Fin 2) (s : Fin 2048)
    (x0 : Fin 1) (x1 : Fin 2) (x2 : Fin 1024) (h0 : a.val = o0 + x0.val) (h1 : b.val = o1 + x1.val) (h2 : s.val = o2 + x2.val) :
    (statsM.access (Rect.unit (s := S2x2x2048) ![o0, o1, o2] S1x2x1024.size inb)).write (Elt F) f w Finset.univ (ix3 a b s)
      = w (ix3 x0 x1 x2) := by
  have hi : (ix3 a b s : S2x2x2048.Idx)
      = (statsM.access (Rect.unit (s := S2x2x2048) ![o0, o1, o2] S1x2x1024.size inb)).emb (ix3 x0 x1 x2) := by
    funext d
    match d with
    | ⟨0, _⟩ => exact Fin.ext (by show a.val = o0 + 1 * x0.val; omega)
    | ⟨1, _⟩ => exact Fin.ext (by show b.val = o1 + 1 * x1.val; omega)
    | ⟨2, _⟩ => exact Fin.ext (by show s.val = o2 + 1 * x2.val; omega)
  rw [hi]
  exact View.write_emb_of_mem (v := statsM.access (Rect.unit (s := S2x2x2048) ![o0, o1, o2] S1x2x1024.size inb))
    (Val := Elt F) f w (Finset.mem_univ _)

def stats4 (v00 v10 v01 v11 : Vec F S1x2x1024 .bf16) : Vec F S2x2x2048 .bf16 := fun i =>
  if hs : (i 2).val < 1024 then
    (if (i 0).val = 0 then v00 else v10) (ix3 (0 : Fin 1) (i 1 : Fin 2) (⟨(i 2).val, hs⟩ : Fin 1024))
  else
    (if (i 0).val = 0 then v01 else v11)
      (ix3 (0 : Fin 1) (i 1 : Fin 2) (⟨(i 2).val - 1024, by have h2 : (i 2).val < 2048 := (i 2).isLt; omega⟩ : Fin 1024))

variable (m : (ℓ : Loc nD τ sig) → Buf (Elt F) ℓ)

theorem statsC_eq (c : Dev nD) :
    statsC m c = stats4 (k0_pay2 (xh m c 0)) (k0_pay3 (xh m c 0)) (k0_pay6 (k0_pay5 (xh m c 1))) (k0_pay7 (k0_pay4 (xh m c 1))) := rfl

section Laid
variable (v00 v10 v01 v11 : Vec F S1x2x1024 .bf16)

theorem stats4_lo (a b : Fin 2) (s : Fin 2048) (hs : s.val < 1024) :
    stats4 v00 v10 v01 v11 (ix3 a b s) = (if a.val = 0 then v00 else v10) (ix3 (0 : Fin 1) b (⟨s.val, hs⟩ : Fin 1024)) :=
  dif_pos hs

theorem stats4_hi (a b : Fin 2) (s : Fin 2048) (hs : ¬ s.val < 1024) :
    stats4 v00 v10 v01 v11 (ix3 a b s)
      = (if a.val = 0 then v01 else v11) (ix3 (0 : Fin 1) b (⟨s.val - 1024, by omega⟩ : Fin 1024)) :=
  dif_neg hs

end Laid

section Stores
variable (f0 : (cc0_scratch2 : Ref sig .tc).ty.Contents (Elt F)) (v00 v10 v01 v11 : Vec F S1x2x1024 .bf16)
  {i00 : ∀ d, (![0, 0, 0] : Fin 3 → ℕ) d + S1x2x1024.size d ≤ S2x2x2048.size d}
  {i10 : ∀ d, (![1, 0, 0] : Fin 3 → ℕ) d + S1x2x1024.size d ≤ S2x2x2048.size d}
  {i01 : ∀ d, (![0, 0, 1024] : Fin 3 → ℕ) d + S1x2x1024.size d ≤ S2x2x2048.size d}
  {i11 : ∀ d, (![1, 0, 1024] : Fin 3 → ℕ) d + S1x2x1024.size d ≤ S2x2x2048.size d}

theorem stats_half0_at (a b : Fin 2) (s : Fin 2048) (hs : s.val < 1024) :
    (statsM.access (Rect.unit (s := S2x2x2048) ![1, 0, 0] S1x2x1024.size i10)).write (Elt F)
        ((statsM.access (Rect.unit (s := S2x2x2048) ![0, 0, 0] S1x2x1024.size i00)).write (Elt F) f0 v00 Finset.univ)
        v10 Finset.univ (ix3 a b s)
      = stats4 v00 v10 v01 v11 (ix3 a b s) := by
  rw [stats4_lo _ _ _ _ a b s hs]
  by_cases ha : a.val = 0
  · rw [if_pos ha, st_write_off 1 0 0 _ _ a b s (by omega),
      st_write_on 0 0 0 _ _ a b s 0 b ⟨s.val, hs⟩ (by omega) (by omega) (by show s.val = 0 + s.val; omega)]
  · rw [if_neg ha, st_write_on 1 0 0 _ _ a b s 0 b ⟨s.val, hs⟩ (by omega) (by omega) (by show s.val = 0 + s.val; omega)]

theorem stats_all_gen :
    (statsM.access (Rect.unit (s := S2x2x2048) ![1, 0, 1024] S1x2x1024.size i11)).write (Elt F)
        ((statsM.access (Rect.unit (s := S2x2x2048) ![0, 0, 1024] S1x2x1024.size i01)).write (Elt F)
          ((statsM.access (Rect.unit (s := S2x2x2048) ![1, 0, 0] S1x2x1024.size i10)).write (Elt F)
            ((statsM.access (Rect.unit (s := S2x2x2048) ![0, 0, 0] S1x2x1024.size i00)).write (Elt F) f0 v00 Finset.univ)
            v10 Finset.univ)
          v01 Finset.univ)
        v11 Finset.univ
      = stats4 v00 v10 v01 v11 := by
  funext i
  obtain ⟨a, b, s, rfl⟩ : ∃ a b s, i = ix3 a b s := ⟨i 0, i 1, i 2, eq_ix3 i⟩
  by_cases hs : s.val < 1024
  · rw [st_write_off 1 0 1024 _ _ a b s (by omega), st_write_off 0 0 1024 _ _ a b s (by omega)]
    exact stats_half0_at f0 v00 v10 v01 v11 a b s hs
  · rw [stats4_hi _ _ _ _ a b s hs]
    by_cases ha : a.val = 0
    · rw [if_pos ha, st_write_off 1 0 1024 _ _ a b s (by omega),
        st_write_on 0 0 1024 _ _ a b s 0 b ⟨s.val - 1024, by omega⟩ (by omega) (by omega)
          (by show s.val = 1024 + (s.val - 1024); omega)]
    · rw [if_neg ha, st_write_on 1 0 1024 _ _ a b s 0 b ⟨s.val - 1024, by omega⟩ (by omega) (by omega)
          (by show s.val = 1024 + (s.val - 1024); omega)]

end Stores

section Body
variable (m : (ℓ : Loc nD τ sig) → Buf (Elt F) ℓ) (c : Dev nD) (f0 : (cc0_scratch2 : Ref sig .tc).ty.Contents (Elt F))
  {i00 : ∀ d, (![0, 0, 0] : Fin 3 → ℕ) d + S1x2x1024.size d ≤ S2x2x2048.size d}
  {i10 : ∀ d, (![1, 0, 0] : Fin 3 → ℕ) d + S1x2x1024.size d ≤ S2x2x2048.size d}
  {i01 : ∀ d, (![0, 0, 1024] : Fin 3 → ℕ) d + S1x2x1024.size d ≤ S2x2x2048.size d}
  {i11 : ∀ d, (![1, 0, 1024] : Fin 3 → ℕ) d + S1x2x1024.size d ≤ S2x2x2048.size d}

theorem stats_all :
    (statsM.access (Rect.unit (s := S2x2x2048) ![1, 0, 1024] S1x2x1024.size i11)).write (Elt F)
        ((statsM.access (Rect.unit (s := S2x2x2048) ![0, 0, 1024] S1x2x1024.size i01)).write (Elt F)
          ((statsM.access (Rect.unit (s := S2x2x2048) ![1, 0, 0] S1x2x1024.size i10)).write (Elt F)
            ((statsM.access (Rect.unit (s := S2x2x2048) ![0, 0, 0] S1x2x1024.size i00)).write (Elt F) f0
              (k0_pay2 (xh m c 0)) Finset.univ)
            (k0_pay3 (xh m c 0)) Finset.univ)
          (k0_pay6 (k0_pay5 (xh m c 1))) Finset.univ)
        (k0_pay7 (k0_pay4 (xh m c 1))) Finset.univ
      = statsC m c :=
  (stats_all_gen f0 _ _ _ _).trans (statsC_eq m c).symm

theorem stats_half0 :
    ∀ i ∈ (srcM 0).view.set,
      (statsM.access (Rect.unit (s := S2x2x2048) ![1, 0, 0] S1x2x1024.size i10)).write (Elt F)
          ((statsM.access (Rect.unit (s := S2x2x2048) ![0, 0, 0] S1x2x1024.size i00)).write (Elt F) f0
            (k0_pay2 (xh m c 0)) Finset.univ)
          (k0_pay3 (xh m c 0)) Finset.univ i
        = statsC m c i := by
  intro i hi
  obtain ⟨y, rfl⟩ := View.exists_emb_of_mem_set (srcM 0).view hi
  obtain ⟨a, b, s, rfl⟩ : ∃ a b s, y = ix3 a b s := ⟨y 0, y 1, y 2, eq_ix3 y⟩
  have key := stats_half0_at (i00 := i00) (i10 := i10) f0 (k0_pay2 (xh m c 0)) (k0_pay3 (xh m c 0)) (k0_pay6 (k0_pay5 (xh m c 1)))
    (k0_pay7 (k0_pay4 (xh m c 1))) a b (⟨1024 * (0 : Fin 2).val + s.val, by omega⟩ : Fin 2048)
    (by show 1024 * 0 + s.val < 1024; omega)
  rw [← srcM_emb (0 : Fin 2) a b s, ← statsC_eq] at key
  exact key

theorem stats_half_all (h : Fin 2) :
    ∀ i ∈ (srcM h).view.set,
      (statsM.access (Rect.unit (s := S2x2x2048) ![1, 0, 1024] S1x2x1024.size i11)).write (Elt F)
          ((statsM.access (Rect.unit (s := S2x2x2048) ![0, 0, 1024] S1x2x1024.size i01)).write (Elt F)
            ((statsM.access (Rect.unit (s := S2x2x2048) ![1, 0, 0] S1x2x1024.size i10)).write (Elt F)
              ((statsM.access (Rect.unit (s := S2x2x2048) ![0, 0, 0] S1x2x1024.size i00)).write (Elt F) f0
                (k0_pay2 (xh m c 0)) Finset.univ)
              (k0_pay3 (xh m c 0)) Finset.univ)
            (k0_pay6 (k0_pay5 (xh m c 1))) Finset.univ)
          (k0_pay7 (k0_pay4 (xh m c 1))) Finset.univ i
        = statsC m c i :=
  fun i _ => congrFun (stats_all (i00 := i00) (i10 := i10) (i01 := i01) (i11 := i11) m c f0) i

end Body

end Cert.KernelIdeal.KP

end
-- ==== Proof.MemLoads.lean ====
import proofs.«900762_g7700000000000763_dist_diff_adaln_cshard_i_b2_s2048_c512_v7x_i16_bf16_1_alg».proof.Proof.ContentsSets

noncomputable section

namespace Cert.KernelIdeal.KP

open Cert.KernelIdeal Cert.KernelIdeal.Gen
open Idealize.ShloMosaic
open Idealize.ShloMosaic.TcCoe
open Idealize.ShloMosaic.ValueIdx

variable {F : FTy → Type} [FloatOps F]

theorem load_sub (h : Fin 2) (a o : ℕ) (ha : a < 2) (ho : o = 1024 * h.val)
    {inb : ∀ d, (![a, 0, o] : Fin 3 → ℕ) d + S1x2x1024.size d ≤ S2x2x2048.size d} :
    statsM.view.setOn (Rect.unit (s := S2x2x2048) ![a, 0, o] S1x2x1024.size inb).toLoadRect.set ⊆ (srcM h).view.set := by
  show Finset.map (Function.Embedding.refl _) _ ⊆ _
  rw [Finset.map_refl]
  intro (i : S2x2x2048.Idx) hi
  obtain ⟨a', b, s, rfl⟩ : ∃ a' b s, i = ix3 a' b s := ⟨i 0, i 1, i 2, eq_ix3 i⟩
  have hi' : (a ≤ a'.val ∧ a'.val < a + 1) ∧ (0 ≤ b.val ∧ b.val < 0 + 2) ∧ (o ≤ s.val ∧ s.val < o + 1024) :=
    (mem_unit3 ![a, 0, o] S1x2x1024.size (inb := inb) a' b s).mp hi
  exact (mem_src h a' b s).mpr (by omega)

theorem load_sub_01 {inb : ∀ d, (![0, 0, 1024] : Fin 3 → ℕ) d + S1x2x1024.size d ≤ S2x2x2048.size d} :
    statsM.view.setOn (Rect.unit (s := S2x2x2048) ![0, 0, 1024] S1x2x1024.size inb).toLoadRect.set ⊆ (srcM 1).view.set :=
  load_sub 1 0 1024 (by omega) rfl
theorem load_sub_11 {inb : ∀ d, (![1, 0, 1024] : Fin 3 → ℕ) d + S1x2x1024.size d ≤ S2x2x2048.size d} :
    statsM.view.setOn (Rect.unit (s := S2x2x2048) ![1, 0, 1024] S1x2x1024.size inb).toLoadRect.set ⊆ (srcM 1).view.set :=
  load_sub 1 1 1024 (by omega) rfl

theorem load_half_eq (h : Fin 2) (o : ℕ) (ho : o = 1024 * h.val)
    {inb : ∀ d, (![0, 0, o] : Fin 3 → ℕ) d + S2x2x1024.size d ≤ S2x2x2048.size d} :
    statsM.view.setOn (Rect.unit (s := S2x2x2048) ![0, 0, o] S2x2x1024.size inb).toLoadRect.set = (srcM h).view.set := by
  subst ho
  show Finset.map (Function.Embedding.refl _) _ = _
  rw [Finset.map_refl, src_set]

theorem load_half (h : Fin 2) (o : ℕ) (ho : o = 1024 * h.val)
    {inb : ∀ d, (![0, 0, o] : Fin 3 → ℕ) d + S2x2x1024.size d ≤ S2x2x2048.size d} :
    statsM.view.setOn (Rect.unit (s := S2x2x2048) ![0, 0, o] S2x2x1024.size inb).toLoadRect.set ⊆ (srcM h).view.set :=
  (load_half_eq h o ho).subset

variable (m : (ℓ : Loc nD τ sig) → Buf (Elt F) ℓ)

end Cert.KernelIdeal.KP

end
-- ==== Proof.StepOut.lean ====
import proofs.«900762_g7700000000000763_dist_diff_adaln_cshard_i_b2_s2048_c512_v7x_i16_bf16_1_alg».proof.Proof.Families
import proofs.«900762_g7700000000000763_dist_diff_adaln_cshard_i_b2_s2048_c512_v7x_i16_bf16_1_alg».proof.Proof.ContentsSets

noncomputable section

namespace Cert.KernelIdeal.KP

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem osrc_set (h : Fin 2) :
    (osrcM h).view.set = (Rect.unit (s := S2x2x1024x512) ![h.val, 0, 0, 0] S1x2x1024x512.size (inb_osrc h)).set :=
  (View.set_reshape _ _).trans (View.set_slice_whole _ _)

theorem mem_osrc (h : Fin 2) (a b : Fin 2) (r : Fin 1024) (j : Fin 512) :
    (ix4 a b r j : S2x2x1024x512.Idx) ∈ (osrcM h).view.set ↔ a.val = h.val := by
  refine Iff.trans (b := (ix4 a b r j : S2x2x1024x512.Idx)
      ∈ (Rect.unit (s := S2x2x1024x512) ![h.val, 0, 0, 0] S1x2x1024x512.size (inb_osrc h)).set) (by rw [osrc_set]; exact Iff.rfl) ?_
  refine (mem_unit4 ![h.val, 0, 0, 0] S1x2x1024x512.size (inb := inb_osrc h) a b r j).trans ?_
  show ((h.val ≤ a.val ∧ a.val < h.val + 1) ∧ (0 ≤ b.val ∧ b.val < 0 + 2) ∧ (0 ≤ r.val ∧ r.val < 0 + 1024)
      ∧ (0 ≤ j.val ∧ j.val < 0 + 512)) ↔ _
  constructor
  · intro h'; omega
  · intro h'; exact ⟨by omega, by omega, by omega, by omega⟩

theorem osrc_disjoint : Disjoint (osrcM 0).view.set (osrcM 1).view.set := by
  refine Finset.disjoint_left.mpr fun (i : S2x2x1024x512.Idx) h0 h1 => ?_
  obtain ⟨a, b, r, j, rfl⟩ : ∃ a b r j, i = ix4 a b r j := ⟨i 0, i 1, i 2, i 3, eq_ix4 i⟩
  have g0 := (mem_osrc 0 a b r j).mp h0
  have g1 := (mem_osrc 1 a b r j).mp h1
  have e0 : (0 : Fin 2).val = 0 := rfl
  have e1 : (1 : Fin 2).val = 1 := rfl
  omega

theorem osrc_union : (osrcM 0).view.set ∪ (osrcM 1).view.set = Finset.univ := by
  refine Finset.eq_univ_iff_forall.mpr fun (i : S2x2x1024x512.Idx) => ?_
  obtain ⟨a, b, r, j, rfl⟩ : ∃ a b r j, i = ix4 a b r j := ⟨i 0, i 1, i 2, i 3, eq_ix4 i⟩
  have e0 : (0 : Fin 2).val = 0 := rfl
  have e1 : (1 : Fin 2).val = 1 := rfl
  by_cases hs : a.val = 0
  · exact Finset.mem_union_left _ ((mem_osrc 0 a b r j).mpr (by omega))
  · exact Finset.mem_union_right _ ((mem_osrc 1 a b r j).mpr (by omega))

theorem odst_set (h : Fin 2) :
    (odstM h).view.set = (Rect.unit (s := S2x2048x512) ![0, 1024 * h.val, 0] S2x1024x512.size (inb_odst h)).set :=
  View.set_slice_whole _ _

theorem mem_odst (h : Fin 2) (b : Fin 2) (r : Fin 2048) (j : Fin 512) :
    (ix3 b r j : S2x2048x512.Idx) ∈ (odstM h).view.set ↔ 1024 * h.val ≤ r.val ∧ r.val < 1024 * h.val + 1024 := by
  refine Iff.trans (b := (ix3 b r j : S2x2048x512.Idx)
      ∈ (Rect.unit (s := S2x2048x512) ![0, 1024 * h.val, 0] S2x1024x512.size (inb_odst h)).set) (by rw [odst_set]; exact Iff.rfl) ?_
  refine (mem_unit3 ![0, 1024 * h.val, 0] S2x1024x512.size (inb := inb_odst h) b r j).trans ?_
  show ((0 ≤ b.val ∧ b.val < 0 + 2) ∧ (1024 * h.val ≤ r.val ∧ r.val < 1024 * h.val + 1024) ∧ (0 ≤ j.val ∧ j.val < 0 + 512)) ↔ _
  constructor
  · intro h'; exact h'.2.1
  · intro h'; exact ⟨by omega, h', by omega⟩

theorem odst_disjoint : Disjoint (odstM 0).view.set (odstM 1).view.set := by
  refine Finset.disjoint_left.mpr fun (i : S2x2048x512.Idx) h0 h1 => ?_
  obtain ⟨b, r, j, rfl⟩ : ∃ b r j, i = ix3 b r j := ⟨i 0, i 1, i 2, eq_ix3 i⟩
  have g0 := (mem_odst 0 b r j).mp h0
  have g1 := (mem_odst 1 b r j).mp h1
  have e0 : (0 : Fin 2).val = 0 := rfl
  have e1 : (1 : Fin 2).val = 1 := rfl
  omega

theorem odst_union : (odstM 0).view.set ∪ (odstM 1).view.set = Finset.univ := by
  refine Finset.eq_univ_iff_forall.mpr fun (i : S2x2048x512.Idx) => ?_
  obtain ⟨b, r, j, rfl⟩ : ∃ b r j, i = ix3 b r j := ⟨i 0, i 1, i 2, eq_ix3 i⟩
  have e0 : (0 : Fin 2).val = 0 := rfl
  have e1 : (1 : Fin 2).val = 1 := rfl
  by_cases hs : r.val < 1024
  · exact Finset.mem_union_left _ ((mem_odst 0 b r j).mpr (by omega))
  · exact Finset.mem_union_right _ ((mem_odst 1 b r j).mpr (by have := r.isLt; omega))

theorem obuf_split (c : Dev nD) (f : Buf (Elt F) ((c : Thread nD τ).loc cc0_scratch1)) :
    (((c : Thread nD τ).loc cc0_scratch1) ↦{fullShare} f : sProp 𝕄) ⊣⊢ iprop(osrcPts c 0 f ∗ osrcPts c 1 f) := by
  unfold osrcPts
  exact (BiEntails.of_eq (congrArg (fun I : Finset _ => (((c : Thread nD τ).loc cc0_scratch1) ↦[I]{fullShare} f : sProp 𝕄))
    osrc_union.symm)).trans (BI.Region.is_union osrc_disjoint)

theorem mainv_split (c : Dev nD) (f : Buf (Elt F) ((c : Thread nD τ).loc main_v1)) :
    (((c : Thread nD τ).loc main_v1) ↦{fullShare} f : sProp 𝕄) ⊣⊢ iprop(odstPts c 0 f ∗ odstPts c 1 f) := by
  unfold odstPts
  exact (BiEntails.of_eq (congrArg (fun I : Finset _ => (((c : Thread nD τ).loc main_v1) ↦[I]{fullShare} f : sProp 𝕄))
    odst_union.symm)).trans (BI.Region.is_union odst_disjoint)

variable (m : (ℓ : Loc nD τ sig) → Buf (Elt F) ℓ)

theorem pers_inv_out (K : Dev nD × CK → ℕ) (c : Dev nD) (h : Fin 2) :
    Pers m K c ⊢ cellInv ER (Rd m) (K (c, .out h)) (outCell c h) := by
  unfold Pers invs
  exact sep_elim_left.trans (sep_elim_left.trans (bigSep_elim (Φ := fun k : CK => cellInv ER (Rd m) (K (c, k)) (kcell c k)) (Finset.mem_univ (CK.out h))))

theorem pers_reach_out (K : Dev nD × CK → ℕ) (c : Dev nD) (h : Fin 2) :
    Pers m K c ⊢ reached ER (outCell c h) 0 := by
  unfold Pers reacheds
  exact sep_elim_right.trans (sep_elim_left.trans (sep_elim_left.trans
    (bigSep_elim (Φ := fun k : CK => reached ER (kcell c k) 0) (Finset.mem_univ (CK.out h)))))

theorem landing_out (c : Dev nD) (h : Fin 2) (fd : Buf (Elt F) ((odstM h).view.loc (c : Thread nD τ)))
    (fs : Buf (Elt F) ((osrcM h).view.loc (c : Thread nD τ)))
    (hfs : ∀ y, (osrcM h).view.read (Elt F) fs y = outC m c ((odstM h).view.emb y)) :
    ∀ i ∈ (odstM h).view.set,
      (odstM h).view.write (Elt F) fd ((osrcM h).view.read (Elt F) fs) Finset.univ i = outC m c i := by
  intro i hi
  obtain ⟨y, rfl⟩ := View.exists_emb_of_mem_set (odstM h).view hi
  exact (View.write_emb_of_mem (v := (odstM h).view) (Val := Elt F) fd _ (Finset.mem_univ y)).trans (hfs y)

theorem step_copy_out (K : Dev nD × CK → ℕ) (c : Dev nD) (h : Fin 2)
    {hsrc : (osrcM h).view.WordExact} {hdst : (odstM h).view.WordExact}
    {hsem : DmaTarget.Typed (nD := nD) .vmem (.dma (outS h)) (.here (odstM h) : DmaTarget nD τ sig .tc .hbm S2x1024x512 .bf16)}
    {α : Type} {Q : α → sProp 𝕄} {k : PUnit → Prog (TpuEff nD τ sig (Elt F) Λ₀ .tc) α}
    (fs : Buf (Elt F) ((osrcM h).view.loc (c : Thread nD τ))) (fd : Buf (Elt F) ((odstM h).view.loc (c : Thread nD τ)))
    (hfs : ∀ y, (osrcM h).view.read (Elt F) fs y = outC m c ((odstM h).view.emb y)) :
    Pers m K c ⊢ iprop(osrcPts c h fs -∗ odstPts c h fd -∗ dutyTok ER (outCell c h) 0 (0 : Fin 15)
      -∗ (cred (tallyAt (outCell c h) () Nout) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (osrcM h) (.here (odstM h)) (.dma (outS h)) hsrc hdst hsem) k) Q) := by
  unfold osrcPts odstPts
  iintro #HP Hsrc Hdst Htok Hk
  ihave #Hg := (pers_inv_out m K c h) $$ HP
  ihave #Hr := (pers_reach_out m K c h) $$ HP
  iapply (Rounds.wp_copy_pointsTo 𝒱₀ ER (Rd m) (c : Thread nD τ) none (src := osrcM h) (dst := odstM h) (sem := .dma (outS h))
      (q := fullShare) (fs := fs) (fd := fd) (r := 0) (d := (0 : Fin 15)) (κ := K (c, .out h))
      (by rw [duties_out]; exact Finset.mem_singleton_self _) () Nout (amount_odst h) (amount_out m c h 0)
      (by rw [payload_out]; unfold outPay odstPts osrcPts
          exact sep_mono (Entails.of_eq (BI.Region.is_congr (landing_out m c h fd fs hfs))) (exists_intro fs)))
    $$ [Hsrc Hdst Htok]
  · isplitr; · iexact Hg
    isplitl [Hsrc]; · iexact Hsrc
    isplitl [Hdst]; · iexact Hdst
    isplitl [Htok]; · iexact Htok
    iexact Hr
  iexact Hk

theorem step_wait_out (K : Dev nD × CK → ℕ) (c : Dev nD) (h : Fin 2)
    {h1 : (osrcM h).view.WordExact} {h2 : (odstM h).view.WordExact}
    {α : Type} {Q : α → sProp 𝕄} {k : PUnit → Prog (TpuEff nD τ sig (Elt F) Λ₀ .tc) α} :
    Pers m K c ⊢ iprop((∃ W, owes (c : Thread nD τ) 0 W) -∗ cred (tallyAt (outCell c h) () Nout) -∗ atPos ER (outCell c h) 0 ∅ 0
      -∗ (((∃ W, owes (c : Thread nD τ) 0 W) ∗ atPos ER (outCell c h) 1 ∅ 0 ∗ odstPts c h (outC m c) ∗ ∃ f, osrcPts (F := F) c h f)
            -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (outS h) (osrcM h) (odstM h) h1 h2) k) Q) := by
  rw [← amount_odst h]
  iintro #HP ⟨%W, HO⟩ Hc Hat Hk
  ihave #Hg := (pers_inv_out m K c h) $$ HP
  iapply (Rounds.wp_wait_rest_token 𝒱₀ ER (Rd m) (c : Thread nD τ) none
      (w := .waitDma2 (outS h) (osrcM h) (odstM h) h1 h2) (wpE_waitDma2_eq 𝒱₀ (c : Thread nD τ) none Set.univ)
      (Set.mem_univ (K (c, .out h))) () (O := 0) (W := W) (R := 0) (T := ∅) (m := 0)
      (by rw [expect_out, Nat.zero_add, amount_odst]))
    $$ [Hc HO Hat]
  · isplitr; · iexact Hg
    isplitl [Hc]; · iexact Hc
    isplitl [HO]; · iexact HO
    isplitr; · rw [MayWait_zero]; iempintro
    iexact Hat
  iintro ⟨HO, Hat, -, Hpay⟩
  ihave Hp := (Entails.of_eq (rest_out m c h)) $$ Hpay
  unfold outPay
  icases Hp with ⟨Hd, Hs⟩
  iapply Hk
  isplitl [HO]; · iexists _; iexact HO
  isplitl [Hat]; · iexact Hat
  isplitl [Hd]; · iexact Hd
  iexact Hs

theorem close_out (K : Dev nD × CK → ℕ) (c : Dev nD) (h : Fin 2) :
    iprop(Pers m K c ∗ atPos ER (outCell c h) 1 ∅ 0) ⊢ |={Set.univ}=> (semVal (outCell c h) 0 : sProp 𝕄) := by
  iintro ⟨#HP, Hat⟩
  ihave #Hg := (pers_inv_out m K c h) $$ HP
  iapply (Rounds.cell_close ER (Rd m) (κ := K (c, .out h)) (Set.mem_univ _) (fun hu => hu) (R := 1)
    (fun r hr => duties_later m _ r hr))
  isplitr; · iexact Hg
  iexact Hat

end Cert.KernelIdeal.KP

end
-- ==== Proof.OutContents.lean ====
import proofs.«900762_g7700000000000763_dist_diff_adaln_cshard_i_b2_s2048_c512_v7x_i16_bf16_1_alg».proof.Proof.Contents
import proofs.«900762_g7700000000000763_dist_diff_adaln_cshard_i_b2_s2048_c512_v7x_i16_bf16_1_alg».proof.Proof.StepOut

noncomputable section

namespace Cert.KernelIdeal.KP

open Cert.KernelIdeal Cert.KernelIdeal.Gen
open Idealize.ShloMosaic
open Idealize.ShloMosaic.TcCoe
open Idealize.ShloMosaic.ValueIdx

variable {F : FTy → Type} [FloatOps F]

theorem odstM_emb (h : Fin 2) (b : Fin 2) (s : Fin 1024) (j : Fin 512) :
    ((odstM h).view.emb (ix3 b s j) : S2x2048x512.Idx)
      = ix3 b (⟨1024 * h.val + s.val, by have := h.isLt; omega⟩ : Fin 2048) j := by
  funext d
  match d with
  | ⟨0, _⟩ => exact Fin.ext (by show 0 + 1 * b.val = b.val; omega)
  | ⟨1, _⟩ => exact Fin.ext (by show 1024 * h.val + 1 * s.val = 1024 * h.val + s.val; omega)
  | ⟨2, _⟩ => exact Fin.ext (by show 0 + 1 * j.val = j.val; omega)

theorem ostore_read (h : Fin 2) (o0 : ℕ) (ho : o0 = h.val)
    {inb : ∀ d, (![o0, 0, 0, 0] : Fin 4 → ℕ) d + S1x2x1024x512.size d ≤ S2x2x1024x512.size d}
    (f : (cc0_scratch1 : Ref sig .tc).ty.Contents (Elt F)) (v : Vec F S1x2x1024x512 .bf16) (y : S2x1024x512.Idx) :
    (osrcM h).view.read (Elt F)
        (((Memref.whole cc0_scratch1 : Memref sig .tc .vmem S2x2x1024x512 .bf16).access
          (Rect.unit (s := S2x2x1024x512) ![o0, 0, 0, 0] S1x2x1024x512.size inb)).write (Elt F) f v Finset.univ) y
      = v (ix4 (0 : Fin 1) (y 0 : Fin 2) (y 1 : Fin 1024) (y 2 : Fin 512)) := by
  subst ho
  obtain ⟨b, s, j, rfl⟩ : ∃ b s j, y = ix3 b s j := ⟨y 0, y 1, y 2, eq_ix3 y⟩
  have e1 : ((osrcM h).view.emb (ix3 b s j) : S2x2x1024x512.Idx) = ix4 h b s j := by
    show (Rect.unit (s := S2x2x1024x512) ![h.val, 0, 0, 0] S1x2x1024x512.size (inb_osrc h)).emb
        (Shape.reshapeEquiv _ (ix3 b s j)) = _
    rw [reshapeEquiv_ix3_1abc]
    funext d
    match d with
    | ⟨0, _⟩ => exact Fin.ext (by show h.val + 1 * 0 = h.val; omega)
    | ⟨1, _⟩ => exact Fin.ext (by show 0 + 1 * b.val = b.val; omega)
    | ⟨2, _⟩ => exact Fin.ext (by show 0 + 1 * s.val = s.val; omega)
    | ⟨3, _⟩ => exact Fin.ext (by show 0 + 1 * j.val = j.val; omega)
  have e2 : (ix4 h b s j : S2x2x1024x512.Idx) = ((Memref.whole cc0_scratch1 : Memref sig .tc .vmem S2x2x1024x512 .bf16).access
          (Rect.unit (s := S2x2x1024x512) ![h.val, 0, 0, 0] S1x2x1024x512.size inb)).emb (ix4 (0 : Fin 1) b s j) := by
    funext d
    match d with
    | ⟨0, _⟩ => exact Fin.ext (by show h.val = h.val + 1 * 0; omega)
    | ⟨1, _⟩ => exact Fin.ext (by show b.val = 0 + 1 * b.val; omega)
    | ⟨2, _⟩ => exact Fin.ext (by show s.val = 0 + 1 * s.val; omega)
    | ⟨3, _⟩ => exact Fin.ext (by show j.val = 0 + 1 * j.val; omega)
  refine (View.read_apply (v := (osrcM h).view) (Val := Elt F) _ _).trans ?_
  refine (cast_eq _ _).trans ?_
  refine (congrArg (((Memref.whole cc0_scratch1 : Memref sig .tc .vmem S2x2x1024x512 .bf16).access
          (Rect.unit (s := S2x2x1024x512) ![h.val, 0, 0, 0] S1x2x1024x512.size inb)).write (Elt F) f v Finset.univ) (e1.trans e2)).trans ?_
  exact View.write_emb_of_mem (v := ((Memref.whole cc0_scratch1 : Memref sig .tc .vmem S2x2x1024x512 .bf16).access
          (Rect.unit (s := S2x2x1024x512) ![h.val, 0, 0, 0] S1x2x1024x512.size inb))) (Val := Elt F) f v (Finset.mem_univ _)

variable (m : (ℓ : Loc nD τ sig) → Buf (Elt F) ℓ)

theorem outC_half0 (c : Dev nD) (y : S2x1024x512.Idx) :
    outC m c ((odstM 0).view.emb y)
      = k0_pay11 (mulV m c) (addV m c) (ownV m c 0) (gatV m c 0) (xbV m c 0)
          (ix4 (0 : Fin 1) (y 0 : Fin 2) (y 1 : Fin 1024) (y 2 : Fin 512)) := by
  obtain ⟨b, s, j, rfl⟩ : ∃ b s j, y = ix3 b s j := ⟨y 0, y 1, y 2, eq_ix3 y⟩
  refine (congrArg (outC m c) (odstM_emb 0 b s j)).trans ?_
  unfold outC
  have hs : ((ix3 b (⟨1024 * (0 : Fin 2).val + s.val, by omega⟩ : Fin 2048) j : S2x2048x512.Idx) 1).val < 1024 := by
    show 1024 * 0 + s.val < 1024
    omega
  rw [dif_pos hs]
  exact congrArg (fun r => k0_pay11 (mulV m c) (addV m c) (ownV m c 0) (gatV m c 0) (xbV m c 0) (ix4 (0 : Fin 1) b r j))
    (Fin.ext (by show 1024 * 0 + s.val = s.val; omega))

theorem outC_half1 (c : Dev nD) (y : S2x1024x512.Idx) :
    outC m c ((odstM 1).view.emb y)
      = k0_pay13 (mulV m c) (addV m c) (k0_pay12 (ownV m c 1)) (gatV m c 1) (xbV m c 1)
          (ix4 (0 : Fin 1) (y 0 : Fin 2) (y 1 : Fin 1024) (y 2 : Fin 512)) := by
  obtain ⟨b, s, j, rfl⟩ : ∃ b s j, y = ix3 b s j := ⟨y 0, y 1, y 2, eq_ix3 y⟩
  refine (congrArg (outC m c) (odstM_emb 1 b s j)).trans ?_
  unfold outC
  have hs : ¬ ((ix3 b (⟨1024 * (1 : Fin 2).val + s.val, by omega⟩ : Fin 2048) j : S2x2048x512.Idx) 1).val < 1024 := by
    show ¬ (1024 * 1 + s.val < 1024)
    omega
  rw [dif_neg hs]
  exact congrArg (fun r => k0_pay13 (mulV m c) (addV m c) (k0_pay12 (ownV m c 1)) (gatV m c 1) (xbV m c 1) (ix4 (0 : Fin 1) b r j))
    (Fin.ext (by show 1024 * 1 + s.val - 1024 = s.val; omega))

theorem copy_hfs0 (c : Dev nD) (f : Buf (Elt F) ((c : Thread nD τ).loc cc0_scratch1))
    {inb : ∀ d, (![0, 0, 0, 0] : Fin 4 → ℕ) d + S1x2x1024x512.size d ≤ S2x2x1024x512.size d} :
    ∀ y, (osrcM 0).view.read (Elt F)
        (((Memref.whole cc0_scratch1 : Memref sig .tc .vmem S2x2x1024x512 .bf16).access (Rect.unit (s := S2x2x1024x512) ![0, 0, 0, 0] S1x2x1024x512.size inb)).write (Elt F) f
          (k0_pay11 (mulV m c) (addV m c) (ownV m c 0) (gatV m c 0) (xbV m c 0)) Finset.univ) y
      = outC m c ((odstM 0).view.emb y) :=
  fun y => (ostore_read 0 0 rfl f _ y).trans (outC_half0 m c y).symm

theorem copy_hfs1 (c : Dev nD) (f : Buf (Elt F) ((c : Thread nD τ).loc cc0_scratch1))
    {inb : ∀ d, (![1, 0, 0, 0] : Fin 4 → ℕ) d + S1x2x1024x512.size d ≤ S2x2x1024x512.size d} :
    ∀ y, (osrcM 1).view.read (Elt F)
        (((Memref.whole cc0_scratch1 : Memref sig .tc .vmem S2x2x1024x512 .bf16).access (Rect.unit (s := S2x2x1024x512) ![1, 0, 0, 0] S1x2x1024x512.size inb)).write (Elt F) f
          (k0_pay13 (mulV m c) (addV m c) (k0_pay12 (ownV m c 1)) (gatV m c 1) (xbV m c 1)) Finset.univ) y
      = outC m c ((odstM 1).view.emb y) :=
  fun y => (ostore_read 1 1 rfl f _ y).trans (outC_half1 m c y).symm

theorem oload_sub (h : Fin 2) (o0 : ℕ) (ho : o0 = h.val)
    {inb : ∀ d, (![o0, 0, 0, 0] : Fin 4 → ℕ) d + S1x2x1024x512.size d ≤ S2x2x1024x512.size d} :
    (Memref.whole cc0_scratch1 : Memref sig .tc .vmem S2x2x1024x512 .bf16).view.setOn (Rect.unit (s := S2x2x1024x512) ![o0, 0, 0, 0] S1x2x1024x512.size inb).toLoadRect.set
      ⊆ (osrcM h).view.set := by
  show Finset.map (Function.Embedding.refl _) _ ⊆ _
  rw [Finset.map_refl]
  intro (i : S2x2x1024x512.Idx) hi
  obtain ⟨a, b, r, j, rfl⟩ : ∃ a b r j, i = ix4 a b r j := ⟨i 0, i 1, i 2, i 3, eq_ix4 i⟩
  have hi' : (o0 ≤ a.val ∧ a.val < o0 + 1) ∧ (0 ≤ b.val ∧ b.val < 0 + 2) ∧ (0 ≤ r.val ∧ r.val < 0 + 1024)
      ∧ (0 ≤ j.val ∧ j.val < 0 + 512) :=
    (mem_unit4 ![o0, 0, 0, 0] S1x2x1024x512.size (inb := inb) a b r j).mp hi
  exact (mem_osrc h a b r j).mpr (by omega)

theorem ostore_sub (h : Fin 2) (o0 : ℕ) (ho : o0 = h.val)
    {inb : ∀ d, (![o0, 0, 0, 0] : Fin 4 → ℕ) d + S1x2x1024x512.size d ≤ S2x2x1024x512.size d} :
    ((Memref.whole cc0_scratch1 : Memref sig .tc .vmem S2x2x1024x512 .bf16).access (Rect.unit (s := S2x2x1024x512) ![o0, 0, 0, 0] S1x2x1024x512.size inb)).setOn Finset.univ
      ⊆ (osrcM h).view.set := by
  rw [View.setOn_univ, View.set_slice_whole]
  intro (i : S2x2x1024x512.Idx) hi
  obtain ⟨a, b, r, j, rfl⟩ : ∃ a b r j, i = ix4 a b r j := ⟨i 0, i 1, i 2, i 3, eq_ix4 i⟩
  have hi' : (o0 ≤ a.val ∧ a.val < o0 + 1) ∧ (0 ≤ b.val ∧ b.val < 0 + 2) ∧ (0 ≤ r.val ∧ r.val < 0 + 1024)
      ∧ (0 ≤ j.val ∧ j.val < 0 + 512) :=
    (mem_unit4 ![o0, 0, 0, 0] S1x2x1024x512.size (inb := inb) a b r j).mp hi
  exact (mem_osrc h a b r j).mpr (by omega)

end Cert.KernelIdeal.KP

end
-- ==== Proof.BodyFinish.lean ====
import proofs.«900762_g7700000000000763_dist_diff_adaln_cshard_i_b2_s2048_c512_v7x_i16_bf16_1_alg».proof.Proof.BodyDefs
import proofs.«900762_g7700000000000763_dist_diff_adaln_cshard_i_b2_s2048_c512_v7x_i16_bf16_1_alg».proof.Proof.Init
import proofs.«900762_g7700000000000763_dist_diff_adaln_cshard_i_b2_s2048_c512_v7x_i16_bf16_1_alg».proof.Proof.Mem
import proofs.«900762_g7700000000000763_dist_diff_adaln_cshard_i_b2_s2048_c512_v7x_i16_bf16_1_alg».proof.Proof.StepWait
import proofs.«900762_g7700000000000763_dist_diff_adaln_cshard_i_b2_s2048_c512_v7x_i16_bf16_1_alg».proof.Proof.StepOut

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem owes_finish (c : Dev nD) :
    (iprop(∃ W, owes (c : Thread nD τ) (0 : CellTallies nD τ sig Unit) W) : sProp 𝕄) ⊢ (dats (F := F) m 0 c).owesAt () t₀.succ := by
  unfold Dat.owesAt Pipeline.owesWithin
  rw [show (dats m 0 c).owed t₀.succ = 0 from rfl]
  iintro ⟨%W, HO⟩
  iexists W
  isplitr; · ipureintro; exact fun _ _ => Or.inl trivial
  iexact HO

omit [FloatOps F] in
theorem obuf_join (c : Dev nD) :
    (iprop((∃ f, osrcPts (F := F) c 0 f) ∗ (∃ f, osrcPts (F := F) c 1 f)) : sProp 𝕄)
      ⊢ iprop(∃ f, ((c : Thread nD τ).loc cc0_scratch1) ↦{fullShare} f) := by
  unfold osrcPts
  iintro ⟨⟨%f, H0⟩, ⟨%g, H1⟩⟩
  iexists ((osrcM 1).view.set.piecewise g f)
  iapply (Entails.of_eq (congrArg (fun I : Finset _ => (((c : Thread nD τ).loc cc0_scratch1) ↦[I]{fullShare} ((osrcM 1).view.set.piecewise g f) : sProp 𝕄))
    osrc_union))
  iapply (pointsTo_join osrc_disjoint)
  isplitl [H0]; · iexact H0
  iexact H1

theorem stats_join (c : Dev nD) :
    iprop(srcPts c 0 (shrRest 15) (statsC m c) ∗ srcPts c 1 (shrRest 15) (statsC m c) ∗ SrcBack m c (Cbelow 30))
      ⊢ (iprop(∃ f, ((c : Thread nD τ).loc cc0_scratch2) ↦{fullShare} f) : sProp 𝕄) := by
  iintro ⟨Hr0, Hr1, Hb⟩
  ihave Hb' := (SrcBack_all m c).1 $$ Hb
  icases Hb' with ⟨Hb0, Hb1⟩
  iexists (statsC m c)
  iapply (stats_split c (statsC m c)).2
  isplitl [Hr0 Hb0]
  · iapply (src_lend c 0 (statsC m c)).2
    isplitl [Hb0] <;> iassumption
  · iapply (src_lend c 1 (statsC m c)).2
    isplitl [Hb1] <;> iassumption

theorem gath_all (c : Dev nD) :
    Landed m c (Cbelow 30) ⊢ (iprop(∃ f, ((c : Thread nD τ).loc cc0_scratch3) ↦{fullShare} f) : sProp 𝕄) := by
  rw [Cbelow_30]
  exact gath_join m c

theorem phi1_intro (K : Dev nD × CK → ℕ) (c : Dev nD) :
    iprop(Pers m K c ∗ PosS (F := F) c 1 (Cbelow 30) ∗ PosR (F := F) c 1 (Cbelow 30)
        ∗ atPos ER (outCell c 0) 1 ∅ 0 ∗ atPos ER (outCell c 1) 1 ∅ 0
        ∗ odstPts c 0 (outC m c) ∗ odstPts c 1 (outC m c) ∗ (∃ f, osrcPts (F := F) c 0 f) ∗ (∃ f, osrcPts (F := F) c 1 f)
        ∗ (∃ g, ((c : Thread nD τ).loc cc0_scratch0) ↦{fullShare} g)
        ∗ srcPts c 0 (shrRest 15) (statsC m c) ∗ srcPts c 1 (shrRest 15) (statsC m c) ∗ SrcBack m c (Cbelow 30)
        ∗ Landed m c (Cbelow 30))
      ⊢ |={Set.univ}=> Φ₁ m c := by
  iintro ⟨#HP, HpS, HpR, Ha0, Ha1, Hd0, Hd1, Hs0, Hs1, Hx, Hr0, Hr1, Hback, Hland⟩
  imod (close_all m K c) $$ [HpS HpR] with Hsr
  · isplitr; · iexact HP
    isplitl [HpS]
    · iapply (PosS_below_all (F := F) c 1).1; iexact HpS
    · iapply (PosR_below_all (F := F) c 1).1; iexact HpR
  imod (close_out m K c 0) $$ [Ha0] with Hz0
  · isplitr; · iexact HP
    iexact Ha0
  imod (close_out m K c 1) $$ [Ha1] with Hz1
  · isplitr; · iexact HP
    iexact Ha1
  imodintro
  unfold Φ₁
  isplitl [Hx]; · iexact Hx
  isplitl [Hs0 Hs1]
  · iapply (obuf_join (F := F) c); isplitl [Hs0] <;> iassumption
  isplitl [Hr0 Hr1 Hback]
  · iapply (stats_join m c)
    isplitl [Hr0]; · iexact Hr0
    isplitl [Hr1] <;> iassumption
  isplitl [Hland]
  · iapply (gath_all m c); iexact Hland
  isplitl [Hz0 Hz1]
  · iapply (Entails.of_eq (bigSep_univ_two (fun h : Fin 2 => (semVal (outCell c h) 0 : sProp 𝕄))).symm)
    isplitl [Hz0] <;> iassumption
  isplitl [Hsr]; · iexact Hsr
  iapply (mainv_split c (outC m c)).2
  isplitl [Hd0] <;> iassumption

end Cert.KernelIdeal.KP

end
-- ==== Proof.Body.lean ====
import proofs.«900762_g7700000000000763_dist_diff_adaln_cshard_i_b2_s2048_c512_v7x_i16_bf16_1_alg».proof.Proof.BodyDefs
import proofs.«900762_g7700000000000763_dist_diff_adaln_cshard_i_b2_s2048_c512_v7x_i16_bf16_1_alg».proof.Proof.Devs
import proofs.«900762_g7700000000000763_dist_diff_adaln_cshard_i_b2_s2048_c512_v7x_i16_bf16_1_alg».proof.Proof.StepSig
import proofs.«900762_g7700000000000763_dist_diff_adaln_cshard_i_b2_s2048_c512_v7x_i16_bf16_1_alg».proof.Proof.StepSend
import proofs.«900762_g7700000000000763_dist_diff_adaln_cshard_i_b2_s2048_c512_v7x_i16_bf16_1_alg».proof.Proof.StepWait
import proofs.«900762_g7700000000000763_dist_diff_adaln_cshard_i_b2_s2048_c512_v7x_i16_bf16_1_alg».proof.Proof.Init
import proofs.«900762_g7700000000000763_dist_diff_adaln_cshard_i_b2_s2048_c512_v7x_i16_bf16_1_alg».proof.Proof.Mem
import proofs.«900762_g7700000000000763_dist_diff_adaln_cshard_i_b2_s2048_c512_v7x_i16_bf16_1_alg».proof.Proof.ContentsStats
import proofs.«900762_g7700000000000763_dist_diff_adaln_cshard_i_b2_s2048_c512_v7x_i16_bf16_1_alg».proof.Proof.MemLoads
import proofs.«900762_g7700000000000763_dist_diff_adaln_cshard_i_b2_s2048_c512_v7x_i16_bf16_1_alg».proof.Proof.StepOut
import proofs.«900762_g7700000000000763_dist_diff_adaln_cshard_i_b2_s2048_c512_v7x_i16_bf16_1_alg».proof.Proof.OutContents
import proofs.«900762_g7700000000000763_dist_diff_adaln_cshard_i_b2_s2048_c512_v7x_i16_bf16_1_alg».proof.Proof.BodyFinish

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

instance invs_persistent (K : Dev nD × CK → ℕ) (c : Dev nD) : BI.Persistent (invs m K c) := by unfold invs; infer_instance
omit [FloatOps F] in
instance reacheds_persistent (c : Dev nD) : BI.Persistent (reacheds (F := F) c) := by unfold reacheds; infer_instance

theorem xh0_eq (c : Dev nD) : (Memref.whole cc0_stg0_0 : Memref sig .tc .vmem S2x2048x512 .f32).view.readAt (Elt F) (Rect.unit (s := S2x2048x512) ![0, 0, 0] S2x1024x512.size inb_S2x2048x512_S2x1024x512_0_0_0).toLoadRect (xstg m c) = xh m c 0 := rfl
theorem xh1_eq (c : Dev nD) : (Memref.whole cc0_stg0_0 : Memref sig .tc .vmem S2x2048x512 .f32).view.readAt (Elt F) (Rect.unit (s := S2x2048x512) ![0, 1024, 0] S2x1024x512.size inb_S2x2048x512_S2x1024x512_0_1024_0).toLoadRect (xstg m c) = xh m c 1 := rfl

theorem hz2 : (![0, 0] : Fin 2 → Nat) = fun _ => 0 := funext fun a => by fin_cases a <;> rfl
theorem hz3 : (![0, 0, 0] : Fin 3 → Nat) = fun _ => 0 := funext fun a => by fin_cases a <;> rfl

theorem t_read (c : Dev nD) : (Memref.whole cc0_stg1_0 : Memref sig .tc .vmem S2x128 .f32).view.readAt (Elt F) (Rect.unit (s := S2x128) ![0, 0] S2x128.size inb_S2x128_S2x128_0_0).toLoadRect (tstg m c) = tstg m c :=
  Memref.readAt_unit_zero (Elt F) cc0_stg1_0 hz2 _ _
theorem ws_read (c : Dev nD) : (Memref.whole cc0_stg2_0 : Memref sig .tc .vmem S128x512 .f32).view.readAt (Elt F) (Rect.unit (s := S128x512) ![0, 0] S128x512.size inb_S128x512_S128x512_0_0).toLoadRect (wsstg m c) = wsstg m c :=
  Memref.readAt_unit_zero (Elt F) cc0_stg2_0 hz2 _ _
theorem wsh_read (c : Dev nD) : (Memref.whole cc0_stg3_0 : Memref sig .tc .vmem S128x512 .f32).view.readAt (Elt F) (Rect.unit (s := S128x512) ![0, 0] S128x512.size inb_S128x512_S128x512_0_0).toLoadRect (wshstg m c) = wshstg m c :=
  Memref.readAt_unit_zero (Elt F) cc0_stg3_0 hz2 _ _
theorem x_read (c : Dev nD) : (Memref.whole cc0_stg0_0 : Memref sig .tc .vmem S2x2048x512 .f32).view.readAt (Elt F) (Rect.unit (s := S2x2048x512) ![0, 0, 0] S2x2048x512.size inb_S2x2048x512_S2x2048x512_0_0_0).toLoadRect (xstg m c) = xstg m c :=
  Memref.readAt_unit_zero (Elt F) cc0_stg0_0 hz3 _ _

theorem xb_write (c : Dev nD) (f : Buf (Elt F) ((c : Thread nD τ).loc cc0_scratch0)) (w : (cc0_scratch0 : Ref sig .tc).ty.Contents (Elt F)) :
    (((Memref.whole cc0_scratch0 : Memref sig .tc .vmem S2x2048x512 .bf16).access (Rect.unit (s := S2x2048x512) ![0, 0, 0] S2x2048x512.size inb_S2x2048x512_S2x2048x512_0_0_0) : View sig .tc _ _ _).write (Elt F) f w Finset.univ) = w :=
  Memref.write_access_unit_zero_univ (Elt F) cc0_scratch0 hz3 _ f w
theorem mulV_eq (c : Dev nD) : k0_pay8 (tstg m c) (wsstg m c) = mulV m c := rfl
theorem addV_eq (c : Dev nD) : k0_pay9 (tstg m c) (wshstg m c) = addV m c := rfl
theorem xb0_eq (c : Dev nD) : (Memref.whole cc0_scratch0 : Memref sig .tc .vmem S2x2048x512 .bf16).view.readAt (Elt F) (Rect.unit (s := S2x2048x512) ![0, 0, 0] S2x1024x512.size inb_S2x2048x512_S2x1024x512_0_0_0).toLoadRect (k0_pay10 (xstg m c)) = xbV m c 0 := rfl
theorem xb1_eq (c : Dev nD) : (Memref.whole cc0_scratch0 : Memref sig .tc .vmem S2x2048x512 .bf16).view.readAt (Elt F) (Rect.unit (s := S2x2048x512) ![0, 1024, 0] S2x1024x512.size inb_S2x2048x512_S2x1024x512_0_1024_0).toLoadRect (k0_pay10 (xstg m c)) = xbV m c 1 := rfl
theorem gat0_eq (c : Dev nD) : (Memref.whole cc0_scratch3 : Memref sig .tc .vmem S15x2x2x2048 .bf16).view.readAt (Elt F) (Rect.unit (s := S15x2x2x2048) ![0, 0, 0, 0] S15x2x2x1024.size inb_S15x2x2x2048_S15x2x2x1024_0_0_0_0).toLoadRect (gathC m c) = gatV m c 0 := rfl
theorem gat1_eq (c : Dev nD) : (Memref.whole cc0_scratch3 : Memref sig .tc .vmem S15x2x2x2048 .bf16).view.readAt (Elt F) (Rect.unit (s := S15x2x2x2048) ![0, 0, 0, 1024] S15x2x2x1024.size inb_S15x2x2x2048_S15x2x2x1024_0_0_0_1024).toLoadRect (gathC m c) = gatV m c 1 := rfl
theorem own0_eq (c : Dev nD) : (Memref.whole cc0_scratch2 : Memref sig .tc .vmem S2x2x2048 .bf16).view.readAt (Elt F) (Rect.unit (s := S2x2x2048) ![0, 0, 0] S2x2x1024.size inb_S2x2x2048_S2x2x1024_0_0_0).toLoadRect (statsC m c) = ownV m c 0 := rfl
theorem own1_eq (c : Dev nD) : (Memref.whole cc0_scratch2 : Memref sig .tc .vmem S2x2x2048 .bf16).view.readAt (Elt F) (Rect.unit (s := S2x2x2048) ![0, 0, 1024] S2x2x1024.size inb_S2x2x2048_S2x2x1024_0_0_1024).toLoadRect (statsC m c) = ownV m c 1 := rfl

theorem owes_done (c : Dev nD) : iprop(∃ W, owes (c : Thread nD τ) (Ocp c (Cfrom 30)) W) ⊢ (iprop(∃ W, owes (c : Thread nD τ) 0 W) : sProp 𝕄) := by
  rw [Cfrom_30]; unfold Ocp; rw [Finset.sum_empty]

theorem owes_start (c : Dev nD) (W : Waits sig Unit) :
    (owes (c : Thread nD τ) (O₀ c) W : sProp 𝕄) ⊢ iprop(∃ W, owes (c : Thread nD τ) (Osig c 0) W) := by
  unfold Osig O₀; rw [Tfrom_zero]
  iintro H; iexists W; iexact H

theorem fetch_w (w : Fin 4) (t : Fin cfg0.N) : (cfg0.win w).fetch t = true := by
  rw [fin_N t]; fin_cases w <;> rfl

set_option maxRecDepth 100000 in
set_option maxHeartbeats 8000000 in
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  simp only [cc0_body_eq_skeleton]
  unfold cc0_body_skel
  simp only [k0_part51_eq_skeleton]
  unfold k0_part51_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c, dev36_eq c, dev37_eq c, dev38_eq c, dev39_eq c, dev40_eq c, dev41_eq c, dev42_eq c, dev43_eq c, dev44_eq c, dev45_eq c]
  unfold bodyPre ghost bufs₀ creds
  iintro ⟨⟨⟨⟨#Hinv, #Hreach, Hpos, Htoks⟩, ⟨HcB, HcR⟩, #Hlev, ⟨%f0, Hxb⟩, ⟨%f1, Hob⟩, ⟨%f2, Hst⟩, ⟨%f3, Hga⟩, Hv1⟩,
    Ho, ⟨%d0, %g0, %hg0, Hx⟩, ⟨%d1, %g1, %hg1, Ht⟩, ⟨%d2, %g2, %hg2, Hws⟩, ⟨%d3, %g3, %hg3, Hwsh⟩⟩, Hk⟩
  have hx : g0 = xstg m c := by rw [hg0]; unfold Dat.before; rw [if_pos (fetch_w 0 t₀)]; rfl
  have ht : g1 = tstg m c := by rw [hg1]; unfold Dat.before; rw [if_pos (fetch_w 1 t₀)]; rfl
  have hws : g2 = wsstg m c := by rw [hg2]; unfold Dat.before; rw [if_pos (fetch_w 2 t₀)]; rfl
  have hwsh : g3 = wshstg m c := by rw [hg3]; unfold Dat.before; rw [if_pos (fetch_w 3 t₀)]; rfl
  subst hx ht hws hwsh
  unfold Dat.owesAt Pipeline.owesWithin
  icases Ho with ⟨%W, %hW, HO⟩
  rw [show (dats m 0 c).owed t₀.castSucc = O₀ c from rfl]
  ihave HO := (owes_start c W) $$ HO
  ihave HP := (pers_intro m K c) $$ [Hinv Hreach Hlev]
  · isplitr; · iexact Hinv
    isplitr; · iexact Hreach
    iexact Hlev
  icases HP with #HP
  ihave Ht4 := (payToks_split (F := F) c).1 $$ Htoks
  icases Ht4 with ⟨HtSig, HtRecv, HtSend, HtOut⟩
  ihave HS := (sig_init (F := F) c) $$ [Hga HtSig]
  · isplitl [Hga]; · iexists f3; iexact Hga
    iexact HtSig
  rw [← Tfrom_zero]
  iapply (step_signal m K c 0 (by decide) _ rfl) $$ HP HO HS; iintro ⟨HO, HS⟩
  iapply (step_signal m K c 1 (by decide) _ rfl) $$ HP HO HS; iintro ⟨HO, HS⟩
  iapply (step_signal m K c 2 (by decide) _ rfl) $$ HP HO HS; iintro ⟨HO, HS⟩
  iapply (step_signal m K c 3 (by decide) _ rfl) $$ HP HO HS; iintro ⟨HO, HS⟩
  iapply (step_signal m K c 4 (by decide) _ rfl) $$ HP HO HS; iintro ⟨HO, HS⟩
  iapply (step_signal m K c 5 (by decide) _ rfl) $$ HP HO HS; iintro ⟨HO, HS⟩
  iapply (step_signal m K c 6 (by decide) _ rfl) $$ HP HO HS; iintro ⟨HO, HS⟩
  iapply (step_signal m K c 7 (by decide) _ rfl) $$ HP HO HS; iintro ⟨HO, HS⟩
  iapply (step_signal m K c 8 (by decide) _ rfl) $$ HP HO HS; iintro ⟨HO, HS⟩
  iapply (step_signal m K c 9 (by decide) _ rfl) $$ HP HO HS; iintro ⟨HO, HS⟩
  iapply (step_signal m K c 10 (by decide) _ rfl) $$ HP HO HS; iintro ⟨HO, HS⟩
  iapply (step_signal m K c 11 (by decide) _ rfl) $$ HP HO HS; iintro ⟨HO, HS⟩
  iapply (step_signal m K c 12 (by decide) _ rfl) $$ HP HO HS; iintro ⟨HO, HS⟩
  iapply (step_signal m K c 13 (by decide) _ rfl) $$ HP HO HS; iintro ⟨HO, HS⟩
  iapply (step_signal m K c 14 (by decide) _ rfl) $$ HP HO HS; iintro ⟨HO, HS⟩

  iapply (wp_load 𝒱₀ (c : Thread nD τ) none Set.univ (m := (Memref.whole cc0_stg0_0 : Memref sig .tc .vmem S2x2048x512 .f32)) (Finset.subset_univ _)) $$ Hx; iintro Hx
  simp only [xh0_eq m c]
  iapply (wp_load 𝒱₀ (c : Thread nD τ) none Set.univ (m := (Memref.whole cc0_scratch2 : Memref sig .tc .vmem S2x2x2048 .bf16)) (Finset.subset_univ _)) $$ Hst; iintro Hst
  iapply (wp_store 𝒱₀ (c : Thread nD τ) none Set.univ (m := (Memref.whole cc0_scratch2 : Memref sig .tc .vmem S2x2x2048 .bf16)) (r := (Rect.unit (s := S2x2x2048) ![0, 0, 0] S1x2x1024.size inb_S2x2x2048_S1x2x1024_0_0_0)) (Mk := Finset.univ) (Finset.subset_univ _)) $$ Hst; iintro Hst
  iapply (wp_load 𝒱₀ (c : Thread nD τ) none Set.univ (m := (Memref.whole cc0_scratch2 : Memref sig .tc .vmem S2x2x2048 .bf16)) (Finset.subset_univ _)) $$ Hst; iintro Hst
  iapply (wp_store 𝒱₀ (c : Thread nD τ) none Set.univ (m := (Memref.whole cc0_scratch2 : Memref sig .tc .vmem S2x2x2048 .bf16)) (r := (Rect.unit (s := S2x2x2048) ![1, 0, 0] S1x2x1024.size inb_S2x2x2048_S1x2x1024_1_0_0)) (Mk := Finset.univ) (Finset.subset_univ _)) $$ Hst; iintro Hst

  ihave Hp4 := (positions_split (F := F) c).1 $$ Hpos
  icases Hp4 with ⟨HposB, HposS, HposR, HposO⟩
  iapply (step_barwait m K c) $$ HP HO HcB HposB; iintro ⟨HO, Hslots⟩
  ihave HT := (cptok_init (F := F) c) $$ [HtSend HtRecv Hslots]
  · isplitl [HtSend]; · iexact HtSend
    isplitl [HtRecv]; · iexact HtRecv
    iexact Hslots

  ihave Hs2 := (stats_split (F := F) c _).1 $$ Hst
  icases Hs2 with ⟨Hs0, Hs1⟩
  ihave Hs0 := (ofEq (stats_congr (F := F) c 0 fullShare _ _ (stats_half0 m c f2 (i10 := inb_S2x2x2048_S1x2x1024_1_0_0) (i00 := inb_S2x2x2048_S1x2x1024_0_0_0)))) $$ Hs0
  ihave Hl0 := (src_lend (F := F) c 0 (statsC m c)).1 $$ Hs0
  icases Hl0 with ⟨Hsh, Hrest0⟩
  ihave Hsh := (SrcSh_zero m c 0).2 $$ Hsh
  ihave HSC := (SCred_below_zero (F := F) c) $$ []
  · iempintro
  iapply (step_send_fam m K c 0 (by decide) _ (dev16_eq c) 0 0 rfl rfl) $$ HP HO HT Hsh HSC; iintro ⟨HO, HT, HSC, Hsh⟩
  iapply (step_send_fam m K c 1 (by decide) _ (dev17_eq c) 0 1 rfl rfl) $$ HP HO HT Hsh HSC; iintro ⟨HO, HT, HSC, Hsh⟩
  iapply (step_send_fam m K c 2 (by decide) _ (dev18_eq c) 0 2 rfl rfl) $$ HP HO HT Hsh HSC; iintro ⟨HO, HT, HSC, Hsh⟩
  iapply (step_send_fam m K c 3 (by decide) _ (dev19_eq c) 0 3 rfl rfl) $$ HP HO HT Hsh HSC; iintro ⟨HO, HT, HSC, Hsh⟩
  iapply (step_send_fam m K c 4 (by decide) _ (dev20_eq c) 0 4 rfl rfl) $$ HP HO HT Hsh HSC; iintro ⟨HO, HT, HSC, Hsh⟩
  iapply (step_send_fam m K c 5 (by decide) _ (dev21_eq c) 0 5 rfl rfl) $$ HP HO HT Hsh HSC; iintro ⟨HO, HT, HSC, Hsh⟩
  iapply (step_send_fam m K c 6 (by decide) _ (dev22_eq c) 0 6 rfl rfl) $$ HP HO HT Hsh HSC; iintro ⟨HO, HT, HSC, Hsh⟩
  iapply (step_send_fam m K c 7 (by decide) _ (dev23_eq c) 0 7 rfl rfl) $$ HP HO HT Hsh HSC; iintro ⟨HO, HT, HSC, Hsh⟩
  iapply (step_send_fam m K c 8 (by decide) _ (dev24_eq c) 0 8 rfl rfl) $$ HP HO HT Hsh HSC; iintro ⟨HO, HT, HSC, Hsh⟩
  iapply (step_send_fam m K c 9 (by decide) _ (dev25_eq c) 0 9 rfl rfl) $$ HP HO HT Hsh HSC; iintro ⟨HO, HT, HSC, Hsh⟩
  iapply (step_send_fam m K c 10 (by decide) _ (dev26_eq c) 0 10 rfl rfl) $$ HP HO HT Hsh HSC; iintro ⟨HO, HT, HSC, Hsh⟩
  iapply (step_send_fam m K c 11 (by decide) _ (dev27_eq c) 0 11 rfl rfl) $$ HP HO HT Hsh HSC; iintro ⟨HO, HT, HSC, Hsh⟩
  iapply (step_send_fam m K c 12 (by decide) _ (dev28_eq c) 0 12 rfl rfl) $$ HP HO HT Hsh HSC; iintro ⟨HO, HT, HSC, Hsh⟩
  iapply (step_send_fam m K c 13 (by decide) _ (dev29_eq c) 0 13 rfl rfl) $$ HP HO HT Hsh HSC; iintro ⟨HO, HT, HSC, Hsh⟩
  iapply (step_send_fam m K c 14 (by decide) _ (dev30_eq c) 0 14 rfl rfl) $$ HP HO HT Hsh HSC; iintro ⟨HO, HT, HSC, Hsh⟩

  iapply (wp_load 𝒱₀ (c : Thread nD τ) none Set.univ (m := (Memref.whole cc0_stg0_0 : Memref sig .tc .vmem S2x2048x512 .f32)) (Finset.subset_univ _)) $$ Hx; iintro Hx
  simp only [xh1_eq m c]
  ihave Hs1 := (ofEq (show (srcPts c 1 fullShare (((Memref.whole cc0_scratch2 : Memref sig .tc .vmem S2x2x2048 .bf16).access (Rect.unit (s := S2x2x2048) ![1, 0, 0] S1x2x1024.size inb_S2x2x2048_S1x2x1024_1_0_0)).write (Elt F) (((Memref.whole cc0_scratch2 : Memref sig .tc .vmem S2x2x2048 .bf16).access (Rect.unit (s := S2x2x2048) ![0, 0, 0] S1x2x1024.size inb_S2x2x2048_S1x2x1024_0_0_0)).write (Elt F) f2 (k0_pay2 (xh m c 0)) Finset.univ) (k0_pay3 (xh m c 0)) Finset.univ) : sProp 𝕄) = ((Memref.whole cc0_scratch2 : Memref sig .tc .vmem S2x2x2048 .bf16).view.loc (c : Thread nD τ) ↦[(srcM 1).view.set]{fullShare} (((Memref.whole cc0_scratch2 : Memref sig .tc .vmem S2x2x2048 .bf16).access (Rect.unit (s := S2x2x2048) ![1, 0, 0] S1x2x1024.size inb_S2x2x2048_S1x2x1024_1_0_0)).write (Elt F) (((Memref.whole cc0_scratch2 : Memref sig .tc .vmem S2x2x2048 .bf16).access (Rect.unit (s := S2x2x2048) ![0, 0, 0] S1x2x1024.size inb_S2x2x2048_S1x2x1024_0_0_0)).write (Elt F) f2 (k0_pay2 (xh m c 0)) Finset.univ) (k0_pay3 (xh m c 0)) Finset.univ)) from rfl)) $$ Hs1
  iapply (wp_load 𝒱₀ (c : Thread nD τ) none Set.univ (m := (Memref.whole cc0_scratch2 : Memref sig .tc .vmem S2x2x2048 .bf16)) load_sub_01) $$ Hs1; iintro Hs1
  iapply (wp_store 𝒱₀ (c : Thread nD τ) none Set.univ (m := (Memref.whole cc0_scratch2 : Memref sig .tc .vmem S2x2x2048 .bf16)) (r := (Rect.unit (s := S2x2x2048) ![0, 0, 1024] S1x2x1024.size inb_S2x2x2048_S1x2x1024_0_0_1024)) (Mk := Finset.univ) store_sub_01) $$ Hs1; iintro Hs1
  iapply (wp_load 𝒱₀ (c : Thread nD τ) none Set.univ (m := (Memref.whole cc0_scratch2 : Memref sig .tc .vmem S2x2x2048 .bf16)) load_sub_11) $$ Hs1; iintro Hs1
  iapply (wp_store 𝒱₀ (c : Thread nD τ) none Set.univ (m := (Memref.whole cc0_scratch2 : Memref sig .tc .vmem S2x2x2048 .bf16)) (r := (Rect.unit (s := S2x2x2048) ![1, 0, 1024] S1x2x1024.size inb_S2x2x2048_S1x2x1024_1_0_1024)) (Mk := Finset.univ) store_sub_11) $$ Hs1; iintro Hs1
  ihave Hs1 := (ofEq (show ((((Memref.whole cc0_scratch2 : Memref sig .tc .vmem S2x2x2048 .bf16).access (Rect.unit (s := S2x2x2048) ![1, 0, 1024] S1x2x1024.size inb_S2x2x2048_S1x2x1024_1_0_1024)).loc (c : Thread nD τ) ↦[(srcM 1).view.set]{fullShare} (((Memref.whole cc0_scratch2 : Memref sig .tc .vmem S2x2x2048 .bf16).access (Rect.unit (s := S2x2x2048) ![1, 0, 1024] S1x2x1024.size inb_S2x2x2048_S1x2x1024_1_0_1024)).write (Elt F) (((Memref.whole cc0_scratch2 : Memref sig .tc .vmem S2x2x2048 .bf16).access (Rect.unit (s := S2x2x2048) ![0, 0, 1024] S1x2x1024.size inb_S2x2x2048_S1x2x1024_0_0_1024)).write (Elt F) (((Memref.whole cc0_scratch2 : Memref sig .tc .vmem S2x2x2048 .bf16).access (Rect.unit (s := S2x2x2048) ![1, 0, 0] S1x2x1024.size inb_S2x2x2048_S1x2x1024_1_0_0)).write (Elt F) (((Memref.whole cc0_scratch2 : Memref sig .tc .vmem S2x2x2048 .bf16).access (Rect.unit (s := S2x2x2048) ![0, 0, 0] S1x2x1024.size inb_S2x2x2048_S1x2x1024_0_0_0)).write (Elt F) f2 (k0_pay2 (xh m c 0)) Finset.univ) (k0_pay3 (xh m c 0)) Finset.univ) (k0_pay6 (k0_pay5 (xh m c 1))) Finset.univ) (k0_pay7 (k0_pay4 (xh m c 1))) Finset.univ)) : sProp 𝕄) = srcPts c 1 fullShare (((Memref.whole cc0_scratch2 : Memref sig .tc .vmem S2x2x2048 .bf16).access (Rect.unit (s := S2x2x2048) ![1, 0, 1024] S1x2x1024.size inb_S2x2x2048_S1x2x1024_1_0_1024)).write (Elt F) (((Memref.whole cc0_scratch2 : Memref sig .tc .vmem S2x2x2048 .bf16).access (Rect.unit (s := S2x2x2048) ![0, 0, 1024] S1x2x1024.size inb_S2x2x2048_S1x2x1024_0_0_1024)).write (Elt F) (((Memref.whole cc0_scratch2 : Memref sig .tc .vmem S2x2x2048 .bf16).access (Rect.unit (s := S2x2x2048) ![1, 0, 0] S1x2x1024.size inb_S2x2x2048_S1x2x1024_1_0_0)).write (Elt F) (((Memref.whole cc0_scratch2 : Memref sig .tc .vmem S2x2x2048 .bf16).access (Rect.unit (s := S2x2x2048) ![0, 0, 0] S1x2x1024.size inb_S2x2x2048_S1x2x1024_0_0_0)).write (Elt F) f2 (k0_pay2 (xh m c 0)) Finset.univ) (k0_pay3 (xh m c 0)) Finset.univ) (k0_pay6 (k0_pay5 (xh m c 1))) Finset.univ) (k0_pay7 (k0_pay4 (xh m c 1))) Finset.univ) from rfl)) $$ Hs1

  ihave Hs1 := (ofEq (stats_congr (F := F) c 1 fullShare _ _ (stats_half_all m c f2 1 (i11 := inb_S2x2x2048_S1x2x1024_1_0_1024) (i01 := inb_S2x2x2048_S1x2x1024_0_0_1024) (i10 := inb_S2x2x2048_S1x2x1024_1_0_0) (i00 := inb_S2x2x2048_S1x2x1024_0_0_0)))) $$ Hs1
  ihave Hl1 := (src_lend (F := F) c 1 (statsC m c)).1 $$ Hs1
  icases Hl1 with ⟨Hsh1, Hrest1⟩
  ihave Hsh1 := (SrcSh_zero m c 1).2 $$ Hsh1
  iapply (step_send_fam m K c 15 (by decide) _ (dev31_eq c) 1 0 rfl rfl) $$ HP HO HT Hsh1 HSC; iintro ⟨HO, HT, HSC, Hsh1⟩
  iapply (step_send_fam m K c 16 (by decide) _ (dev32_eq c) 1 1 rfl rfl) $$ HP HO HT Hsh1 HSC; iintro ⟨HO, HT, HSC, Hsh1⟩
  iapply (step_send_fam m K c 17 (by decide) _ (dev33_eq c) 1 2 rfl rfl) $$ HP HO HT Hsh1 HSC; iintro ⟨HO, HT, HSC, Hsh1⟩
  iapply (step_send_fam m K c 18 (by decide) _ (dev34_eq c) 1 3 rfl rfl) $$ HP HO HT Hsh1 HSC; iintro ⟨HO, HT, HSC, Hsh1⟩
  iapply (step_send_fam m K c 19 (by decide) _ (dev35_eq c) 1 4 rfl rfl) $$ HP HO HT Hsh1 HSC; iintro ⟨HO, HT, HSC, Hsh1⟩
  iapply (step_send_fam m K c 20 (by decide) _ (dev36_eq c) 1 5 rfl rfl) $$ HP HO HT Hsh1 HSC; iintro ⟨HO, HT, HSC, Hsh1⟩
  iapply (step_send_fam m K c 21 (by decide) _ (dev37_eq c) 1 6 rfl rfl) $$ HP HO HT Hsh1 HSC; iintro ⟨HO, HT, HSC, Hsh1⟩
  iapply (step_send_fam m K c 22 (by decide) _ (dev38_eq c) 1 7 rfl rfl) $$ HP HO HT Hsh1 HSC; iintro ⟨HO, HT, HSC, Hsh1⟩
  iapply (step_send_fam m K c 23 (by decide) _ (dev39_eq c) 1 8 rfl rfl) $$ HP HO HT Hsh1 HSC; iintro ⟨HO, HT, HSC, Hsh1⟩
  iapply (step_send_fam m K c 24 (by decide) _ (dev40_eq c) 1 9 rfl rfl) $$ HP HO HT Hsh1 HSC; iintro ⟨HO, HT, HSC, Hsh1⟩
  iapply (step_send_fam m K c 25 (by decide) _ (dev41_eq c) 1 10 rfl rfl) $$ HP HO HT Hsh1 HSC; iintro ⟨HO, HT, HSC, Hsh1⟩
  iapply (step_send_fam m K c 26 (by decide) _ (dev42_eq c) 1 11 rfl rfl) $$ HP HO HT Hsh1 HSC; iintro ⟨HO, HT, HSC, Hsh1⟩
  iapply (step_send_fam m K c 27 (by decide) _ (dev43_eq c) 1 12 rfl rfl) $$ HP HO HT Hsh1 HSC; iintro ⟨HO, HT, HSC, Hsh1⟩
  iapply (step_send_fam m K c 28 (by decide) _ (dev44_eq c) 1 13 rfl rfl) $$ HP HO HT Hsh1 HSC; iintro ⟨HO, HT, HSC, Hsh1⟩
  iapply (step_send_fam m K c 29 (by decide) _ (dev45_eq c) 1 14 rfl rfl) $$ HP HO HT Hsh1 HSC; iintro ⟨HO, HT, HSC, Hsh1⟩

  iapply (wp_load 𝒱₀ (c : Thread nD τ) none Set.univ (m := (Memref.whole cc0_stg1_0 : Memref sig .tc .vmem S2x128 .f32)) (Finset.subset_univ _)) $$ Ht; iintro Ht
  iapply (wp_load 𝒱₀ (c : Thread nD τ) none Set.univ (m := (Memref.whole cc0_stg2_0 : Memref sig .tc .vmem S128x512 .f32)) (Finset.subset_univ _)) $$ Hws; iintro Hws
  iapply (wp_load 𝒱₀ (c : Thread nD τ) none Set.univ (m := (Memref.whole cc0_stg1_0 : Memref sig .tc .vmem S2x128 .f32)) (Finset.subset_univ _)) $$ Ht; iintro Ht
  iapply (wp_load 𝒱₀ (c : Thread nD τ) none Set.univ (m := (Memref.whole cc0_stg3_0 : Memref sig .tc .vmem S128x512 .f32)) (Finset.subset_univ _)) $$ Hwsh; iintro Hwsh
  iapply (wp_load 𝒱₀ (c : Thread nD τ) none Set.univ (m := (Memref.whole cc0_stg0_0 : Memref sig .tc .vmem S2x2048x512 .f32)) (Finset.subset_univ _)) $$ Hx; iintro Hx
  iapply (wp_load 𝒱₀ (c : Thread nD τ) none Set.univ (m := (Memref.whole cc0_scratch0 : Memref sig .tc .vmem S2x2048x512 .bf16)) (Finset.subset_univ _)) $$ Hxb; iintro Hxb
  iapply (wp_store 𝒱₀ (c : Thread nD τ) none Set.univ (m := (Memref.whole cc0_scratch0 : Memref sig .tc .vmem S2x2048x512 .bf16)) (r := (Rect.unit (s := S2x2048x512) ![0, 0, 0] S2x2048x512.size inb_S2x2048x512_S2x2048x512_0_0_0)) (Mk := Finset.univ) (Finset.subset_univ _)) $$ Hxb; iintro Hxb
  simp only [t_read m c, ws_read m c, wsh_read m c, x_read m c, xb_write c, mulV_eq m c, addV_eq m c]

  ihave HO := (owes_done (F := F) c) $$ HO
  ihave HSC := (SCred_all (F := F) c).1 $$ HSC
  ihave HposS := (PosS_univ_from (F := F) c 0).1 $$ HposS
  ihave HposR := (PosR_univ_from (F := F) c 0).1 $$ HposR
  ihave HcR := (ofEq (show ((bigSep Finset.univ fun hj : Fin 2 × Fin 15 => cred (tallyAt (recvCell c hj.1 hj.2) () N)) : sProp 𝕄) = RCred (F := F) c Finset.univ from rfl)) $$ HcR
  ihave HcR := (RCred_univ_from (F := F) c).1 $$ HcR
  ihave HposS1 := (PosS_below_zero (F := F) c 1) $$ []
  · iempintro
  ihave HposR1 := (PosR_below_zero (F := F) c 1) $$ []
  · iempintro
  ihave HSB := (SrcBack_below_zero m c) $$ []
  · iempintro
  ihave HL := (Landed_below_zero m c) $$ []
  · iempintro
  iapply (step_wait_send m K c 0 (by decide)) $$ HP HO HSC HposS HposS1 HSB; iintro ⟨HO, HSC, HposS, HposS1, HSB⟩
  iapply (step_wait_recv m K c 0 (by decide)) $$ HP HO HcR HposR HposR1 HL; iintro ⟨HO, HcR, HposR, HposR1, HL⟩
  iapply (step_wait_send m K c 1 (by decide)) $$ HP HO HSC HposS HposS1 HSB; iintro ⟨HO, HSC, HposS, HposS1, HSB⟩
  iapply (step_wait_recv m K c 1 (by decide)) $$ HP HO HcR HposR HposR1 HL; iintro ⟨HO, HcR, HposR, HposR1, HL⟩
  iapply (step_wait_send m K c 2 (by decide)) $$ HP HO HSC HposS HposS1 HSB; iintro ⟨HO, HSC, HposS, HposS1, HSB⟩
  iapply (step_wait_recv m K c 2 (by decide)) $$ HP HO HcR HposR HposR1 HL; iintro ⟨HO, HcR, HposR, HposR1, HL⟩
  iapply (step_wait_send m K c 3 (by decide)) $$ HP HO HSC HposS HposS1 HSB; iintro ⟨HO, HSC, HposS, HposS1, HSB⟩
  iapply (step_wait_recv m K c 3 (by decide)) $$ HP HO HcR HposR HposR1 HL; iintro ⟨HO, HcR, HposR, HposR1, HL⟩
  iapply (step_wait_send m K c 4 (by decide)) $$ HP HO HSC HposS HposS1 HSB; iintro ⟨HO, HSC, HposS, HposS1, HSB⟩
  iapply (step_wait_recv m K c 4 (by decide)) $$ HP HO HcR HposR HposR1 HL; iintro ⟨HO, HcR, HposR, HposR1, HL⟩
  iapply (step_wait_send m K c 5 (by decide)) $$ HP HO HSC HposS HposS1 HSB; iintro ⟨HO, HSC, HposS, HposS1, HSB⟩
  iapply (step_wait_recv m K c 5 (by decide)) $$ HP HO HcR HposR HposR1 HL; iintro ⟨HO, HcR, HposR, HposR1, HL⟩
  iapply (step_wait_send m K c 6 (by decide)) $$ HP HO HSC HposS HposS1 HSB; iintro ⟨HO, HSC, HposS, HposS1, HSB⟩
  iapply (step_wait_recv m K c 6 (by decide)) $$ HP HO HcR HposR HposR1 HL; iintro ⟨HO, HcR, HposR, HposR1, HL⟩
  iapply (step_wait_send m K c 7 (by decide)) $$ HP HO HSC HposS HposS1 HSB; iintro ⟨HO, HSC, HposS, HposS1, HSB⟩
  iapply (step_wait_recv m K c 7 (by decide)) $$ HP HO HcR HposR HposR1 HL; iintro ⟨HO, HcR, HposR, HposR1, HL⟩
  iapply (step_wait_send m K c 8 (by decide)) $$ HP HO HSC HposS HposS1 HSB; iintro ⟨HO, HSC, HposS, HposS1, HSB⟩
  iapply (step_wait_recv m K c 8 (by decide)) $$ HP HO HcR HposR HposR1 HL; iintro ⟨HO, HcR, HposR, HposR1, HL⟩
  iapply (step_wait_send m K c 9 (by decide)) $$ HP HO HSC HposS HposS1 HSB; iintro ⟨HO, HSC, HposS, HposS1, HSB⟩
  iapply (step_wait_recv m K c 9 (by decide)) $$ HP HO HcR HposR HposR1 HL; iintro ⟨HO, HcR, HposR, HposR1, HL⟩
  iapply (step_wait_send m K c 10 (by decide)) $$ HP HO HSC HposS HposS1 HSB; iintro ⟨HO, HSC, HposS, HposS1, HSB⟩
  iapply (step_wait_recv m K c 10 (by decide)) $$ HP HO HcR HposR HposR1 HL; iintro ⟨HO, HcR, HposR, HposR1, HL⟩
  iapply (step_wait_send m K c 11 (by decide)) $$ HP HO HSC HposS HposS1 HSB; iintro ⟨HO, HSC, HposS, HposS1, HSB⟩
  iapply (step_wait_recv m K c 11 (by decide)) $$ HP HO HcR HposR HposR1 HL; iintro ⟨HO, HcR, HposR, HposR1, HL⟩
  iapply (step_wait_send m K c 12 (by decide)) $$ HP HO HSC HposS HposS1 HSB; iintro ⟨HO, HSC, HposS, HposS1, HSB⟩
  iapply (step_wait_recv m K c 12 (by decide)) $$ HP HO HcR HposR HposR1 HL; iintro ⟨HO, HcR, HposR, HposR1, HL⟩
  iapply (step_wait_send m K c 13 (by decide)) $$ HP HO HSC HposS HposS1 HSB; iintro ⟨HO, HSC, HposS, HposS1, HSB⟩
  iapply (step_wait_recv m K c 13 (by decide)) $$ HP HO HcR HposR HposR1 HL; iintro ⟨HO, HcR, HposR, HposR1, HL⟩
  iapply (step_wait_send m K c 14 (by decide)) $$ HP HO HSC HposS HposS1 HSB; iintro ⟨HO, HSC, HposS, HposS1, HSB⟩
  iapply (step_wait_recv m K c 14 (by decide)) $$ HP HO HcR HposR HposR1 HL; iintro ⟨HO, HcR, HposR, HposR1, HL⟩

  ihave Hrest0 := (ofEq (show (srcPts c 0 (shrRest 15) (statsC m c) : sProp 𝕄) = ((Memref.whole cc0_scratch2 : Memref sig .tc .vmem S2x2x2048 .bf16).view.loc (c : Thread nD τ) ↦[(srcM 0).view.set]{shrRest 15} statsC m c) from rfl)) $$ Hrest0
  iapply (wp_load 𝒱₀ (c : Thread nD τ) none Set.univ (m := (Memref.whole cc0_scratch2 : Memref sig .tc .vmem S2x2x2048 .bf16)) (load_half 0 0 rfl)) $$ Hrest0; iintro Hrest0
  simp only [own0_eq m c]
  ihave Hrest0 := (ofEq (show ((View.loc (c : Thread nD τ) (View.whole cc0_scratch2) ↦[(srcM 0).view.set]{shrRest 15} statsC m c) : sProp 𝕄) = srcPts c 0 (shrRest 15) (statsC m c) from rfl)) $$ Hrest0
  ihave HL := (Landed_half m c).1 $$ HL
  ihave HG := (landed_half m c 0).1 $$ HL
  iapply (wp_load 𝒱₀ (c : Thread nD τ) none Set.univ (m := (Memref.whole cc0_scratch3 : Memref sig .tc .vmem S15x2x2x2048 .bf16)) (gath_load_set 0 0 rfl).le) $$ HG; iintro HG
  simp only [gat0_eq m c]
  ihave HL := (landed_half m c 0).2 $$ HG
  ihave HL := (Landed_half m c).2 $$ HL
  iapply (wp_load 𝒱₀ (c : Thread nD τ) none Set.univ (m := (Memref.whole cc0_scratch0 : Memref sig .tc .vmem S2x2048x512 .bf16)) (Finset.subset_univ _)) $$ Hxb; iintro Hxb
  simp only [xb0_eq m c]
  iapply (wp_load 𝒱₀ (c : Thread nD τ) none Set.univ (m := (Memref.whole cc0_scratch1 : Memref sig .tc .vmem S2x2x1024x512 .bf16)) (Finset.subset_univ _)) $$ Hob; iintro Hob
  iapply (wp_store 𝒱₀ (c : Thread nD τ) none Set.univ (m := (Memref.whole cc0_scratch1 : Memref sig .tc .vmem S2x2x1024x512 .bf16)) (r := (Rect.unit (s := S2x2x1024x512) ![0, 0, 0, 0] S1x2x1024x512.size inb_S2x2x1024x512_S1x2x1024x512_0_0_0_0)) (Mk := Finset.univ) (Finset.subset_univ _)) $$ Hob; iintro Hob
  ihave Hob2 := (obuf_split (F := F) c _).1 $$ Hob
  icases Hob2 with ⟨Hob0, Hob1⟩
  ihave Hv2 := (mainv_split (F := F) c _).1 $$ Hv1
  icases Hv2 with ⟨Hv0, Hv1⟩
  ihave HtO := (ofEq (bigSep_univ_two _)) $$ HtOut
  icases HtO with ⟨HtO0, HtO1⟩
  iapply (step_copy_out m K c 0 _ (m ((c : Thread nD τ).loc main_v1)) (copy_hfs0 m c f1)) $$ HP Hob0 Hv0 HtO0; iintro HcO0

  iapply (step_wait_send m K c 15 (by decide)) $$ HP HO HSC HposS HposS1 HSB; iintro ⟨HO, HSC, HposS, HposS1, HSB⟩
  iapply (step_wait_recv m K c 15 (by decide)) $$ HP HO HcR HposR HposR1 HL; iintro ⟨HO, HcR, HposR, HposR1, HL⟩
  iapply (step_wait_send m K c 16 (by decide)) $$ HP HO HSC HposS HposS1 HSB; iintro ⟨HO, HSC, HposS, HposS1, HSB⟩
  iapply (step_wait_recv m K c 16 (by decide)) $$ HP HO HcR HposR HposR1 HL; iintro ⟨HO, HcR, HposR, HposR1, HL⟩
  iapply (step_wait_send m K c 17 (by decide)) $$ HP HO HSC HposS HposS1 HSB; iintro ⟨HO, HSC, HposS, HposS1, HSB⟩
  iapply (step_wait_recv m K c 17 (by decide)) $$ HP HO HcR HposR HposR1 HL; iintro ⟨HO, HcR, HposR, HposR1, HL⟩
  iapply (step_wait_send m K c 18 (by decide)) $$ HP HO HSC HposS HposS1 HSB; iintro ⟨HO, HSC, HposS, HposS1, HSB⟩
  iapply (step_wait_recv m K c 18 (by decide)) $$ HP HO HcR HposR HposR1 HL; iintro ⟨HO, HcR, HposR, HposR1, HL⟩
  iapply (step_wait_send m K c 19 (by decide)) $$ HP HO HSC HposS HposS1 HSB; iintro ⟨HO, HSC, HposS, HposS1, HSB⟩
  iapply (step_wait_recv m K c 19 (by decide)) $$ HP HO HcR HposR HposR1 HL; iintro ⟨HO, HcR, HposR, HposR1, HL⟩
  iapply (step_wait_send m K c 20 (by decide)) $$ HP HO HSC HposS HposS1 HSB; iintro ⟨HO, HSC, HposS, HposS1, HSB⟩
  iapply (step_wait_recv m K c 20 (by decide)) $$ HP HO HcR HposR HposR1 HL; iintro ⟨HO, HcR, HposR, HposR1, HL⟩
  iapply (step_wait_send m K c 21 (by decide)) $$ HP HO HSC HposS HposS1 HSB; iintro ⟨HO, HSC, HposS, HposS1, HSB⟩
  iapply (step_wait_recv m K c 21 (by decide)) $$ HP HO HcR HposR HposR1 HL; iintro ⟨HO, HcR, HposR, HposR1, HL⟩
  iapply (step_wait_send m K c 22 (by decide)) $$ HP HO HSC HposS HposS1 HSB; iintro ⟨HO, HSC, HposS, HposS1, HSB⟩
  iapply (step_wait_recv m K c 22 (by decide)) $$ HP HO HcR HposR HposR1 HL; iintro ⟨HO, HcR, HposR, HposR1, HL⟩
  iapply (step_wait_send m K c 23 (by decide)) $$ HP HO HSC HposS HposS1 HSB; iintro ⟨HO, HSC, HposS, HposS1, HSB⟩
  iapply (step_wait_recv m K c 23 (by decide)) $$ HP HO HcR HposR HposR1 HL; iintro ⟨HO, HcR, HposR, HposR1, HL⟩
  iapply (step_wait_send m K c 24 (by decide)) $$ HP HO HSC HposS HposS1 HSB; iintro ⟨HO, HSC, HposS, HposS1, HSB⟩
  iapply (step_wait_recv m K c 24 (by decide)) $$ HP HO HcR HposR HposR1 HL; iintro ⟨HO, HcR, HposR, HposR1, HL⟩
  iapply (step_wait_send m K c 25 (by decide)) $$ HP HO HSC HposS HposS1 HSB; iintro ⟨HO, HSC, HposS, HposS1, HSB⟩
  iapply (step_wait_recv m K c 25 (by decide)) $$ HP HO HcR HposR HposR1 HL; iintro ⟨HO, HcR, HposR, HposR1, HL⟩
  iapply (step_wait_send m K c 26 (by decide)) $$ HP HO HSC HposS HposS1 HSB; iintro ⟨HO, HSC, HposS, HposS1, HSB⟩
  iapply (step_wait_recv m K c 26 (by decide)) $$ HP HO HcR HposR HposR1 HL; iintro ⟨HO, HcR, HposR, HposR1, HL⟩
  iapply (step_wait_send m K c 27 (by decide)) $$ HP HO HSC HposS HposS1 HSB; iintro ⟨HO, HSC, HposS, HposS1, HSB⟩
  iapply (step_wait_recv m K c 27 (by decide)) $$ HP HO HcR HposR HposR1 HL; iintro ⟨HO, HcR, HposR, HposR1, HL⟩
  iapply (step_wait_send m K c 28 (by decide)) $$ HP HO HSC HposS HposS1 HSB; iintro ⟨HO, HSC, HposS, HposS1, HSB⟩
  iapply (step_wait_recv m K c 28 (by decide)) $$ HP HO HcR HposR HposR1 HL; iintro ⟨HO, HcR, HposR, HposR1, HL⟩
  iapply (step_wait_send m K c 29 (by decide)) $$ HP HO HSC HposS HposS1 HSB; iintro ⟨HO, HSC, HposS, HposS1, HSB⟩
  iapply (step_wait_recv m K c 29 (by decide)) $$ HP HO HcR HposR HposR1 HL; iintro ⟨HO, HcR, HposR, HposR1, HL⟩

  ihave Hrest1 := (ofEq (show (srcPts c 1 (shrRest 15) (statsC m c) : sProp 𝕄) = ((Memref.whole cc0_scratch2 : Memref sig .tc .vmem S2x2x2048 .bf16).view.loc (c : Thread nD τ) ↦[(srcM 1).view.set]{shrRest 15} statsC m c) from rfl)) $$ Hrest1
  iapply (wp_load 𝒱₀ (c : Thread nD τ) none Set.univ (m := (Memref.whole cc0_scratch2 : Memref sig .tc .vmem S2x2x2048 .bf16)) (load_half 1 1024 rfl)) $$ Hrest1; iintro Hrest1
  simp only [own1_eq m c]
  ihave Hrest1 := (ofEq (show ((View.loc (c : Thread nD τ) (View.whole cc0_scratch2) ↦[(srcM 1).view.set]{shrRest 15} statsC m c) : sProp 𝕄) = srcPts c 1 (shrRest 15) (statsC m c) from rfl)) $$ Hrest1
  ihave HL2 := (Landed_all m c).1 $$ HL
  icases HL2 with ⟨HL0, HL1⟩
  ihave HG := (landed_half m c 1).1 $$ HL1
  iapply (wp_load 𝒱₀ (c : Thread nD τ) none Set.univ (m := (Memref.whole cc0_scratch3 : Memref sig .tc .vmem S15x2x2x2048 .bf16)) (gath_load_set 1 1024 rfl).le) $$ HG; iintro HG
  simp only [gat1_eq m c]
  ihave HL1 := (landed_half m c 1).2 $$ HG
  ihave HL := (Landed_all m c).2 $$ [HL0 HL1]
  · isplitl [HL0]; · iexact HL0
    iexact HL1
  iapply (wp_load 𝒱₀ (c : Thread nD τ) none Set.univ (m := (Memref.whole cc0_scratch0 : Memref sig .tc .vmem S2x2048x512 .bf16)) (Finset.subset_univ _)) $$ Hxb; iintro Hxb
  simp only [xb1_eq m c]
  ihave Hob1 := (ofEq (show (osrcPts c 1 (((Memref.whole cc0_scratch1 : Memref sig .tc .vmem S2x2x1024x512 .bf16).access (Rect.unit (s := S2x2x1024x512) ![0, 0, 0, 0] S1x2x1024x512.size inb_S2x2x1024x512_S1x2x1024x512_0_0_0_0)).write (Elt F) f1 (k0_pay11 (mulV m c) (addV m c) (ownV m c 0) (gatV m c 0) (xbV m c 0)) Finset.univ) : sProp 𝕄) = ((Memref.whole cc0_scratch1 : Memref sig .tc .vmem S2x2x1024x512 .bf16).view.loc (c : Thread nD τ) ↦[(osrcM 1).view.set]{fullShare} (((Memref.whole cc0_scratch1 : Memref sig .tc .vmem S2x2x1024x512 .bf16).access (Rect.unit (s := S2x2x1024x512) ![0, 0, 0, 0] S1x2x1024x512.size inb_S2x2x1024x512_S1x2x1024x512_0_0_0_0)).write (Elt F) f1 (k0_pay11 (mulV m c) (addV m c) (ownV m c 0) (gatV m c 0) (xbV m c 0)) Finset.univ)) from rfl)) $$ Hob1
  iapply (wp_load 𝒱₀ (c : Thread nD τ) none Set.univ (m := (Memref.whole cc0_scratch1 : Memref sig .tc .vmem S2x2x1024x512 .bf16)) (oload_sub 1 1 rfl)) $$ Hob1; iintro Hob1
  iapply (wp_store 𝒱₀ (c : Thread nD τ) none Set.univ (m := (Memref.whole cc0_scratch1 : Memref sig .tc .vmem S2x2x1024x512 .bf16)) (r := (Rect.unit (s := S2x2x1024x512) ![1, 0, 0, 0] S1x2x1024x512.size inb_S2x2x1024x512_S1x2x1024x512_1_0_0_0)) (Mk := Finset.univ) (ostore_sub 1 1 rfl)) $$ Hob1; iintro Hob1
  ihave Hob1 := (ofEq (show ((((Memref.whole cc0_scratch1 : Memref sig .tc .vmem S2x2x1024x512 .bf16).access (Rect.unit (s := S2x2x1024x512) ![1, 0, 0, 0] S1x2x1024x512.size inb_S2x2x1024x512_S1x2x1024x512_1_0_0_0)).loc (c : Thread nD τ) ↦[(osrcM 1).view.set]{fullShare} (((Memref.whole cc0_scratch1 : Memref sig .tc .vmem S2x2x1024x512 .bf16).access (Rect.unit (s := S2x2x1024x512) ![1, 0, 0, 0] S1x2x1024x512.size inb_S2x2x1024x512_S1x2x1024x512_1_0_0_0)).write (Elt F) (((Memref.whole cc0_scratch1 : Memref sig .tc .vmem S2x2x1024x512 .bf16).access (Rect.unit (s := S2x2x1024x512) ![0, 0, 0, 0] S1x2x1024x512.size inb_S2x2x1024x512_S1x2x1024x512_0_0_0_0)).write (Elt F) f1 (k0_pay11 (mulV m c) (addV m c) (ownV m c 0) (gatV m c 0) (xbV m c 0)) Finset.univ) (k0_pay13 (mulV m c) (addV m c) (k0_pay12 (ownV m c 1)) (gatV m c 1) (xbV m c 1)) Finset.univ)) : sProp 𝕄) = osrcPts c 1 (((Memref.whole cc0_scratch1 : Memref sig .tc .vmem S2x2x1024x512 .bf16).access (Rect.unit (s := S2x2x1024x512) ![1, 0, 0, 0] S1x2x1024x512.size inb_S2x2x1024x512_S1x2x1024x512_1_0_0_0)).write (Elt F) (((Memref.whole cc0_scratch1 : Memref sig .tc .vmem S2x2x1024x512 .bf16).access (Rect.unit (s := S2x2x1024x512) ![0, 0, 0, 0] S1x2x1024x512.size inb_S2x2x1024x512_S1x2x1024x512_0_0_0_0)).write (Elt F) f1 (k0_pay11 (mulV m c) (addV m c) (ownV m c 0) (gatV m c 0) (xbV m c 0)) Finset.univ) (k0_pay13 (mulV m c) (addV m c) (k0_pay12 (ownV m c 1)) (gatV m c 1) (xbV m c 1)) Finset.univ) from rfl)) $$ Hob1
  iapply (step_copy_out m K c 1 _ (m ((c : Thread nD τ).loc main_v1)) (copy_hfs1 m c (((Memref.whole cc0_scratch1 : Memref sig .tc .vmem S2x2x1024x512 .bf16).access (Rect.unit (s := S2x2x1024x512) ![0, 0, 0, 0] S1x2x1024x512.size inb_S2x2x1024x512_S1x2x1024x512_0_0_0_0)).write (Elt F) f1 (k0_pay11 (mulV m c) (addV m c) (ownV m c 0) (gatV m c 0) (xbV m c 0)) Finset.univ))) $$ HP Hob1 Hv1 HtO1; iintro HcO1

  ihave HpO := (ofEq (bigSep_univ_two _)) $$ HposO
  icases HpO with ⟨HpO0, HpO1⟩
  iapply (step_wait_out m K c 0) $$ HP HO HcO0 HpO0; iintro ⟨HO, HpO0, Hv0, Hob0⟩
  iapply (step_wait_out m K c 1) $$ HP HO HcO1 HpO1; iintro ⟨HO, HpO1, Hv1, Hob1⟩

  rw [wp_ret]
  imod (phi1_intro m K c) $$ [HposS1 HposR1 HpO0 HpO1 Hv0 Hv1 Hob0 Hob1 Hxb Hrest0 Hrest1 HSB HL] with HΦ
  · isplitr; · iexact HP
    isplitl [HposS1]; · iexact HposS1
    isplitl [HposR1]; · iexact HposR1
    isplitl [HpO0]; · iexact HpO0
    isplitl [HpO1]; · iexact HpO1
    isplitl [Hv0]; · iexact Hv0
    isplitl [Hv1]; · iexact Hv1
    isplitl [Hob0]; · iexact Hob0
    isplitl [Hob1]; · iexact Hob1
    isplitl [Hxb]; · iexists _; iexact Hxb
    isplitl [Hrest0]; · iexact Hrest0
    isplitl [Hrest1]; · iexact Hrest1
    isplitl [HSB]; · iexact HSB
    iexact HL
  imodintro
  iapply Hk
  unfold bodyPost
  isplitl [HΦ]; · iexact HΦ
  isplitl [HO]; · iapply (owes_finish m c); iexact HO
  isplitl [Hx]
  · iexists _; isplitr; · (ipureintro; rfl)
    iexact Hx
  isplitl [Ht]
  · iexists _; isplitr; · (ipureintro; rfl)
    iexact Ht
  isplitl [Hws]
  · iexists _; isplitr; · (ipureintro; rfl)
    iexact Hws
  iexists _; isplitr; · (ipureintro; rfl)
  iexact Hwsh

end Cert.KernelIdeal.KP

end
-- ==== Proof.KObligation.lean ====
import proofs.«900762_g7700000000000763_dist_diff_adaln_cshard_i_b2_s2048_c512_v7x_i16_bf16_1_alg».proof.Proof.Body

noncomputable section

namespace Cert.KernelIdeal.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in

def bodyPre' (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

set_option maxRecDepth 40000 in

theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole main_v1) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6) (fun _ => bodyPost m c)
  unfold bodyPre' Φ₀ start
  iintro ⟨⟨⟨⟨%K, Hg⟩, Hcr, Hlev⟩, Hb0, Hb1, Hb2, Hb3, Hv⟩, Ho, Hw0, Hw1, Hw2, Hw3⟩
  iapply (sound_body m K c fun _ => bodyPost m c)
  unfold bodyPre bufs₀
  isplitr []
  · isplitl [Hg Hcr Hlev Hb0 Hb1 Hb2 Hb3 Hv]
    · isplitl [Hg]; · iexact Hg
      isplitl [Hcr]; · iexact Hcr
      isplitl [Hlev]; · iexact Hlev
      isplitl [Hb0]; · iexact Hb0
      isplitl [Hb1]; · iexact Hb1
      isplitl [Hb2]; · iexact Hb2
      isplitl [Hb3]; · iexact Hb3
      iexact Hv
    isplitl [Ho]; · iexact Ho
    isplitl [Hw0]; · iexact Hw0
    isplitl [Hw1]; · iexact Hw1
    isplitl [Hw2]; · iexact Hw2
    iexact Hw3
  · iintro H; iexact H

end Cert.KernelIdeal.KP

end
-- ==== Proof.KRun.lean ====
import proofs.«900762_g7700000000000763_dist_diff_adaln_cshard_i_b2_s2048_c512_v7x_i16_bf16_1_alg».proof.Proof.KLaunch
import proofs.«900762_g7700000000000763_dist_diff_adaln_cshard_i_b2_s2048_c512_v7x_i16_bf16_1_alg».proof.Proof.KObligation

noncomputable section

namespace Cert.KernelIdeal.KP

open Cert.KernelIdeal Cert.KernelIdeal.Gen
open Idealize.ShloMosaic
open Idealize.ShloMosaic.TcCoe
open Idealize.SL.Sem

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m ρ (body_obligation m)

end Cert.KernelIdeal.KP

end
-- ==== Proof.RefSpec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![2, 2048, 8192]⟩
abbrev ST : Shape := ⟨2, ![2, 128]⟩
abbrev SW : Shape := ⟨2, ![128, 8192]⟩

def rowLen : EReal := Ideal.ofBits .f32 0x46000000#32

def eps : EReal := Ideal.ofBits .f32 0x3727C5AC#32

def one : EReal := Ideal.ofBits .f32 0x3F800000#32

def mean (x : SX.Idx → EReal) (b : Fin 2) (s : Fin 2048) : EReal :=
  Ideal.div (∑ j : Fin 8192, x (ix3 b s j)) rowLen

def var (x : SX.Idx → EReal) (b : Fin 2) (s : Fin 2048) : EReal :=
  Ideal.div (∑ j : Fin 8192, (x (ix3 b s j) - mean x b s) * (x (ix3 b s j) - mean x b s)) rowLen

def proj (t : ST.Idx → EReal) (w : SW.Idx → EReal) (b : Fin 2) (j : Fin 8192) : EReal :=
  ∑ k : Fin 128, t (ix2 b k) * w (ix2 k j)

def refAt (x : SX.Idx → EReal) (t : ST.Idx → EReal) (ws wsh : SW.Idx → EReal) (b : Fin 2) (s : Fin 2048) (j : Fin 8192) : EReal :=
  Ideal.div (x (ix3 b s j) - mean x b s) (Ideal.sqrt (var x b s + eps)) * (one + proj t ws b j) + proj t wsh b j

def refOut (x : SX.Idx → EReal) (t : ST.Idx → EReal) (ws wsh : SW.Idx → EReal) : SX.Idx → EReal :=
  fun i => refAt x t ws wsh (i 0) (i 1) (i 2)

theorem refOut_ix3 (x : SX.Idx → EReal) (t : ST.Idx → EReal) (ws wsh : SW.Idx → EReal) (b : Fin 2) (s : Fin 2048) (j : Fin 8192) :
    refOut x t ws wsh (ix3 b s j) = refAt x t ws wsh b s j := rfl

end Cert.Spec

end
-- ==== Proof.KSpec.lean ====
import Idealize.ShloMosaic.PureOps.Ideal
import Idealize.ShloMosaic.Lib.ValueIdx
import proofs.«900762_g7700000000000763_dist_diff_adaln_cshard_i_b2_s2048_c512_v7x_i16_bf16_1_alg».proof.Proof.RefSpec

noncomputable section

namespace Cert.Spec

open Idealize.ShloMosaic Idealize.ShloMosaic.ValueIdx
open scoped BigOperators

abbrev SXb : Shape := ⟨3, ![2, 2048, 512]⟩

abbrev SWb : Shape := ⟨2, ![128, 512]⟩

def kSum (x : Fin 16 → SXb.Idx → EReal) (b : Fin 2) (s : Fin 2048) : EReal :=
  ∑ d : Fin 16, ∑ j : Fin 512, x d (ix3 b s j)

def kSumSq (x : Fin 16 → SXb.Idx → EReal) (b : Fin 2) (s : Fin 2048) : EReal :=
  ∑ d : Fin 16, ∑ j : Fin 512, x d (ix3 b s j) * x d (ix3 b s j)

def kMean (x : Fin 16 → SXb.Idx → EReal) (b : Fin 2) (s : Fin 2048) : EReal :=
  Ideal.div (kSum x b s) (Ideal.ofBits .f32 0x46000000#32)

def kInv (x : Fin 16 → SXb.Idx → EReal) (b : Fin 2) (s : Fin 2048) : EReal :=
  Ideal.rsqrt (Ideal.div (kSumSq x b s) (Ideal.ofBits .f32 0x46000000#32) - kMean x b s * kMean x b s
    + Ideal.ofBits .f32 0x3727C5AC#32)

def kCol (t : ST.Idx → EReal) (w : SWb.Idx → EReal) (b : Fin 2) (j : Fin 512) : EReal :=
  ∑ k : Fin 128, t (ix2 b k) * w (ix2 k j)

def kOut (x : Fin 16 → SXb.Idx → EReal) (t : ST.Idx → EReal) (ws wsh : SWb.Idx → EReal) (c : Fin 16) :
    SXb.Idx → EReal := fun i =>
  ((x c i - kMean x (i 0) (i 1)) * kInv x (i 0) (i 1))
      * (Ideal.ofBits .f32 0x3F800000#32 + kCol t ws (i 0) (i 2))
    + kCol t wsh (i 0) (i 2)

end Cert.Spec

end
-- ==== Proof.KPay.lean ====
import Idealize.ShloMosaic.Lib.ValueIdx
import Idealize.ShloMosaic.Lib.ValueLayout
import Idealize.ShloMosaic.Lib.Pipeline.Value
import Idealize.ShloMosaic.PureOps.Ideal.Laws
import proofs.«900762_g7700000000000763_dist_diff_adaln_cshard_i_b2_s2048_c512_v7x_i16_bf16_1_alg».proof.Proof.Gen.KernelIdeal.Skeleton
import proofs.«900762_g7700000000000763_dist_diff_adaln_cshard_i_b2_s2048_c512_v7x_i16_bf16_1_alg».proof.Proof.KSpec
import Mathlib.Algebra.BigOperators.Fin
import Mathlib.Algebra.Group.Units.Equiv
import Mathlib.Algebra.Group.Fin.Basic

noncomputable section

namespace Cert.KernelIdeal.KPay

open Idealize.ShloMosaic Idealize.ShloMosaic.ValueIdx Cert.KernelIdeal Cert.Spec
open scoped BigOperators

theorem sum_devices {M : Type*} [AddCommMonoid M] (f : Fin 16 → M) (c : Fin 16) :
    f c + ∑ k : Fin 15, f ⟨(c.val + 15 - k.val) % 16, Nat.mod_lt _ (by decide)⟩ = ∑ d : Fin 16, f d := by
  rw [← Equiv.sum_comp (Equiv.subLeft c) f, Fin.sum_univ_succ (fun m : Fin 16 => f (Equiv.subLeft c m))]
  refine congrArg₂ (· + ·) (congrArg f ?_) (Finset.sum_congr rfl fun k _ => congrArg f (Fin.ext ?_))
  · show c = c - 0
    rw [sub_zero]
  · show (c.val + 15 - k.val) % 16 = (c - k.succ).val
    rw [Fin.sub_def]
    show _ = ((16 - (k.succ).val) + c.val) % 16
    rw [Fin.val_succ]
    have := k.isLt
    congr 1
    omega

theorem rowSum_apply (v : FVec Ideal S2x1024x512 .f32) (b : Fin 2) (s : Fin 1024) :
    multiReduction (F := Ideal) .add [2] S2x1024 v 0x00000000#32 Facts₀.reduces_S2x1024x512_S2x1024 (.inl rfl) rfl (ix2 b s)
      = ∑ j : Fin 512, v (ix3 b s j) := by
  refine (Ideal.multiReduction_add_single v 0x00000000#32 Facts₀.reduces_S2x1024x512_S2x1024 (.inl rfl) rfl (ix2 b s)).trans ?_
  refine Finset.sum_congr rfl fun k _ => congrArg v ?_
  funext a
  match a with
  | ⟨0, _⟩ => rfl
  | ⟨1, _⟩ => rfl
  | ⟨2, _⟩ => rfl

theorem pay2_apply (v199 : Vec Ideal S2x1024x512 .f32) (b : Fin 2) (s : Fin 1024) :
    Gen.k0_pay2 (F := Ideal) v199 (ix3 (0 : Fin 1) b s) = ∑ j : Fin 512, v199 (ix3 b s j) := by
  unfold Gen.k0_pay2 Gen.k0_pay1
  refine (shapeCast_ab_1ab_apply _ _ 0 b s).trans ?_
  refine (rowSum_apply _ b s).trans ?_
  rw [shapeCast_self]

theorem pay3_apply (v199 : Vec Ideal S2x1024x512 .f32) (b : Fin 2) (s : Fin 1024) :
    Gen.k0_pay3 (F := Ideal) v199 (ix3 (0 : Fin 1) b s) = ∑ j : Fin 512, v199 (ix3 b s j) * v199 (ix3 b s j) := by
  unfold Gen.k0_pay3 Gen.k0_pay1
  refine (shapeCast_ab_1ab_apply _ _ 0 b s).trans ?_
  refine (rowSum_apply _ b s).trans ?_
  rw [shapeCast_self]
  rfl

theorem pay4_eq (v512 : Vec Ideal S2x1024x512 .f32) : Gen.k0_pay4 (F := Ideal) v512 = v512 := by
  unfold Gen.k0_pay4
  exact shapeCast_self _ _

theorem pay5_apply (v512 : Vec Ideal S2x1024x512 .f32) (b : Fin 2) (s : Fin 1024) :
    Gen.k0_pay5 (F := Ideal) v512 (ix2 b s) = ∑ j : Fin 512, v512 (ix3 b s j) := by
  unfold Gen.k0_pay5
  refine (rowSum_apply _ b s).trans ?_
  rw [pay4_eq]

theorem pay6_apply (v515 : FVec Ideal S2x1024 .bf16) (b : Fin 2) (s : Fin 1024) :
    Gen.k0_pay6 (F := Ideal) v515 (ix3 (0 : Fin 1) b s) = v515 (ix2 b s) := by
  unfold Gen.k0_pay6
  exact shapeCast_ab_1ab_apply _ _ 0 b s

theorem pay7_apply (v513 : FVec Ideal S2x1024x512 .f32) (b : Fin 2) (s : Fin 1024) :
    Gen.k0_pay7 (F := Ideal) v513 (ix3 (0 : Fin 1) b s) = ∑ j : Fin 512, v513 (ix3 b s j) * v513 (ix3 b s j) := by
  unfold Gen.k0_pay7
  refine (shapeCast_ab_1ab_apply _ _ 0 b s).trans ?_
  refine (rowSum_apply _ b s).trans ?_
  rfl

theorem pay10_apply (v841 : Vec Ideal S2x2048x512 .f32) (i : S2x2048x512.Idx) :
    Gen.k0_pay10 (F := Ideal) v841 i = v841 i := by
  unfold Gen.k0_pay10
  rw [shapeCast_self, shapeCast_self]
  rfl

theorem matmul_apply (A : FVec Ideal S2x128 .f32) (B : FVec Ideal S128x512 .f32) (b : Fin 2) (j : Fin 512) :
    matmul (F := Ideal) dot_S2x128_S128x512_S2x512_1_0_0_1_n_n none A B (constant S2x512 .f32 0x00000000#32) (ix2 b j)
      = ∑ k : Fin 128, A (ix2 b k) * B (ix2 k j) := by
  show FloatOps.matmul dot_S2x128_S128x512_S2x512_1_0_0_1_n_n none A B (constant S2x512 .f32 0x00000000#32) (ix2 b j) = _
  rw [Ideal.matmul_constant_zero_apply,
    ← Equiv.sum_comp (contrEquiv1 dot_S2x128_S128x512_S2x512_1_0_0_1_n_n 128 rfl rfl).symm]
  refine Finset.sum_congr rfl fun k _ => ?_
  have ck := contrEquiv1_symm_val dot_S2x128_S128x512_S2x512_1_0_0_1_n_n 128 rfl rfl k
  have hl : dot_S2x128_S128x512_S2x512_1_0_0_1_n_n.lhsIdx (ix2 b j)
      ((contrEquiv1 dot_S2x128_S128x512_S2x512_1_0_0_1_n_n 128 rfl rfl).symm k) = ix2 b k := by
    funext ax; apply Fin.ext
    match ax with
    | ⟨0, _⟩ => simp [DotDims.lhsIdx, dot_S2x128_S128x512_S2x512_1_0_0_1_n_n]; rfl
    | ⟨1, _⟩ => simp [DotDims.lhsIdx, dot_S2x128_S128x512_S2x512_1_0_0_1_n_n]; exact ck
  have hr : dot_S2x128_S128x512_S2x512_1_0_0_1_n_n.rhsIdx (ix2 b j)
      ((contrEquiv1 dot_S2x128_S128x512_S2x512_1_0_0_1_n_n 128 rfl rfl).symm k) = ix2 k j := by
    funext ax; apply Fin.ext
    match ax with
    | ⟨0, _⟩ => simp [DotDims.rhsIdx, dot_S2x128_S128x512_S2x512_1_0_0_1_n_n]; exact ck
    | ⟨1, _⟩ => simp [DotDims.rhsIdx, dot_S2x128_S128x512_S2x512_1_0_0_1_n_n]; rfl
  rw [hl, hr]

theorem shapeCast_2x512_2x1x512_apply {α : Type} (x : S2x512.Idx → α) (h : S2x512.ShapeCasts S2x1x512)
    (b : Fin 2) (u : Fin 1) (j : Fin 512) : shapeCast S2x1x512 x h (ix3 b u j) = x (ix2 b j) :=
  shapeCast_apply x h _ _ (by
    have hu : u.val = 0 := by omega
    rw [Shape.rowMajor_val_three, Shape.rowMajor_val_two]
    show b.val * 512 + j.val = (b.val * 1 + u.val) * 512 + j.val
    rw [hu, Nat.mul_one, Nat.add_zero])

theorem pay8_apply (v825 : Vec Ideal S2x128 .f32) (v827 : Vec Ideal S128x512 .f32) (b : Fin 2) (j : Fin 512) :
    Gen.k0_pay8 (F := Ideal) v825 v827 (ix3 b (0 : Fin 1) j)
      = Ideal.ofBits .f32 0x3F800000#32 + ∑ k : Fin 128, v825 (ix2 b k) * v827 (ix2 k j) := by
  unfold Gen.k0_pay8
  refine (addf_apply _ _ _).trans (congrArg₂ (· + ·) rfl ?_)
  refine (shapeCast_2x512_2x1x512_apply _ _ b 0 j).trans ?_
  refine (matmul_apply _ _ b j).trans ?_
  rw [shapeCast_self, shapeCast_self]

theorem pay9_apply (v830 : Vec Ideal S2x128 .f32) (v832 : Vec Ideal S128x512 .f32) (b : Fin 2) (j : Fin 512) :
    Gen.k0_pay9 (F := Ideal) v830 v832 (ix3 b (0 : Fin 1) j) = ∑ k : Fin 128, v830 (ix2 b k) * v832 (ix2 k j) := by
  unfold Gen.k0_pay9
  refine (truncf_apply (φ := .f32) (ψ := .bf16) _ _ _).trans ?_
  refine (shapeCast_2x512_2x1x512_apply _ _ b 0 j).trans ?_
  refine (matmul_apply _ _ b j).trans ?_
  rw [shapeCast_self, shapeCast_self]

theorem gatherSum_apply (v : FVec Ideal S15x2x2x1024 .f32) (p b : Fin 2) (s : Fin 1024) :
    multiReduction (F := Ideal) .add [0] S2x2x1024 v 0x00000000#32 Facts₀.reduces_S15x2x2x1024_S2x2x1024 (.inl rfl) rfl (ix3 p b s)
      = ∑ k : Fin 15, v (ix4 k p b s) := by
  refine (Ideal.multiReduction_add_single v 0x00000000#32 Facts₀.reduces_S15x2x2x1024_S2x2x1024 (.inl rfl) rfl (ix3 p b s)).trans ?_
  refine Finset.sum_congr rfl fun k _ => congrArg v ?_
  funext a
  match a with
  | ⟨0, _⟩ => rfl
  | ⟨1, _⟩ => rfl
  | ⟨2, _⟩ => rfl
  | ⟨3, _⟩ => rfl

theorem slice0_apply {α : Type} (v : S2x2x1024.Idx → α) (u : Fin 1) (b : Fin 2) (s : Fin 1024) :
    extractStridedSlice S1x2x1024 ![0, 0, 0] v Facts₀.slices_S2x2x1024_o0_0_0_S1x2x1024 (ix3 u b s) = v (ix3 (0 : Fin 2) b s) :=
  extractStridedSlice_apply _ v _ _ _ fun a => by
    have hu : u.val = 0 := by omega
    match a with
    | ⟨0, _⟩ => show 0 = 0 + u.val; omega
    | ⟨1, _⟩ => show b.val = 0 + b.val; omega
    | ⟨2, _⟩ => show s.val = 0 + s.val; omega

theorem slice1_apply {α : Type} (v : S2x2x1024.Idx → α) (u : Fin 1) (b : Fin 2) (s : Fin 1024) :
    extractStridedSlice S1x2x1024 ![1, 0, 0] v Facts₀.slices_S2x2x1024_o1_0_0_S1x2x1024 (ix3 u b s) = v (ix3 (1 : Fin 2) b s) :=
  extractStridedSlice_apply _ v _ _ _ fun a => by
    have hu : u.val = 0 := by omega
    match a with
    | ⟨0, _⟩ => show 1 = 1 + u.val; omega
    | ⟨1, _⟩ => show b.val = 0 + b.val; omega
    | ⟨2, _⟩ => show s.val = 0 + s.val; omega

theorem col_apply {α : Type} (v : S2x1024.Idx → α) (b : Fin 2) (s : Fin 1024) (j : Fin 512) :
    broadcastTo S2x1024x512 (shapeCast S2x1024x1 v Facts₀.shapeCasts_S2x1024_S2x1024x1) Facts₀.broadcasts_S2x1024x1_S2x1024x512 (ix3 b s j)
      = v (ix2 b s) := by
  refine (broadcastTo_apply _ _ (ix3 b s j) (ix3 b s (0 : Fin 1)) fun a => ?_).trans ?_
  · match a with
    | ⟨0, _⟩ => rfl
    | ⟨1, _⟩ => rfl
    | ⟨2, _⟩ => rfl
  · exact shapeCast_apply v _ _ _ (by
      rw [Shape.rowMajor_val_three, Shape.rowMajor_val_two]
      show b.val * 1024 + s.val = (b.val * 1024 + s.val) * 1 + 0
      omega)

theorem rowB_apply {α : Type} (v : S2x1x512.Idx → α) (b : Fin 2) (s : Fin 1024) (j : Fin 512) :
    broadcastTo S2x1024x512 v Facts₀.broadcasts_S2x1x512_S2x1024x512 (ix3 b s j) = v (ix3 b (0 : Fin 1) j) :=
  broadcastTo_apply _ _ (ix3 b s j) (ix3 b (0 : Fin 1) j) fun a => by
    match a with
    | ⟨0, _⟩ => rfl
    | ⟨1, _⟩ => rfl
    | ⟨2, _⟩ => rfl

def totOf (own : S2x2x1024.Idx → EReal) (g : S15x2x2x1024.Idx → EReal) (p b : Fin 2) (s : Fin 1024) : EReal :=
  own (ix3 p b s) + ∑ k : Fin 15, g (ix4 k p b s)

def meanOf (own : S2x2x1024.Idx → EReal) (g : S15x2x2x1024.Idx → EReal) (b : Fin 2) (s : Fin 1024) : EReal :=
  Ideal.div (totOf own g 0 b s) (Ideal.ofBits .f32 0x46000000#32)

def invOf (own : S2x2x1024.Idx → EReal) (g : S15x2x2x1024.Idx → EReal) (b : Fin 2) (s : Fin 1024) : EReal :=
  Ideal.rsqrt (Ideal.div (totOf own g 1 b s) (Ideal.ofBits .f32 0x46000000#32) - meanOf own g b s * meanOf own g b s
    + Ideal.ofBits .f32 0x3727C5AC#32)

theorem tot_apply (own : FVec Ideal S2x2x1024 .f32) (g : Vec Ideal S15x2x2x1024 .bf16) (p b : Fin 2) (s : Fin 1024) :
    addf own (multiReduction (F := Ideal) .add [0] S2x2x1024 (extf .f32 g Facts₀.bitsLt_bf16_f32) 0x00000000#32
        Facts₀.reduces_S15x2x2x1024_S2x2x1024 (.inl rfl) rfl) (ix3 p b s)
      = totOf own g p b s :=
  (addf_apply _ _ _).trans (congrArg₂ (· + ·) rfl (gatherSum_apply _ p b s))

theorem meanVec_apply (tot : FVec Ideal S2x2x1024 .f32) (b : Fin 2) (s : Fin 1024) :
    divf (shapeCast S2x1024 (extractStridedSlice S1x2x1024 ![0, 0, 0] tot Facts₀.slices_S2x2x1024_o0_0_0_S1x2x1024)
        Facts₀.shapeCasts_S1x2x1024_S2x1024) (broadcast S2x1024 (Scalar.ofBits (F := Ideal) .f32 0x46000000#32)) (ix2 b s)
      = Ideal.div (tot (ix3 (0 : Fin 2) b s)) (Ideal.ofBits .f32 0x46000000#32) := by
  refine (divf_apply _ _ _).trans (congrArg₂ Ideal.div ?_ rfl)
  exact (shapeCast_1ab_ab_apply _ _ b s).trans (slice0_apply _ 0 b s)

theorem meanSqVec_apply (tot : FVec Ideal S2x2x1024 .f32) (b : Fin 2) (s : Fin 1024) :
    divf (shapeCast S2x1024 (extractStridedSlice S1x2x1024 ![1, 0, 0] tot Facts₀.slices_S2x2x1024_o1_0_0_S1x2x1024)
        Facts₀.shapeCasts_S1x2x1024_S2x1024) (broadcast S2x1024 (Scalar.ofBits (F := Ideal) .f32 0x46000000#32)) (ix2 b s)
      = Ideal.div (tot (ix3 (1 : Fin 2) b s)) (Ideal.ofBits .f32 0x46000000#32) := by
  refine (divf_apply _ _ _).trans (congrArg₂ Ideal.div ?_ rfl)
  exact (shapeCast_1ab_ab_apply _ _ b s).trans (slice1_apply _ 0 b s)

theorem pay13_struct (v838 v840 : FVec Ideal S2x1x512 .bf16) (v1248 : FVec Ideal S2x2x1024 .f32)
    (v1249 : Vec Ideal S15x2x2x1024 .bf16) (v1268 : Vec Ideal S2x1024x512 .bf16) (b : Fin 2) (s : Fin 1024) (j : Fin 512) :
    Gen.k0_pay13 (F := Ideal) v838 v840 v1248 v1249 v1268 (ix4 (0 : Fin 1) b s j)
      = ((v1268 (ix3 b s j) - meanOf v1248 v1249 b s) * invOf v1248 v1249 b s) * v838 (ix3 b (0 : Fin 1) j)
        + v840 (ix3 b (0 : Fin 1) j) := by
  unfold Gen.k0_pay13
  refine (shapeCast_abc_1abc_apply _ _ 0 b s j).trans ?_
  refine (addf_apply _ _ _).trans (congrArg₂ (· + ·) ?_ (rowB_apply v840 b s j))
  refine (mulf_apply _ _ _).trans (congrArg₂ (· * ·) ?_ (rowB_apply v838 b s j))
  refine (mulf_apply _ _ _).trans (congrArg₂ (· * ·) ?_ ?_)
  · refine (subf_apply _ _ _).trans (congrArg₂ (· - ·) rfl ?_)
    refine (col_apply _ b s j).trans ?_
    refine (truncf_apply (φ := .f32) (ψ := .bf16) _ _ _).trans ?_
    refine (meanVec_apply _ b s).trans ?_
    exact congrArg₂ Ideal.div (tot_apply v1248 v1249 0 b s) rfl
  · refine (col_apply _ b s j).trans ?_
    refine (truncf_apply (φ := .f32) (ψ := .bf16) _ _ _).trans ?_
    refine congrArg Ideal.rsqrt ?_
    refine (addf_apply _ _ _).trans (congrArg₂ (· + ·) ?_ rfl)
    refine (subf_apply _ _ _).trans (congrArg₂ (· - ·) ?_ ?_)
    · refine (meanSqVec_apply _ b s).trans ?_
      exact congrArg₂ Ideal.div (tot_apply v1248 v1249 1 b s) rfl
    · refine (mulf_apply _ _ _).trans ?_
      have hm := (meanVec_apply _ b s).trans (congrArg₂ Ideal.div (tot_apply v1248 v1249 0 b s) rfl)
      exact congrArg₂ (· * ·) hm hm

abbrev srcDev (c : Fin 16) (k : Fin 15) : Fin 16 := ⟨(c.val + 15 - k.val) % 16, Nat.mod_lt _ (by decide)⟩

theorem norm_eq_kOut (x : Fin 16 → SXb.Idx → EReal) (t : ST.Idx → EReal) (ws wsh : SWb.Idx → EReal) (c : Fin 16)
    (σ : Fin 1024 → Fin 2048)
    (v838 v840 : FVec Ideal S2x1x512 .bf16) (own : FVec Ideal S2x2x1024 .f32)
    (g : Vec Ideal S15x2x2x1024 .bf16) (xb : Vec Ideal S2x1024x512 .bf16)
    (h838 : ∀ (b : Fin 2) (j : Fin 512), v838 (ix3 b (0 : Fin 1) j) = Ideal.ofBits .f32 0x3F800000#32 + kCol t ws b j)
    (h840 : ∀ (b : Fin 2) (j : Fin 512), v840 (ix3 b (0 : Fin 1) j) = kCol t wsh b j)
    (hown : ∀ (b : Fin 2) (s : Fin 1024),
      own (ix3 (0 : Fin 2) b s) = ∑ j : Fin 512, x c (ix3 b (σ s) j)
      ∧ own (ix3 (1 : Fin 2) b s) = ∑ j : Fin 512, x c (ix3 b (σ s) j) * x c (ix3 b (σ s) j))
    (hgat : ∀ (k : Fin 15) (b : Fin 2) (s : Fin 1024),
      g (ix4 k (0 : Fin 2) b s) = ∑ j : Fin 512, x (srcDev c k) (ix3 b (σ s) j)
      ∧ g (ix4 k (1 : Fin 2) b s) = ∑ j : Fin 512, x (srcDev c k) (ix3 b (σ s) j) * x (srcDev c k) (ix3 b (σ s) j))
    (hxb : ∀ (b : Fin 2) (s : Fin 1024) (j : Fin 512), xb (ix3 b s j) = x c (ix3 b (σ s) j))
    (b : Fin 2) (s : Fin 1024) (j : Fin 512) :
    Gen.k0_pay13 (F := Ideal) v838 v840 own g xb (ix4 (0 : Fin 1) b s j) = kOut x t ws wsh c (ix3 b (σ s) j) := by
  have htot0 : totOf own g 0 b s = kSum x b (σ s) := by
    unfold totOf kSum
    rw [(hown b s).1, Finset.sum_congr rfl fun k _ => (hgat k b s).1]
    exact sum_devices (fun d => ∑ j : Fin 512, x d (ix3 b (σ s) j)) c
  have htot1 : totOf own g 1 b s = kSumSq x b (σ s) := by
    unfold totOf kSumSq
    rw [(hown b s).2, Finset.sum_congr rfl fun k _ => (hgat k b s).2]
    exact sum_devices (fun d => ∑ j : Fin 512, x d (ix3 b (σ s) j) * x d (ix3 b (σ s) j)) c
  have hmean : meanOf own g b s = kMean x b (σ s) := by
    unfold meanOf kMean
    rw [htot0]
  have hinv : invOf own g b s = kInv x b (σ s) := by
    unfold invOf kInv
    rw [htot1, hmean]
  rw [pay13_struct, hmean, hinv, h838, h840, hxb]
  rfl

theorem pay11_eq_pay13 (v838 v840 : FVec Ideal S2x1x512 .bf16) (v1027 : Vec Ideal S2x2x1024 .bf16)
    (v1029 : Vec Ideal S15x2x2x1024 .bf16) (v1048 : Vec Ideal S2x1024x512 .bf16) :
    Gen.k0_pay11 (F := Ideal) v838 v840 v1027 v1029 v1048
      = Gen.k0_pay13 (F := Ideal) v838 v840 (extf .f32 v1027 Facts₀.bitsLt_bf16_f32) v1029 v1048 := rfl

end Cert.KernelIdeal.KPay

end
-- ==== Proof.KOut.lean ====
import proofs.«900762_g7700000000000763_dist_diff_adaln_cshard_i_b2_s2048_c512_v7x_i16_bf16_1_alg».proof.Proof.Proto
import proofs.«900762_g7700000000000763_dist_diff_adaln_cshard_i_b2_s2048_c512_v7x_i16_bf16_1_alg».proof.Proof.KPay

noncomputable section

namespace Cert.KernelIdeal.KPay

open Idealize.ShloMosaic Idealize.ShloMosaic.ValueIdx Idealize.SL.Sem Cert.KernelIdeal Cert.Spec
open scoped BigOperators

variable (m : (ℓ : Loc nD τ sig) → Buf (Elt Ideal) ℓ)

abbrev Xarr (d : Dev nD) : SXb.Idx → EReal := m ((d.tc : Thread nD τ).loc main_arg0)

abbrev Tarr (c : Dev nD) : ST.Idx → EReal := m ((c.tc : Thread nD τ).loc main_arg1)

abbrev WSarr (c : Dev nD) : SWb.Idx → EReal := m ((c.tc : Thread nD τ).loc main_arg2)

abbrev WSHarr (c : Dev nD) : SWb.Idx → EReal := m ((c.tc : Thread nD τ).loc main_arg3)

theorem xstg_apply (c : Dev nD) (i : SXb.Idx) :
    (KP.xstg (F := Ideal) m c : SXb.Idx → EReal) i = Xarr m c i := by
  unfold KP.xstg
  show Xarr m c _ = _
  refine congrArg _ ?_
  funext a; apply Fin.ext
  match a with
  | ⟨0, _⟩ => show 0 * 2 + 1 * (i 0).val = (i 0).val; omega
  | ⟨1, _⟩ => show 0 * 2048 + 1 * (i 1).val = (i 1).val; omega
  | ⟨2, _⟩ => show 0 * 512 + 1 * (i 2).val = (i 2).val; omega

theorem tstg_apply (c : Dev nD) (i : ST.Idx) :
    (KP.tstg (F := Ideal) m c : ST.Idx → EReal) i = Tarr m c i := by
  unfold KP.tstg
  show Tarr m c _ = _
  refine congrArg _ ?_
  funext a; apply Fin.ext
  match a with
  | ⟨0, _⟩ => show 0 * 2 + 1 * (i 0).val = (i 0).val; omega
  | ⟨1, _⟩ => show 0 * 128 + 1 * (i 1).val = (i 1).val; omega

theorem wsstg_apply (c : Dev nD) (i : SWb.Idx) :
    (KP.wsstg (F := Ideal) m c : SWb.Idx → EReal) i = WSarr m c i := by
  unfold KP.wsstg
  show WSarr m c _ = _
  refine congrArg _ ?_
  funext a; apply Fin.ext
  match a with
  | ⟨0, _⟩ => show 0 * 128 + 1 * (i 0).val = (i 0).val; omega
  | ⟨1, _⟩ => show 0 * 512 + 1 * (i 1).val = (i 1).val; omega

theorem wshstg_apply (c : Dev nD) (i : SWb.Idx) :
    (KP.wshstg (F := Ideal) m c : SWb.Idx → EReal) i = WSHarr m c i := by
  unfold KP.wshstg
  show WSHarr m c _ = _
  refine congrArg _ ?_
  funext a; apply Fin.ext
  match a with
  | ⟨0, _⟩ => show 0 * 128 + 1 * (i 0).val = (i 0).val; omega
  | ⟨1, _⟩ => show 0 * 512 + 1 * (i 1).val = (i 1).val; omega

abbrev halfRow (h : Fin 2) (s : Fin 1024) : Fin 2048 := ⟨1024 * h.val + s.val, by have := h.isLt; omega⟩

theorem xh_apply (c : Dev nD) (h : Fin 2) (b : Fin 2) (s : Fin 1024) (j : Fin 512) :
    KP.xh (F := Ideal) m c h (ix3 b s j) = Xarr m c (ix3 b (halfRow h s) j) := by
  refine Eq.trans ?_ (xstg_apply m c (ix3 b (halfRow h s) j))
  unfold KP.xh
  show (KP.xstg (F := Ideal) m c : SXb.Idx → EReal) _ = _
  refine congrArg _ ?_
  funext a; apply Fin.ext
  match a with
  | ⟨0, _⟩ => show 0 + 1 * b.val = b.val; omega
  | ⟨1, _⟩ => show 1024 * h.val + 1 * s.val = 1024 * h.val + s.val; omega
  | ⟨2, _⟩ => show 0 + 1 * j.val = j.val; omega

theorem ownV_apply (c : Dev nD) (h : Fin 2) (a b : Fin 2) (s : Fin 1024) :
    KP.ownV (F := Ideal) m c h (ix3 a b s) = KP.statsC (F := Ideal) m c (ix3 a b (halfRow h s)) := by
  unfold KP.ownV
  show KP.statsC (F := Ideal) m c _ = _
  refine congrArg _ ?_
  funext ax; apply Fin.ext
  match ax with
  | ⟨0, _⟩ => show 0 + 1 * a.val = a.val; omega
  | ⟨1, _⟩ => show 0 + 1 * b.val = b.val; omega
  | ⟨2, _⟩ => show 1024 * h.val + 1 * s.val = 1024 * h.val + s.val; omega

theorem gatV_apply (c : Dev nD) (h : Fin 2) (k : Fin 15) (a b : Fin 2) (s : Fin 1024) :
    KP.gatV (F := Ideal) m c h (ix4 k a b s) = KP.gathC (F := Ideal) m c (ix4 k a b (halfRow h s)) := by
  unfold KP.gatV
  show KP.gathC (F := Ideal) m c _ = _
  refine congrArg _ ?_
  funext ax; apply Fin.ext
  match ax with
  | ⟨0, _⟩ => show 0 + 1 * k.val = k.val; omega
  | ⟨1, _⟩ => show 0 + 1 * a.val = a.val; omega
  | ⟨2, _⟩ => show 0 + 1 * b.val = b.val; omega
  | ⟨3, _⟩ => show 1024 * h.val + 1 * s.val = 1024 * h.val + s.val; omega

theorem xbV_apply (c : Dev nD) (h : Fin 2) (b : Fin 2) (s : Fin 1024) (j : Fin 512) :
    KP.xbV (F := Ideal) m c h (ix3 b s j) = Xarr m c (ix3 b (halfRow h s) j) := by
  refine Eq.trans ?_ ((pay10_apply (KP.xstg (F := Ideal) m c) (ix3 b (halfRow h s) j)).trans (xstg_apply m c _))
  unfold KP.xbV
  show Gen.k0_pay10 (F := Ideal) (KP.xstg (F := Ideal) m c) _ = _
  refine congrArg _ ?_
  funext a; apply Fin.ext
  match a with
  | ⟨0, _⟩ => show 0 + 1 * b.val = b.val; omega
  | ⟨1, _⟩ => show 1024 * h.val + 1 * s.val = 1024 * h.val + s.val; omega
  | ⟨2, _⟩ => show 0 + 1 * j.val = j.val; omega

theorem half_cases (h : Fin 2) : h = 0 ∨ h = 1 :=
  match h with
  | ⟨0, _⟩ => .inl rfl
  | ⟨1, _⟩ => .inr rfl

-- An entry of the statistics in the first half of the rows is the first-half payload for its kind (sum, or sum of squares).
theorem statsC_lo (d : Dev nD) (a b : Fin 2) (s : Fin 1024) :
    KP.statsC (F := Ideal) m d (ix3 a b (halfRow 0 s))
      = (if a.val = 0 then Gen.k0_pay2 (F := Ideal) (KP.xh (F := Ideal) m d 0) else Gen.k0_pay3 (F := Ideal) (KP.xh (F := Ideal) m d 0))
          (ix3 (0 : Fin 1) b s) := by
  unfold KP.statsC
  have hs : ((ix3 a b (halfRow 0 s) : S2x2x2048.Idx) 2).val < 1024 := by
    show 1024 * 0 + s.val < 1024
    omega
  rw [dif_pos hs]
  exact congrArg (fun r => (if a.val = 0 then Gen.k0_pay2 (F := Ideal) (KP.xh (F := Ideal) m d 0) else Gen.k0_pay3 (F := Ideal) (KP.xh (F := Ideal) m d 0))
    (ix3 (0 : Fin 1) b r)) (Fin.ext (by show 1024 * 0 + s.val = s.val; omega))

theorem statsC_hi (d : Dev nD) (a b : Fin 2) (s : Fin 1024) :
    KP.statsC (F := Ideal) m d (ix3 a b (halfRow 1 s))
      = (if a.val = 0 then Gen.k0_pay6 (F := Ideal) (Gen.k0_pay5 (F := Ideal) (KP.xh (F := Ideal) m d 1))
          else Gen.k0_pay7 (F := Ideal) (Gen.k0_pay4 (F := Ideal) (KP.xh (F := Ideal) m d 1))) (ix3 (0 : Fin 1) b s) := by
  unfold KP.statsC
  have hs : ¬ ((ix3 a b (halfRow 1 s) : S2x2x2048.Idx) 2).val < 1024 := by
    show ¬ (1024 * 1 + s.val < 1024)
    omega
  rw [dif_neg hs]
  exact congrArg (fun r => (if a.val = 0 then Gen.k0_pay6 (F := Ideal) (Gen.k0_pay5 (F := Ideal) (KP.xh (F := Ideal) m d 1))
    else Gen.k0_pay7 (F := Ideal) (Gen.k0_pay4 (F := Ideal) (KP.xh (F := Ideal) m d 1))) (ix3 (0 : Fin 1) b r))
    (Fin.ext (by show 1024 * 1 + s.val - 1024 = s.val; omega))

theorem statsC_sum (d : Dev nD) (h : Fin 2) (b : Fin 2) (s : Fin 1024) :
    KP.statsC (F := Ideal) m d (ix3 (0 : Fin 2) b (halfRow h s))
      = ∑ j : Fin 512, Xarr m d (ix3 b (halfRow h s) j) := by
  rcases half_cases h with rfl | rfl
  · rw [statsC_lo, if_pos (by decide)]
    refine (pay2_apply _ b s).trans ?_
    exact Finset.sum_congr rfl fun j _ => xh_apply m d 0 b s j
  · rw [statsC_hi, if_pos (by decide)]
    refine (pay6_apply _ b s).trans ?_
    refine (pay5_apply _ b s).trans ?_
    exact Finset.sum_congr rfl fun j _ => xh_apply m d 1 b s j

theorem statsC_sq (d : Dev nD) (h : Fin 2) (b : Fin 2) (s : Fin 1024) :
    KP.statsC (F := Ideal) m d (ix3 (1 : Fin 2) b (halfRow h s))
      = ∑ j : Fin 512, Xarr m d (ix3 b (halfRow h s) j)
          * Xarr m d (ix3 b (halfRow h s) j) := by
  rcases half_cases h with rfl | rfl
  · rw [statsC_lo, if_neg (by decide)]
    refine (pay3_apply _ b s).trans ?_
    exact Finset.sum_congr rfl fun j _ => by rw [xh_apply m d 0 b s j]
  · rw [statsC_hi, if_neg (by decide), pay4_eq]
    refine (pay7_apply _ b s).trans ?_
    exact Finset.sum_congr rfl fun j _ => by rw [xh_apply m d 1 b s j]

theorem gathC_apply (c : Dev nD) (k : Fin 15) (a b : Fin 2) (r : Fin 2048) :
    KP.gathC (F := Ideal) m c (ix4 k a b r) = KP.statsC (F := Ideal) m (srcDev c k) (ix3 a b r) := rfl

theorem mulV_apply (c : Dev nD) (b : Fin 2) (j : Fin 512) :
    KP.mulV (F := Ideal) m c (ix3 b (0 : Fin 1) j)
      = Ideal.ofBits .f32 0x3F800000#32
        + kCol (Tarr m c) (WSarr m c) b j := by
  unfold KP.mulV kCol
  refine (pay8_apply _ _ b j).trans (congrArg₂ (· + ·) rfl ?_)
  exact Finset.sum_congr rfl fun k _ => by rw [tstg_apply m c (ix2 b k), wsstg_apply m c (ix2 k j)]

theorem addV_apply (c : Dev nD) (b : Fin 2) (j : Fin 512) :
    KP.addV (F := Ideal) m c (ix3 b (0 : Fin 1) j)
      = kCol (Tarr m c) (WSHarr m c) b j := by
  unfold KP.addV kCol
  refine (pay9_apply _ _ b j).trans ?_
  exact Finset.sum_congr rfl fun k _ => by rw [tstg_apply m c (ix2 b k), wshstg_apply m c (ix2 k j)]

theorem half_eq_kOut (c : Dev nD) (h : Fin 2) (own : FVec Ideal S2x2x1024 .f32)
    (hown : ∀ i, own i = KP.ownV (F := Ideal) m c h i) (b : Fin 2) (s : Fin 1024) (j : Fin 512) :
    Gen.k0_pay13 (F := Ideal) (KP.mulV (F := Ideal) m c) (KP.addV (F := Ideal) m c) own (KP.gatV (F := Ideal) m c h)
        (KP.xbV (F := Ideal) m c h) (ix4 (0 : Fin 1) b s j)
      = kOut (fun d : Dev nD => (m ((d.tc : Thread nD τ).loc main_arg0) : SXb.Idx → EReal))
          (m ((c.tc : Thread nD τ).loc main_arg1)) (m ((c.tc : Thread nD τ).loc main_arg2))
          (m ((c.tc : Thread nD τ).loc main_arg3)) c (ix3 b (halfRow h s) j) :=
  norm_eq_kOut (Xarr m) (Tarr m c) (WSarr m c) (WSHarr m c) c (halfRow h) _ _ own _ _
    (mulV_apply m c) (addV_apply m c)
    (fun b s => ⟨(hown _).trans ((ownV_apply m c h 0 b s).trans (statsC_sum m c h b s)),
      (hown _).trans ((ownV_apply m c h 1 b s).trans (statsC_sq m c h b s))⟩)
    (fun k b s => ⟨(gatV_apply m c h k 0 b s).trans ((gathC_apply m c k 0 b _).trans (statsC_sum m (srcDev c k) h b s)),
      (gatV_apply m c h k 1 b s).trans ((gathC_apply m c k 1 b _).trans (statsC_sq m (srcDev c k) h b s))⟩)
    (fun b s j => xbV_apply m c h b s j) b s j

theorem outC_eq_kOut (c : Dev nD) :
    (KP.outC (F := Ideal) m c : SXb.Idx → EReal)
      = kOut (fun d : Dev nD => (m ((d.tc : Thread nD τ).loc main_arg0) : SXb.Idx → EReal))
          (m ((c.tc : Thread nD τ).loc main_arg1)) (m ((c.tc : Thread nD τ).loc main_arg2))
          (m ((c.tc : Thread nD τ).loc main_arg3)) c := by
  funext i
  obtain ⟨b, r, j, rfl⟩ : ∃ (b : Fin 2) (r : Fin 2048) (j : Fin 512), i = ix3 b r j := ⟨i 0, i 1, i 2, eq_ix3 i⟩
  unfold KP.outC
  by_cases hr : r.val < 1024
  · have hc : ((ix3 b r j : S2x2048x512.Idx) 1).val < 1024 := hr
    rw [dif_pos hc, pay11_eq_pay13]
    refine (half_eq_kOut m c 0 _ (fun _ => rfl) b ⟨r.val, hr⟩ j).trans ?_
    refine congrArg (fun q => kOut _ _ _ _ c (ix3 b q j)) (Fin.ext ?_)
    show 1024 * 0 + r.val = r.val
    omega
  · have hc : ¬ ((ix3 b r j : S2x2048x512.Idx) 1).val < 1024 := hr
    rw [dif_neg hc]
    refine (half_eq_kOut m c 1 _ (fun _ => rfl) b ⟨r.val - 1024, by have := r.isLt; omega⟩ j).trans ?_
    refine congrArg (fun q => kOut _ _ _ _ c (ix3 b q j)) (Fin.ext ?_)
    show 1024 * 1 + (r.val - 1024) = r.val
    omega

end Cert.KernelIdeal.KPay

end
-- ==== Proof.Finite.lean ====
import proofs.«900762_g7700000000000763_dist_diff_adaln_cshard_i_b2_s2048_c512_v7x_i16_bf16_1_alg».proof.Defs
import Idealize.ShloMosaic.Lib.ReduceAll
import Idealize.ShloMosaic.Lib.ValueIdx
import Idealize.ShloMosaic.PureOps.Ideal
import Idealize.ShloMosaic.PureOps.Ideal.Laws

namespace Cert.Spec.Finite

open Idealize.ShloMosaic Idealize.SL.Sem

instance : Subsingleton Cert.Pre_finite_inputs_Kernel.S_.Idx := ⟨fun a b => funext fun d => d.elim0⟩

theorem word_inf : Ideal.ofBits .f32 0x7F800000#32 = (⊤ : EReal) := by
  simp [Ideal.ofBits, Ideal.ieee]

theorem real_of_abs_lt_inf (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [word_inf] at h
  induction x using EReal.rec with
  | bot => exact absurd h (by simp [Ideal.cmpf_def, Ideal.cmp, Ideal.hostAbsf_def, Ideal.absf_def])
  | coe r => exact ⟨r, rfl⟩
  | top => exact absurd h (by simp [Ideal.cmpf_def, Ideal.cmp, Ideal.hostAbsf_def, Ideal.absf_def])

open Cert.Pre_finite_inputs_Kernel in

theorem fn_finite [Cert.Pre_finite_inputs_Kernel.Facts]
    (a0 : FVec Ideal S2x2048x512 .f32) (a1 : FVec Ideal S2x128 .f32) (a2 a3 : FVec Ideal S128x512 .f32)
    (h : Cert.Pre_finite_inputs_Kernel.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs_Kernel.fn, Cert.Pre_finite_inputs_Kernel.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)

theorem real_of_pre [hPre_finite_inputs_Kernel : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)
        : (⟨3, ![2, 2048, 512]⟩ : Shape).Idx → EReal) i = (r : EReal))
    ∧ (∀ i, ∃ r : ℝ, (m ((c.tc : Thread Cert.KernelIdeal.nD Cert.KernelIdeal.τ).loc Cert.KernelIdeal.main_arg1)
        : (⟨2, ![2, 128]⟩ : Shape).Idx → EReal) i = (r : EReal))
    ∧ (∀ i, ∃ r : ℝ, (m ((c.tc : Thread Cert.KernelIdeal.nD Cert.KernelIdeal.τ).loc Cert.KernelIdeal.main_arg2)
        : (⟨2, ![128, 512]⟩ : Shape).Idx → EReal) i = (r : EReal))
    ∧ (∀ i, ∃ r : ℝ, (m ((c.tc : Thread Cert.KernelIdeal.nD Cert.KernelIdeal.τ).loc Cert.KernelIdeal.main_arg3)
        : (⟨2, ![128, 512]⟩ : Shape).Idx → EReal) i = (r : EReal)) :=
  fn_finite _ _ _ _ (h c)

end Cert.Spec.Finite
-- ==== Proof.Law.lean ====
import Idealize.ShloMosaic.PureOps.Ideal
import Mathlib.Algebra.BigOperators.Field
import Mathlib.Algebra.BigOperators.Ring.Finset
import Mathlib.Logic.Equiv.Fin.Basic
import Mathlib.Tactic.Ring
import Mathlib.Tactic.FieldSimp
import Mathlib.Tactic.Positivity
import Mathlib.Tactic.NormNum

noncomputable section

namespace Cert.Spec.Law

open Idealize.ShloMosaic
open scoped BigOperators

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem word_8192 : Ideal.ofBits .f32 0x46000000#32 = ((8192 : ℝ) : EReal) := by
  simp [Ideal.ofBits, Ideal.ieee, -EReal.coe_mul]; norm_num

theorem word_eps : ∃ e : ℝ, 0 < e ∧ Ideal.ofBits .f32 0x3727C5AC#32 = (e : EReal) := by
  refine ⟨_, ?_, by simp only [Ideal.ofBits, Ideal.ieee]; simp [-EReal.coe_mul]; rfl⟩
  positivity

theorem div_real (a : ℝ) {n : ℝ} (hn : n ≠ 0) : Ideal.div (a : EReal) (n : EReal) = ((a / n : ℝ) : EReal) := by
  rw [Ideal.div_coe hn, ← EReal.coe_mul, mul_one_div]

theorem sqrt_real {y : ℝ} (hy : 0 ≤ y) : Ideal.sqrt (y : EReal) = ((Real.sqrt y : ℝ) : EReal) := by
  rw [Ideal.sqrt_coe, if_neg (not_lt.mpr hy)]

theorem rsqrt_real {y : ℝ} (hy : 0 < y) : Ideal.rsqrt (y : EReal) = (((Real.sqrt y)⁻¹ : ℝ) : EReal) := by
  rw [Ideal.rsqrt_coe, if_neg (not_lt.mpr hy.le), if_neg hy.ne']

theorem div_sqrt_eq_mul_rsqrt (a : ℝ) {y : ℝ} (hy : 0 < y) :
    Ideal.div (a : EReal) (Ideal.sqrt (y : EReal)) = (a : EReal) * Ideal.rsqrt (y : EReal) := by
  have hs : Real.sqrt y ≠ 0 := (Real.sqrt_pos.mpr hy).ne'
  rw [sqrt_real hy.le, rsqrt_real hy, div_real a hs, ← EReal.coe_mul, div_eq_mul_inv]

theorem centred_moment {ι : Type*} [Fintype ι] (x : ι → ℝ) {n : ℝ} (hn : n ≠ 0) (hcard : (Fintype.card ι : ℝ) = n) :
    (∑ i, (x i - (∑ i, x i) / n) * (x i - (∑ i, x i) / n)) / n
      = (∑ i, x i * x i) / n - ((∑ i, x i) / n) * ((∑ i, x i) / n) := by
  have e : ∀ i, (x i - (∑ i, x i) / n) * (x i - (∑ i, x i) / n)
      = x i * x i - 2 * ((∑ i, x i) / n) * x i + ((∑ i, x i) / n) * ((∑ i, x i) / n) := fun i => by ring
  simp only [e]
  rw [Finset.sum_add_distrib, Finset.sum_sub_distrib, ← Finset.mul_sum, Finset.sum_const, Finset.card_univ,
    nsmul_eq_mul, hcard]
  field_simp
  ring

theorem centred_moment_nonneg {ι : Type*} [Fintype ι] (x : ι → ℝ) (μ : ℝ) {n : ℝ} (hn : 0 < n) :
    0 ≤ (∑ i, (x i - μ) * (x i - μ)) / n :=
  div_nonneg (Finset.sum_nonneg fun i _ => mul_self_nonneg _) hn.le

theorem sum_blocks {M : Type*} [AddCommMonoid M] (f : Fin 8192 → M) :
    ∑ J : Fin 8192, f J = ∑ d : Fin 16, ∑ j : Fin 512, f ⟨d.val * 512 + j.val, by omega⟩ := by
  rw [← (finProdFinEquiv (m := 16) (n := 512)).sum_comp f, Fintype.sum_prod_type]
  refine Finset.sum_congr rfl fun d _ => Finset.sum_congr rfl fun j _ => congrArg f (Fin.ext ?_)
  simp only [finProdFinEquiv_apply_val]
  omega

end Cert.Spec.Law

end
-- ==== Proof.Bridge.lean ====
import Idealize.ShloMosaic.PureOps.Ideal
import Idealize.ShloMosaic.Lib.ValueIdx
import Idealize.ShloMosaic.Lib.Layout
import proofs.«900762_g7700000000000763_dist_diff_adaln_cshard_i_b2_s2048_c512_v7x_i16_bf16_1_alg».proof.Proof.RefSpec
import proofs.«900762_g7700000000000763_dist_diff_adaln_cshard_i_b2_s2048_c512_v7x_i16_bf16_1_alg».proof.Proof.KSpec
import proofs.«900762_g7700000000000763_dist_diff_adaln_cshard_i_b2_s2048_c512_v7x_i16_bf16_1_alg».proof.Proof.Law

noncomputable section

namespace Cert.Spec

open Idealize.ShloMosaic Idealize.ShloMosaic.ValueIdx
open scoped BigOperators

theorem idx_x (h : Layout.Tiles SXb SX 2 16) (c : Fin 16) (b : Fin 2) (s : Fin 2048) (j : Fin 512) :
    h.idx c (ix3 b s j) = ix3 b s ⟨c.val * 512 + j.val, by omega⟩ := by
  funext a
  apply Fin.ext
  match a with
  | ⟨0, _⟩ => rfl
  | ⟨1, _⟩ => rfl
  | ⟨2, _⟩ => rfl

theorem idx_w (h : Layout.Tiles SWb SW 1 16) (c : Fin 16) (k : Fin 128) (j : Fin 512) :
    h.idx c (ix2 k j) = ix2 k ⟨c.val * 512 + j.val, by omega⟩ := by
  funext a
  apply Fin.ext
  match a with
  | ⟨0, _⟩ => rfl
  | ⟨1, _⟩ => rfl

theorem kCol_block (t : ST.Idx → EReal) (W : SW.Idx → EReal) (c : Fin 16) (b : Fin 2) (j : Fin 512) :
    kCol t (Layout.block SWb SW 1 16 c W) b j = proj t W b ⟨c.val * 512 + j.val, by omega⟩ := by
  unfold kCol proj
  simp only [Layout.block_apply, idx_w]

theorem kSum_blocks (xr : SX.Idx → ℝ) (b : Fin 2) (s : Fin 2048) :
    kSum (fun d => Layout.block SXb SX 2 16 d (fun i => (xr i : EReal))) b s
      = ((∑ J : Fin 8192, xr (ix3 b s J) : ℝ) : EReal) := by
  unfold kSum
  simp only [Layout.block_apply, idx_x]
  rw [Law.sum_blocks, Law.coe_sum]
  refine Finset.sum_congr rfl fun d _ => ?_
  rw [Law.coe_sum]

theorem kSumSq_blocks (xr : SX.Idx → ℝ) (b : Fin 2) (s : Fin 2048) :
    kSumSq (fun d => Layout.block SXb SX 2 16 d (fun i => (xr i : EReal))) b s
      = ((∑ J : Fin 8192, xr (ix3 b s J) * xr (ix3 b s J) : ℝ) : EReal) := by
  unfold kSumSq
  simp only [Layout.block_apply, idx_x, ← EReal.coe_mul]
  rw [Law.sum_blocks, Law.coe_sum]
  refine Finset.sum_congr rfl fun d _ => ?_
  rw [Law.coe_sum]

theorem mean_real (xr : SX.Idx → ℝ) (b : Fin 2) (s : Fin 2048) :
    mean (fun i => (xr i : EReal)) b s = (((∑ J : Fin 8192, xr (ix3 b s J)) / 8192 : ℝ) : EReal) := by
  unfold mean rowLen
  rw [Law.word_8192, ← Law.coe_sum, Law.div_real _ (by norm_num)]

theorem kMean_blocks (xr : SX.Idx → ℝ) (b : Fin 2) (s : Fin 2048) :
    kMean (fun d => Layout.block SXb SX 2 16 d (fun i => (xr i : EReal))) b s
      = (((∑ J : Fin 8192, xr (ix3 b s J)) / 8192 : ℝ) : EReal) := by
  unfold kMean
  rw [kSum_blocks, Law.word_8192, Law.div_real _ (by norm_num)]

theorem var_real (xr : SX.Idx → ℝ) (b : Fin 2) (s : Fin 2048) :
    var (fun i => (xr i : EReal)) b s
      = (((∑ J : Fin 8192, xr (ix3 b s J) * xr (ix3 b s J)) / 8192
          - ((∑ J : Fin 8192, xr (ix3 b s J)) / 8192) * ((∑ J : Fin 8192, xr (ix3 b s J)) / 8192) : ℝ) : EReal) := by
  unfold var rowLen
  simp only [mean_real, ← EReal.coe_sub, ← EReal.coe_mul]
  rw [← Law.coe_sum, Law.word_8192, Law.div_real _ (by norm_num),
    Law.centred_moment (fun J => xr (ix3 b s J)) (by norm_num) (by simp)]

theorem var_nonneg (xr : SX.Idx → ℝ) (b : Fin 2) (s : Fin 2048) :
    0 ≤ (∑ J : Fin 8192, xr (ix3 b s J) * xr (ix3 b s J)) / 8192
          - ((∑ J : Fin 8192, xr (ix3 b s J)) / 8192) * ((∑ J : Fin 8192, xr (ix3 b s J)) / 8192) := by
  have h := Law.centred_moment_nonneg (fun J => xr (ix3 b s J)) ((∑ J : Fin 8192, xr (ix3 b s J)) / 8192)
    (n := 8192) (by norm_num)
  rwa [Law.centred_moment (fun J => xr (ix3 b s J)) (by norm_num) (by simp)] at h

theorem kInv_blocks (xr : SX.Idx → ℝ) (b : Fin 2) (s : Fin 2048) (e : ℝ)
    (he : Ideal.ofBits .f32 0x3727C5AC#32 = (e : EReal)) :
    kInv (fun d => Layout.block SXb SX 2 16 d (fun i => (xr i : EReal))) b s
      = Ideal.rsqrt (((∑ J : Fin 8192, xr (ix3 b s J) * xr (ix3 b s J)) / 8192
          - ((∑ J : Fin 8192, xr (ix3 b s J)) / 8192) * ((∑ J : Fin 8192, xr (ix3 b s J)) / 8192) + e : ℝ) : EReal) := by
  unfold kInv
  rw [kSumSq_blocks, kMean_blocks, Law.word_8192, he, Law.div_real _ (by norm_num), ← EReal.coe_mul, ← EReal.coe_sub,
    ← EReal.coe_add]

theorem bridge (X : SX.Idx → EReal) (t : ST.Idx → EReal) (Ws Wsh : SW.Idx → EReal)
    (hX : ∀ i, ∃ r : ℝ, X i = (r : EReal)) (c : Fin 16) :
    kOut (fun d => Layout.block ⟨3, ![2, 2048, 512]⟩ ⟨3, ![2, 2048, 8192]⟩ 2 16 d X) t
        (Layout.block ⟨2, ![128, 512]⟩ ⟨2, ![128, 8192]⟩ 1 16 c Ws)
        (Layout.block ⟨2, ![128, 512]⟩ ⟨2, ![128, 8192]⟩ 1 16 c Wsh) c
      = Layout.block ⟨3, ![2, 2048, 512]⟩ ⟨3, ![2, 2048, 8192]⟩ 2 16 c (refOut X t Ws Wsh) := by
  choose xr hxr using hX
  obtain rfl : X = fun i => (xr i : EReal) := funext hxr
  obtain ⟨e, he0, he⟩ := Law.word_eps
  funext i
  obtain ⟨b, s, j, rfl⟩ : ∃ (b : Fin 2) (s : Fin 2048) (j : Fin 512), i = ix3 b s j := ⟨i 0, i 1, i 2, eq_ix3 i⟩
  have hy : 0 < (∑ J : Fin 8192, xr (ix3 b s J) * xr (ix3 b s J)) / 8192
      - ((∑ J : Fin 8192, xr (ix3 b s J)) / 8192) * ((∑ J : Fin 8192, xr (ix3 b s J)) / 8192) + e :=
    add_pos_of_nonneg_of_pos (var_nonneg xr b s) he0
  rw [Layout.block_apply, idx_x, refOut_ix3]
  show (((Layout.block SXb SX 2 16 c (fun i => (xr i : EReal))) (ix3 b s j)
          - kMean (fun d => Layout.block SXb SX 2 16 d (fun i => (xr i : EReal))) b s)
        * kInv (fun d => Layout.block SXb SX 2 16 d (fun i => (xr i : EReal))) b s)
      * (Ideal.ofBits .f32 0x3F800000#32 + kCol t (Layout.block SWb SW 1 16 c Ws) b j)
      + kCol t (Layout.block SWb SW 1 16 c Wsh) b j = _
  unfold refAt one eps
  rw [kMean_blocks, kInv_blocks xr b s e he, kCol_block, kCol_block, Layout.block_apply, idx_x, mean_real, var_real, he,
    ← EReal.coe_sub, ← EReal.coe_add, Law.div_sqrt_eq_mul_rsqrt _ hy]

theorem real_of_blocks (X : SX.Idx → EReal)
    (h : ∀ (d : Fin 16) (i : SXb.Idx), ∃ r : ℝ, (Layout.block ⟨3, ![2, 2048, 512]⟩ ⟨3, ![2, 2048, 8192]⟩ 2 16 d X) i = (r : EReal)) :
    ∀ i, ∃ r : ℝ, X i = (r : EReal) := by
  intro i
  obtain ⟨b, s, J, rfl⟩ : ∃ (b : Fin 2) (s : Fin 2048) (J : Fin 8192), i = ix3 b s J := ⟨i 0, i 1, i 2, eq_ix3 i⟩
  have hJ : J = ⟨(⟨J.val / 512, by omega⟩ : Fin 16).val * 512 + (⟨J.val % 512, by omega⟩ : Fin 512).val, by omega⟩ :=
    Fin.ext (by simp only; omega)
  obtain ⟨r, hr⟩ := h ⟨J.val / 512, by omega⟩ (ix3 b s ⟨J.val % 512, by omega⟩)
  rw [Layout.block_apply, idx_x, ← hJ] at hr
  exact ⟨r, hr⟩

end Cert.Spec

end
-- ==== Proof.Glue.lean ====
import proofs.«900762_g7700000000000763_dist_diff_adaln_cshard_i_b2_s2048_c512_v7x_i16_bf16_1_alg».proof.Defs
import proofs.«900762_g7700000000000763_dist_diff_adaln_cshard_i_b2_s2048_c512_v7x_i16_bf16_1_alg».proof.Proof.Finite
import proofs.«900762_g7700000000000763_dist_diff_adaln_cshard_i_b2_s2048_c512_v7x_i16_bf16_1_alg».proof.Proof.Bridge

noncomputable section

namespace Cert.Spec

open Idealize.ShloMosaic Idealize.SL.Sem

theorem kOut_eq_block [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 8192]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 8192]⟩ 1 16 c (m' (((0 : Dev Cert.ReferenceIdeal.nD).tc : Thread Cert.ReferenceIdeal.nD Cert.ReferenceIdeal.τ).loc Cert.ReferenceIdeal.main_arg3)))
    (c : Dev Cert.KernelIdeal.nD) :
    kOut (fun d : Dev Cert.KernelIdeal.nD => (m ((d.tc : Thread Cert.KernelIdeal.nD Cert.KernelIdeal.τ).loc Cert.KernelIdeal.main_arg0) : SXb.Idx → EReal))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) c
      = Layout.block ⟨3, ![2, 2048, 512]⟩ ⟨3, ![2, 2048, 8192]⟩ 2 16 c
          (refOut (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))
            (m' (((0 : Dev Cert.ReferenceIdeal.nD).tc : Thread Cert.ReferenceIdeal.nD Cert.ReferenceIdeal.τ).loc Cert.ReferenceIdeal.main_arg3))) := by
  have hX : ∀ i, ∃ r : ℝ, (m' (((0 : Dev Cert.ReferenceIdeal.nD).tc : Thread Cert.ReferenceIdeal.nD Cert.ReferenceIdeal.τ).loc Cert.ReferenceIdeal.main_arg0) : SX.Idx → EReal) i = (r : EReal) :=
    real_of_blocks _ fun d i => by
      rw [← (hagree d).1]
      exact (Finite.real_of_pre m hpre d).1 i
  have e0 : (fun d : Dev Cert.KernelIdeal.nD => (m ((d.tc : Thread Cert.KernelIdeal.nD Cert.KernelIdeal.τ).loc Cert.KernelIdeal.main_arg0) : SXb.Idx → EReal))
      = fun d => Layout.block ⟨3, ![2, 2048, 512]⟩ ⟨3, ![2, 2048, 8192]⟩ 2 16 d
          (m' (((0 : Dev Cert.ReferenceIdeal.nD).tc : Thread Cert.ReferenceIdeal.nD Cert.ReferenceIdeal.τ).loc Cert.ReferenceIdeal.main_arg0)) :=
    funext fun d => (hagree d).1
  rw [e0, (hagree c).2.1, (hagree c).2.2.1, (hagree c).2.2.2]
  exact bridge _ _ _ _ hX c

end Cert.Spec

end
-- ==== Proof.RefTerm.lean ====
import proofs.«900762_g7700000000000763_dist_diff_adaln_cshard_i_b2_s2048_c512_v7x_i16_bf16_1_alg».proof.Proof.Gen.ReferenceIdeal

noncomputable section

namespace Cert.ReferenceIdeal.RefTerm

open Cert.ReferenceIdeal Idealize.ShloMosaic
open Facts₀

variable {F : FTy → Type} [FloatOps F]

abbrev Rows (F : FTy → Type) : Type := (⟨S2x2048x1, .f32⟩ : BufTy).Contents (Elt F)

abbrev Full (F : FTy → Type) : Type := (⟨S2x2048x8192, .f32⟩ : BufTy).Contents (Elt F)

abbrev Cols (F : FTy → Type) : Type := (⟨S2x1x8192, .f32⟩ : BufTy).Contents (Elt F)

def rowConst (b : BitVec 32) : Rows F :=
  broadcastInDim S2x2048x1 ![] bcast_S_S2x2048x1 (constant (F := F) S_ .f32 b)

def rowSum (v : Full F) : Rows F :=
  broadcastInDim S2x2048x1 ![0, 1] bcast_S2x2048_S2x2048x1_0_1
    (Host.reduceAdd v (constant (F := F) S_ .f32 0x00000000#32) reducesTo_S2x2048x8192_S2x2048_d2 h_S_)

def spreadRows (r : Rows F) : Full F :=
  broadcastInDim S2x2048x8192 ![0, 1, 2] bcast_S2x2048x1_S2x2048x8192_0_1_2 r

def rowMean (x : Full F) : Rows F := Host.divf (rowSum x) (rowConst 0x46000000#32)

def centred (x : Full F) : Full F := subf x (spreadRows (rowMean x))

def count : (⟨S_, .f32⟩ : BufTy).Contents (Elt F) :=
  subf (constant (F := F) S_ .f32 0x46000000#32) (sitofp .f32 (constantI S_ 32 0#32))

def rowVar (x : Full F) : Rows F :=
  select (broadcastInDim S2x2048x1 ![] bcast_S_S2x2048x1 (cmpf .ogt (count (F := F)) (constant (F := F) S_ .f32 0x00000000#32)))
    (Host.divf (rowSum (mulf (centred x) (centred x))) (broadcastInDim S2x2048x1 ![] bcast_S_S2x2048x1 (count (F := F))))
    (rowConst 0x7FC00000#32)

def normed (x : Full F) : Full F :=
  Host.divf (centred x) (spreadRows (Host.sqrt (addf (rowVar x) (rowConst 0x3727C5AC#32))))

def colProj (t : (⟨S2x128, .f32⟩ : BufTy).Contents (Elt F)) (w : (⟨S128x8192, .f32⟩ : BufTy).Contents (Elt F)) : Cols F :=
  broadcastInDim S2x1x8192 ![0, 2] bcast_S2x8192_S2x1x8192_0_2 (Host.dotGeneral dot_S2x128_S128x8192_S2x8192_1_0_0_1_n_n none t w)

def spreadCols (c : Cols F) : Full F :=
  broadcastInDim S2x2048x8192 ![0, 1, 2] bcast_S2x1x8192_S2x2048x8192_0_1_2 c

def out (x : Full F) (t : (⟨S2x128, .f32⟩ : BufTy).Contents (Elt F)) (ws wsh : (⟨S128x8192, .f32⟩ : BufTy).Contents (Elt F)) :
    (⟨S2x2048x8192, .bf16⟩ : BufTy).Contents (Elt F) :=
  truncf .bf16
    (addf (mulf (normed x)
        (spreadCols (addf (broadcastInDim S2x1x8192 ![] bcast_S_S2x1x8192 (constant (F := F) S_ .f32 0x3F800000#32)) (colProj t ws))))
      (spreadCols (colProj t wsh)))
    bitsLt_bf16_f32

end Cert.ReferenceIdeal.RefTerm

end
-- ==== Proof.RefRun.lean ====
import proofs.«900762_g7700000000000763_dist_diff_adaln_cshard_i_b2_s2048_c512_v7x_i16_bf16_1_alg».proof.Proof.RefTerm
import Idealize.ShloMosaic.Lib.StableHlo.Run

noncomputable section

namespace Cert.ReferenceIdeal.RefRun

open Cert.ReferenceIdeal Cert.ReferenceIdeal.RefTerm Idealize.ShloMosaic Idealize.ShloMosaic.TcCoe Idealize.SL.Sem Idealize.ShloMosaic.StableHlo
open Facts₀

variable {F : FTy → Type} [FloatOps F]

abbrev ops : List (HloOp τ sig (Elt F)) :=
  [ StableHlo.nullary main_cst (constant S_ .f32 0x00000000#32),
    StableHlo.binary main_arg0 main_cst main_v0 ((fun x v => Host.reduceAdd x v reducesTo_S2x2048x8192_S2x2048_d2 h_S_) : (⟨S2x2048x8192, .f32⟩ : BufTy).Contents (Elt F) → (⟨S_, .f32⟩ : BufTy).Contents (Elt F) → (⟨S2x2048, .f32⟩ : BufTy).Contents (Elt F)),
    StableHlo.unary main_v0 main_v1 (broadcastInDim S2x2048x1 ![0, 1] bcast_S2x2048_S2x2048x1_0_1 : (⟨S2x2048, .f32⟩ : BufTy).Contents (Elt F) → (⟨S2x2048x1, .f32⟩ : BufTy).Contents (Elt F)),
    StableHlo.nullary main_cst_0 (constant S_ .f32 0x46000000#32),
    StableHlo.unary main_cst_0 main_v2 (broadcastInDim S2x2048x1 ![] bcast_S_S2x2048x1 : (⟨S_, .f32⟩ : BufTy).Contents (Elt F) → (⟨S2x2048x1, .f32⟩ : BufTy).Contents (Elt F)),
    StableHlo.binary main_v1 main_v2 main_v3 (Host.divf : (⟨S2x2048x1, .f32⟩ : BufTy).Contents (Elt F) → (⟨S2x2048x1, .f32⟩ : BufTy).Contents (Elt F) → (⟨S2x2048x1, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S2x2048x8192_S2x2048_d2 h_S_),
    StableHlo.TRef.unary main_call0.v0 main_call0.v1 (broadcastInDim S2x2048x1 ![0, 1] bcast_S2x2048_S2x2048x1_0_1),
    StableHlo.TRef.nullary main_call0.cst_0 (constant S_ .f32 0x46000000#32),
    StableHlo.TRef.unary main_call0.cst_0 main_call0.v2 (broadcastInDim S2x2048x1 ![] bcast_S_S2x2048x1),
    StableHlo.TRef.binary main_call0.v1 main_call0.v2 main_call0.v3 Host.divf,
    StableHlo.TRef.unary main_call0.v3 main_call0.v4 (broadcastInDim S2x2048x8192 ![0, 1, 2] bcast_S2x2048x1_S2x2048x8192_0_1_2),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S2x2048x8192_S2x2048_d2 h_S_),
    StableHlo.TRef.unary main_call0.v9 main_call0.v10 (broadcastInDim S2x2048x1 ![0, 1] bcast_S2x2048_S2x2048x1_0_1),
    StableHlo.TRef.unary main_call0.v8 main_call0.v11 (broadcastInDim S2x2048x1 ![] bcast_S_S2x2048x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2x2048x1 ![] bcast_S_S2x2048x1),
    StableHlo.TRef.ternary main_call0.v13 main_call0.v12 main_call0.call0.v1 main_call0.call0.v2 (fun p a b => select (broadcastInDim S2x2048x1 ![] bcast_S_S2x2048x1 p) a b),
    StableHlo.unary main_v3 main_v5 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    StableHlo.binary main_arg0 main_v5 main_v6 (subf : (⟨S2x2048x8192, .f32⟩ : BufTy).Contents (Elt F) → (⟨S2x2048x8192, .f32⟩ : BufTy).Contents (Elt F) → (⟨S2x2048x8192, .f32⟩ : BufTy).Contents (Elt F)),
    StableHlo.nullary main_cst_1 (constant S_ .f32 0x3727C5AC#32),
    StableHlo.unary main_cst_1 main_v7 (broadcastInDim S2x2048x1 ![] bcast_S_S2x2048x1 : (⟨S_, .f32⟩ : BufTy).Contents (Elt F) → (⟨S2x2048x1, .f32⟩ : BufTy).Contents (Elt F)),
    StableHlo.binary main_v4 main_v7 main_v8 (addf : (⟨S2x2048x1, .f32⟩ : BufTy).Contents (Elt F) → (⟨S2x2048x1, .f32⟩ : BufTy).Contents (Elt F) → (⟨S2x2048x1, .f32⟩ : BufTy).Contents (Elt F)),
    StableHlo.unary main_v8 main_v9 (Host.sqrt : (⟨S2x2048x1, .f32⟩ : BufTy).Contents (Elt F) → (⟨S2x2048x1, .f32⟩ : BufTy).Contents (Elt F)),
    StableHlo.unary main_v9 main_v10 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    StableHlo.binary main_v6 main_v10 main_v11 (Host.divf : (⟨S2x2048x8192, .f32⟩ : BufTy).Contents (Elt F) → (⟨S2x2048x8192, .f32⟩ : BufTy).Contents (Elt F) → (⟨S2x2048x8192, .f32⟩ : BufTy).Contents (Elt F)),
    StableHlo.binary main_arg1 main_arg2 main_v12 ((fun l r => Host.dotGeneral dot_S2x128_S128x8192_S2x8192_1_0_0_1_n_n none l r) : (⟨S2x128, .f32⟩ : BufTy).Contents (Elt F) → (⟨S128x8192, .f32⟩ : BufTy).Contents (Elt F) → (⟨S2x8192, .f32⟩ : BufTy).Contents (Elt F)),
    StableHlo.binary main_arg1 main_arg3 main_v13 ((fun l r => Host.dotGeneral dot_S2x128_S128x8192_S2x8192_1_0_0_1_n_n none l r) : (⟨S2x128, .f32⟩ : BufTy).Contents (Elt F) → (⟨S128x8192, .f32⟩ : BufTy).Contents (Elt F) → (⟨S2x8192, .f32⟩ : BufTy).Contents (Elt F)),
    StableHlo.unary main_v12 main_v14 (broadcastInDim S2x1x8192 ![0, 2] bcast_S2x8192_S2x1x8192_0_2 : (⟨S2x8192, .f32⟩ : BufTy).Contents (Elt F) → (⟨S2x1x8192, .f32⟩ : BufTy).Contents (Elt F)),
    StableHlo.nullary main_cst_2 (constant S_ .f32 0x3F800000#32),
    StableHlo.unary main_cst_2 main_v15 (broadcastInDim S2x1x8192 ![] bcast_S_S2x1x8192 : (⟨S_, .f32⟩ : BufTy).Contents (Elt F) → (⟨S2x1x8192, .f32⟩ : BufTy).Contents (Elt F)),
    StableHlo.binary main_v15 main_v14 main_v16 (addf : (⟨S2x1x8192, .f32⟩ : BufTy).Contents (Elt F) → (⟨S2x1x8192, .f32⟩ : BufTy).Contents (Elt F) → (⟨S2x1x8192, .f32⟩ : BufTy).Contents (Elt F)),
    StableHlo.unary main_v16 main_v17 (broadcastInDim S2x2048x8192 ![0, 1, 2] bcast_S2x1x8192_S2x2048x8192_0_1_2 : (⟨S2x1x8192, .f32⟩ : BufTy).Contents (Elt F) → (⟨S2x2048x8192, .f32⟩ : BufTy).Contents (Elt F)),
    StableHlo.binary main_v11 main_v17 main_v18 (mulf : (⟨S2x2048x8192, .f32⟩ : BufTy).Contents (Elt F) → (⟨S2x2048x8192, .f32⟩ : BufTy).Contents (Elt F) → (⟨S2x2048x8192, .f32⟩ : BufTy).Contents (Elt F)),
    StableHlo.unary main_v13 main_v19 (broadcastInDim S2x1x8192 ![0, 2] bcast_S2x8192_S2x1x8192_0_2 : (⟨S2x8192, .f32⟩ : BufTy).Contents (Elt F) → (⟨S2x1x8192, .f32⟩ : BufTy).Contents (Elt F)),
    StableHlo.unary main_v19 main_v20 (broadcastInDim S2x2048x8192 ![0, 1, 2] bcast_S2x1x8192_S2x2048x8192_0_1_2 : (⟨S2x1x8192, .f32⟩ : BufTy).Contents (Elt F) → (⟨S2x2048x8192, .f32⟩ : BufTy).Contents (Elt F)),
    StableHlo.binary main_v18 main_v20 main_v21 (addf : (⟨S2x2048x8192, .f32⟩ : BufTy).Contents (Elt F) → (⟨S2x2048x8192, .f32⟩ : BufTy).Contents (Elt F) → (⟨S2x2048x8192, .f32⟩ : BufTy).Contents (Elt F)),
    StableHlo.unary main_v21 main_v22 ((truncf .bf16 · bitsLt_bf16_f32) : (⟨S2x2048x8192, .f32⟩ : BufTy).Contents (Elt F) → (⟨S2x2048x8192, .bf16⟩ : BufTy).Contents (Elt F)) ]

set_option maxRecDepth 2048 in

theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., binary_bufs_sub .., unary_bufs_sub .., nullary_bufs_sub ..,
    unary_bufs_sub .., binary_bufs_sub .., unary_bufs_sub .., binary_bufs_sub .., unary_bufs_sub .., unary_bufs_sub ..,
    binary_bufs_sub .., unary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 400000 in

theorem out_eq (V : Valuation τ sig (Elt F)) :
    after ops V (main_v22 : DevRef τ sig)
      = out (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl
theorem arg1_eq (V : Valuation τ sig (Elt F)) :
    after ops V (main_arg1 : DevRef τ sig) = V (main_arg1 : DevRef τ sig) := by
  simp only [after_cons, after_nil]
  rfl
theorem arg2_eq (V : Valuation τ sig (Elt F)) :
    after ops V (main_arg2 : DevRef τ sig) = V (main_arg2 : DevRef τ sig) := by
  simp only [after_cons, after_nil]
  rfl
theorem arg3_eq (V : Valuation τ sig (Elt F)) :
    after ops V (main_arg3 : DevRef τ sig) = V (main_arg3 : DevRef τ sig) := by
  simp only [after_cons, after_nil]
  rfl

theorem run (m' : (ℓ : Loc nD τ sig) → Buf (Elt F) ℓ) (g' : Dev nD → PrngReg) :
    θ_run (defs (F := F)) (onTc (τ := τ) (main (F := F))) ⟨m', fun _ => 0, g'⟩ (fun r =>
      r.2.mem (((0 : Dev nD).tc : Thread nD τ).loc main_v22)
          = out (m' (((0 : Dev nD).tc : Thread nD τ).loc main_arg0)) (m' (((0 : Dev nD).tc : Thread nD τ).loc main_arg1))
              (m' (((0 : Dev nD).tc : Thread nD τ).loc main_arg2)) (m' (((0 : Dev nD).tc : Thread nD τ).loc main_arg3))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)
      ∧ r.2.mem (((0 : Dev nD).tc : Thread nD τ).loc main_arg2) = m' (((0 : Dev nD).tc : Thread nD τ).loc main_arg2)
      ∧ r.2.mem (((0 : Dev nD).tc : Thread nD τ).loc main_arg3) = m' (((0 : Dev nD).tc : Thread nD τ).loc main_arg3)) :=
  (θ_run defs _ _).mono (fun _ h => ⟨(h 0 main_v22).trans (out_eq _), (h 0 main_arg0).trans (arg0_eq _),
      (h 0 main_arg1).trans (arg1_eq _), (h 0 main_arg2).trans (arg2_eq _), (h 0 main_arg3).trans (arg3_eq _)⟩)
    (run_main m' g')

end Cert.ReferenceIdeal.RefRun

end
-- ==== Proof.RefEq.lean ====
import proofs.«900762_g7700000000000763_dist_diff_adaln_cshard_i_b2_s2048_c512_v7x_i16_bf16_1_alg».proof.Proof.RefTerm
import proofs.«900762_g7700000000000763_dist_diff_adaln_cshard_i_b2_s2048_c512_v7x_i16_bf16_1_alg».proof.Proof.RefSpec
import Idealize.ShloMosaic.PureOps.Ideal.Laws
import Idealize.ShloMosaic.Lib.ValueIdx

noncomputable section

open scoped BigOperators

namespace Cert.ReferenceIdeal.RefEq

open Cert.ReferenceIdeal Cert.ReferenceIdeal.RefTerm Idealize.ShloMosaic Idealize.ShloMosaic.ValueIdx
open Facts₀

theorem rowLen_eq : Cert.Spec.rowLen = ((8192 : ℝ) : EReal) := by
  unfold Cert.Spec.rowLen
  simp [Ideal.ofBits, Ideal.ieee, -EReal.coe_mul]; norm_num

theorem rowLen_pos : (0 : EReal) < Cert.Spec.rowLen := by
  rw [rowLen_eq]; exact EReal.coe_pos.mpr (by norm_num)

theorem count_apply (i : S_.Idx) : count (F := Ideal) i = Cert.Spec.rowLen := by
  show Ideal.ofBits .f32 0x46000000#32 - (((0#32 : BitVec 32).toInt : ℝ) : EReal) = _
  simp [Cert.Spec.rowLen]

theorem rowSum_apply (v : Full Ideal) (b : Fin 2) (s : Fin 2048) (z : Fin 1) :
    rowSum v (ix3 b s z) = ∑ j : Fin 8192, v (ix3 b s j) := by
  have hR : S2x2048x8192.Reduces [2] S2x2048 := by decide
  show Ideal.hostReduceAdd reducesTo_S2x2048x8192_S2x2048_d2 v (Ideal.ofBits .f32 0x00000000#32) _ = _
  rw [Ideal.hostReduceAdd_single _ hR, Ideal.ofBits_zero_f32, zero_add]
  refine Finset.sum_congr rfl fun k _ => congrArg v ?_
  funext a
  match a with
  | ⟨0, _⟩ => rfl
  | ⟨1, _⟩ => rfl
  | ⟨2, _⟩ => rfl

theorem spreadRows_apply (r : Rows Ideal) (b : Fin 2) (s : Fin 2048) (j : Fin 8192) :
    spreadRows r (ix3 b s j) = r (ix3 b s 0) := by
  refine congrArg r (funext fun a => ?_)
  match a with
  | ⟨0, _⟩ => rfl
  | ⟨1, _⟩ => rfl
  | ⟨2, _⟩ => rfl

theorem spreadCols_apply (c : Cols Ideal) (b : Fin 2) (s : Fin 2048) (j : Fin 8192) :
    spreadCols c (ix3 b s j) = c (ix3 b 0 j) := by
  refine congrArg c (funext fun a => ?_)
  match a with
  | ⟨0, _⟩ => rfl
  | ⟨1, _⟩ => rfl
  | ⟨2, _⟩ => rfl

theorem rowMean_apply (x : Full Ideal) (b : Fin 2) (s : Fin 2048) (z : Fin 1) :
    rowMean x (ix3 b s z) = Cert.Spec.mean x b s := by
  show Ideal.div (rowSum x (ix3 b s z)) (rowConst (F := Ideal) 0x46000000#32 (ix3 b s z)) = _
  rw [rowSum_apply]
  rfl

theorem centred_apply (x : Full Ideal) (b : Fin 2) (s : Fin 2048) (j : Fin 8192) :
    centred x (ix3 b s j) = x (ix3 b s j) - Cert.Spec.mean x b s := by
  show x (ix3 b s j) - spreadRows (rowMean x) (ix3 b s j) = _
  rw [spreadRows_apply, rowMean_apply]

theorem rowVar_apply (x : Full Ideal) (b : Fin 2) (s : Fin 2048) (z : Fin 1) :
    rowVar x (ix3 b s z) = Cert.Spec.var x b s := by
  show Scalar.select (Ideal.cmp .ogt (count (F := Ideal) _) (Ideal.ofBits .f32 0x00000000#32))
      (Ideal.div (rowSum (mulf (centred x) (centred x)) (ix3 b s z)) (count (F := Ideal) _))
      (rowConst (F := Ideal) 0x7FC00000#32 (ix3 b s z)) = _
  rw [count_apply, Ideal.ofBits_zero_f32, rowSum_apply]
  have hc : Ideal.cmp .ogt Cert.Spec.rowLen 0 = 1#1 := by
    simp [Ideal.cmp, rowLen_pos]
  rw [hc, select_one]
  unfold Cert.Spec.var
  refine congrArg (fun S => Ideal.div S Cert.Spec.rowLen) (Finset.sum_congr rfl fun j _ => ?_)
  show centred x (ix3 b s j) * centred x (ix3 b s j) = _
  rw [centred_apply]

theorem normed_apply (x : Full Ideal) (b : Fin 2) (s : Fin 2048) (j : Fin 8192) :
    normed x (ix3 b s j)
      = Ideal.div (x (ix3 b s j) - Cert.Spec.mean x b s) (Ideal.sqrt (Cert.Spec.var x b s + Cert.Spec.eps)) := by
  show Ideal.div (centred x (ix3 b s j))
      (spreadRows (Host.sqrt (addf (rowVar x) (rowConst (F := Ideal) 0x3727C5AC#32))) (ix3 b s j)) = _
  rw [centred_apply, spreadRows_apply]
  show Ideal.div _ (Ideal.sqrt (rowVar x (ix3 b s 0) + rowConst (F := Ideal) 0x3727C5AC#32 (ix3 b s 0))) = _
  rw [rowVar_apply]
  rfl

theorem dot_rank : dot_S2x128_S128x8192_S2x8192_1_0_0_1_n_n.contr.rank = 1 := by decide
theorem dot_size : dot_S2x128_S128x8192_S2x8192_1_0_0_1_n_n.contr.size ⟨0, by rw [dot_rank]; exact Nat.one_pos⟩ = 128 := by decide

theorem colProj_apply (t : (⟨S2x128, .f32⟩ : BufTy).Contents (Elt Ideal)) (w : (⟨S128x8192, .f32⟩ : BufTy).Contents (Elt Ideal))
    (b : Fin 2) (z : Fin 1) (j : Fin 8192) :
    colProj t w (ix3 b z j) = Cert.Spec.proj t w b j := by
  show FloatOps.dotGeneral (F := Ideal) dot_S2x128_S128x8192_S2x8192_1_0_0_1_n_n none .single t w _ = _
  rw [Ideal.dotGeneral_apply]
  unfold Cert.Spec.proj
  rw [← Equiv.sum_comp (contrEquiv1 dot_S2x128_S128x8192_S2x8192_1_0_0_1_n_n 128 dot_rank dot_size).symm]
  refine Finset.sum_congr rfl fun k _ => ?_
  congr 2
  · funext a
    match a with
    | ⟨0, _⟩ => rfl
    | ⟨1, _⟩ => exact Fin.ext (contrEquiv1_symm_val _ 128 dot_rank dot_size k)
  · funext a
    match a with
    | ⟨0, _⟩ => exact Fin.ext (contrEquiv1_symm_val _ 128 dot_rank dot_size k)
    | ⟨1, _⟩ => rfl

theorem out_eq_refOut (x : Full Ideal) (t : (⟨S2x128, .f32⟩ : BufTy).Contents (Elt Ideal))
    (ws wsh : (⟨S128x8192, .f32⟩ : BufTy).Contents (Elt Ideal)) :
    out x t ws wsh = Cert.Spec.refOut x t ws wsh := by
  funext i
  obtain ⟨b, s, j, rfl⟩ : ∃ b s j, i = ix3 b s j := ⟨i 0, i 1, i 2, eq_ix3 i⟩
  rw [Cert.Spec.refOut_ix3]
  show normed x (ix3 b s j)
        * spreadCols (addf (broadcastInDim S2x1x8192 ![] bcast_S_S2x1x8192 (constant (F := Ideal) S_ .f32 0x3F800000#32)) (colProj t ws)) (ix3 b s j)
      + spreadCols (colProj t wsh) (ix3 b s j) = _
  rw [normed_apply, spreadCols_apply, spreadCols_apply, colProj_apply]
  show _ * (Ideal.ofBits .f32 0x3F800000#32 + colProj t ws (ix3 b 0 j)) + _ = _
  rw [colProj_apply]
  rfl

end Cert.ReferenceIdeal.RefEq

end
-- ==== Proof.RefValue.lean ====
import proofs.«900762_g7700000000000763_dist_diff_adaln_cshard_i_b2_s2048_c512_v7x_i16_bf16_1_alg».proof.Proof.RefRun
import proofs.«900762_g7700000000000763_dist_diff_adaln_cshard_i_b2_s2048_c512_v7x_i16_bf16_1_alg».proof.Proof.RefEq

noncomputable section

namespace Cert.ReferenceIdeal.RefValue

open Cert.ReferenceIdeal Idealize.ShloMosaic Idealize.ShloMosaic.TcCoe Idealize.SL.Sem

theorem run_refOut (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v22)
          = Cert.Spec.refOut (m' (((0 : Dev nD).tc : Thread nD τ).loc main_arg0)) (m' (((0 : Dev nD).tc : Thread nD τ).loc main_arg1))
              (m' (((0 : Dev nD).tc : Thread nD τ).loc main_arg2)) (m' (((0 : Dev nD).tc : Thread nD τ).loc main_arg3))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)
      ∧ r.2.mem (((0 : Dev nD).tc : Thread nD τ).loc main_arg2) = m' (((0 : Dev nD).tc : Thread nD τ).loc main_arg2)
      ∧ r.2.mem (((0 : Dev nD).tc : Thread nD τ).loc main_arg3) = m' (((0 : Dev nD).tc : Thread nD τ).loc main_arg3)) :=
  (θ_run defs _ _).mono (fun _ h => ⟨h.1.trans (RefEq.out_eq_refOut _ _ _ _), h.2⟩) (RefRun.run m' g')

theorem run_frame (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun _ h c => by
    obtain rfl : c = 0 := Subsingleton.elim _ _
    exact h.2) (RefRun.run m' g')

end Cert.ReferenceIdeal.RefValue

end
-- ==== Proof.lean ====
import proofs.«900762_g7700000000000763_dist_diff_adaln_cshard_i_b2_s2048_c512_v7x_i16_bf16_1_alg».proof.Defs
import proofs.«900762_g7700000000000763_dist_diff_adaln_cshard_i_b2_s2048_c512_v7x_i16_bf16_1_alg».proof.Proof.Gen.Kernel
import proofs.«900762_g7700000000000763_dist_diff_adaln_cshard_i_b2_s2048_c512_v7x_i16_bf16_1_alg».proof.Proof.Gen.KernelIdeal
import proofs.«900762_g7700000000000763_dist_diff_adaln_cshard_i_b2_s2048_c512_v7x_i16_bf16_1_alg».proof.Proof.Gen.ReferenceIdeal
import proofs.«900762_g7700000000000763_dist_diff_adaln_cshard_i_b2_s2048_c512_v7x_i16_bf16_1_alg».proof.Proof.Gen.Pre_finite_inputs_Kernel
import proofs.«900762_g7700000000000763_dist_diff_adaln_cshard_i_b2_s2048_c512_v7x_i16_bf16_1_alg».proof.Proof.Gen.Pre_finite_inputs_ReferenceIdeal
import proofs.«900762_g7700000000000763_dist_diff_adaln_cshard_i_b2_s2048_c512_v7x_i16_bf16_1_alg».proof.Proof.KRun
import proofs.«900762_g7700000000000763_dist_diff_adaln_cshard_i_b2_s2048_c512_v7x_i16_bf16_1_alg».proof.Proof.KOut
import proofs.«900762_g7700000000000763_dist_diff_adaln_cshard_i_b2_s2048_c512_v7x_i16_bf16_1_alg».proof.Proof.Glue
import proofs.«900762_g7700000000000763_dist_diff_adaln_cshard_i_b2_s2048_c512_v7x_i16_bf16_1_alg».proof.Proof.RefValue
import Idealize.ShloMosaic.Adequacy
import Idealize.ShloMosaic.Init

noncomputable section

namespace Cert.Proof

open Idealize.ShloMosaic Idealize.SL.Sem

-- The idealisation rewrote nothing, so the two printed programs are one term: the run proved for every float type serves both.
set_option smartUnfolding false in
theorem frame_Kernel : Cert.frame_Kernel (hKernel := Cert.Kernel.Gen.facts) (hPre_finite_inputs_Kernel := Cert.Pre_finite_inputs_Kernel.Gen.facts) :=
  fun m ρ _ => (θ_run _ _ _).mono (fun _ h c => (h c).2) (Cert.KernelIdeal.KP.run (F := Bits) m ρ)

theorem frame_KernelIdeal : Cert.frame_KernelIdeal (hKernelIdeal := Cert.KernelIdeal.Gen.facts) (hPre_finite_inputs_Kernel := Cert.Pre_finite_inputs_Kernel.Gen.facts) :=
  fun m ρ _ => (θ_run _ _ _).mono (fun _ h c => (h c).2) (Cert.KernelIdeal.KP.run (F := Ideal) m ρ)

theorem frame_ReferenceIdeal : Cert.frame_ReferenceIdeal (hReferenceIdeal := Cert.ReferenceIdeal.Gen.facts)
    (hPre_finite_inputs_ReferenceIdeal := Cert.Pre_finite_inputs_ReferenceIdeal.Gen.facts) :=
  fun m g _ => Cert.ReferenceIdeal.RefValue.run_frame m g

theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  fun m g m' g' hpre hagree =>
    ⟨Cert.Spec.refOut (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3)),
      (θ_run _ _ _).mono (fun _ h c =>
          ⟨(h c).1.trans ((Cert.KernelIdeal.KPay.outC_eq_kOut m c).trans (Cert.Spec.kOut_eq_block m m' hpre hagree c)), (h c).2⟩)
        (Cert.KernelIdeal.KP.run (F := Ideal) m g),
      Cert.ReferenceIdeal.RefValue.run_refOut m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
